-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v133)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S256 .f32) (main_arg17 : FVec F S256x1 .f32) (main_arg18 : FVec F S1 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x1 .f32 := Host.absf main_arg17
  let main_cst_28 : FVec F S_ .f32 := constant S_ .f32 0x7F800000#32
  let main_v75 : FVec F S256x1 .f32 := broadcastInDim S256x1 ![] bcast_S_S256x1 main_cst_28
  let main_v76 : IVec S256x1 1 := cmpf .olt main_v74 main_v75
  let main_c_29 : IVec S_ 1 := constantI S_ 1 1#1
  let main_v77 : IVec S_ 1 := (fun x v => Host.reduce IntOp.andi x v reducesTo_S256x1_S_d0_1 h_S_) main_v76 main_c_29
  let main_v78 : IVec S_ 1 := andi main_v73 main_v77
  let main_v79 : FVec F S1 .f32 := Host.absf main_arg18
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg13 : FVec F S256x256 .f32) (main_arg14 : FVec F S256 .f32) (main_arg15 : FVec F S256 .f32) (main_arg16 : FVec F S256 .f32) (main_arg17 : FVec F S256x1 .f32) (main_arg18 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg13
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg16 main_arg17 main_arg18 main_v63 main_v67

def fn_part2 {F : FTy → Type} [FloatOps F] (main_arg9 : FVec F S128x256 .f32) (main_arg10 : FVec F S256 .f32) (main_arg11 : FVec F S256 .f32) (main_arg12 : FVec F S256 .f32) (main_arg13 : FVec F S256x256 .f32) (main_arg14 : FVec F S256 .f32) (main_arg15 : FVec F S256 .f32) (main_arg16 : FVec F S256 .f32) (main_arg17 : FVec F S256x1 .f32) (main_arg18 : FVec F S1 .f32) (main_v33 : IVec S_ 1) : IVec S_ 1 :=
  let main_v34 : FVec F S128x256 .f32 := Host.absf main_arg9
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_arg17 main_arg18 main_v48 main_v49 main_v50

def fn_part1 {F : FTy → Type} [FloatOps F] (main_arg6 : FVec F S2x128 .f32) (main_arg7 : FVec F S2x128 .f32) (main_arg8 : FVec F S2x128 .f32) (main_arg9 : FVec F S128x256 .f32) (main_arg10 : FVec F S256 .f32) (main_arg11 : FVec F S256 .f32) (main_arg12 : FVec F S256 .f32) (main_arg13 : FVec F S256x256 .f32) (main_arg14 : FVec F S256 .f32) (main_arg15 : FVec F S256 .f32) (main_arg16 : FVec F S256 .f32) (main_arg17 : FVec F S256x1 .f32) (main_arg18 : FVec F S1 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128 .f32 := Host.absf main_arg6
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2x128 .f32 := Host.absf main_arg7
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2x128 .f32 := Host.absf main_arg8
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S2x128x128 .f32) (main_arg6 : FVec F S2x128 .f32) (main_arg7 : FVec F S2x128 .f32) (main_arg8 : FVec F S2x128 .f32) (main_arg9 : FVec F S128x256 .f32) (main_arg10 : FVec F S256 .f32) (main_arg11 : FVec F S256 .f32) (main_arg12 : FVec F S256 .f32) (main_arg13 : FVec F S256x256 .f32) (main_arg14 : FVec F S256 .f32) (main_arg15 : FVec F S256 .f32) (main_arg16 : FVec F S256 .f32) (main_arg17 : FVec F S256x1 .f32) (main_arg18 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2x128x128 .f32 := Host.absf main_arg5
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S5000x128 : Shape := ⟨2, ![5000, 128]⟩
abbrev S800000x128 : Shape := ⟨2, ![800000, 128]⟩
abbrev S1x128 : Shape := ⟨2, ![1, 128]⟩
abbrev S5000x1 : Shape := ⟨2, ![5000, 1]⟩
abbrev S1x128x128 : Shape := ⟨3, ![1, 128, 128]⟩
abbrev S64 : Shape := ⟨1, ![64]⟩
abbrev S1x64 : Shape := ⟨2, ![1, 64]⟩
abbrev S50000x64 : Shape := ⟨2, ![50000, 64]⟩
abbrev S64x128 : Shape := ⟨2, ![64, 128]⟩
abbrev S5000x64 : Shape := ⟨2, ![5000, 64]⟩
abbrev S64x5000 : Shape := ⟨2, ![64, 5000]⟩
abbrev S1x256 : Shape := ⟨2, ![1, 256]⟩
abbrev S1x1 : Shape := ⟨2, ![1, 1]⟩
abbrev S64x1 : Shape := ⟨2, ![64, 1]⟩
abbrev S64x256 : Shape := ⟨2, ![64, 256]⟩

abbrev nBuf : Space → Nat
  | .hbm => 177
  | .vmem => 83
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S2x128x128, .f32⟩
  | 6 => ⟨S2x128, .f32⟩
  | 7 => ⟨S2x128, .f32⟩
  | 8 => ⟨S2x128, .f32⟩
  | 9 => ⟨S128x256, .f32⟩
  | 10 => ⟨S256, .f32⟩
  | 11 => ⟨S256, .f32⟩
  | 12 => ⟨S256, .f32⟩
  | 13 => ⟨S256x256, .f32⟩
  | 14 => ⟨S256, .f32⟩
  | 15 => ⟨S256, .f32⟩
  | 16 => ⟨S256, .f32⟩
  | 17 => ⟨S256x1, .f32⟩
  | 18 => ⟨S1, .f32⟩
  | 19 => ⟨S1x800000, .i32⟩
  | 20 => ⟨S800000, .i32⟩
  | 21 => ⟨S1x800000, .i32⟩
  | 22 => ⟨S800000, .i32⟩
  | 23 => ⟨S_, .f32⟩
  | 24 => ⟨S800000, .f32⟩
  | 25 => ⟨S_, .f32⟩
  | 26 => ⟨S50000, .f32⟩
  | 27 => ⟨S800000x1, .i32⟩
  | 28 => ⟨S50000, .f32⟩
  | 29 => ⟨S_, .f32⟩
  | 30 => ⟨S50000, .f32⟩
  | 31 => ⟨S50000, .f32⟩
  | 32 => ⟨S50000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000, .f32⟩
  | 51 => ⟨S800000, .f32⟩
  | 52 => ⟨S50000, .f32⟩
  | 53 => ⟨S50000x1, .f32⟩
  | 54 => ⟨S50000x128, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S800000x1, .f32⟩
  | 65 => ⟨S800000x128, .f32⟩
  | 66 => ⟨S800000x128, .f32⟩
  | 67 => ⟨S_, .f32⟩
  | 68 => ⟨S50000x128, .f32⟩
  | 69 => ⟨S800000x1, .i32⟩
  | 70 => ⟨S50000x128, .f32⟩
  | 71 => ⟨S1x128, .f32⟩
  | 72 => ⟨S50000x128, .f32⟩
  | 73 => ⟨S1x128x128, .f32⟩
  | 74 => ⟨S128x128, .f32⟩
  | 75 => ⟨S1x128, .f32⟩
  | 76 => ⟨S128, .f32⟩
  | 77 => ⟨S50000x128, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .f32⟩
  | 87 => ⟨S800000x1, .f32⟩
  | 88 => ⟨S800000x128, .f32⟩
  | 89 => ⟨S800000x128, .f32⟩
  | 90 => ⟨S_, .f32⟩
  | 91 => ⟨S50000x128, .f32⟩
  | 92 => ⟨S800000x1, .i32⟩
  | 93 => ⟨S50000x128, .f32⟩
  | 94 => ⟨S1x128, .f32⟩
  | 95 => ⟨S50000x128, .f32⟩
  | 96 => ⟨S1x128, .f32⟩
  | 97 => ⟨S1x128, .f32⟩
  | 98 => ⟨S_, .f32⟩
  | 99 => ⟨S1x128, .f32⟩
  | 100 => ⟨S1x128, .f32⟩
  | 101 => ⟨S_, .f32⟩
  | 102 => ⟨S1x128, .f32⟩
  | 103 => ⟨S1x128, .f32⟩
  | 104 => ⟨S1x128, .f32⟩
  | 105 => ⟨S1x128, .f32⟩
  | 106 => ⟨S_, .f32⟩
  | 107 => ⟨S1x128, .f32⟩
  | 108 => ⟨S1x128, .f32⟩
  | 109 => ⟨S1x128, .f32⟩
  | 110 => ⟨S1x128, .f32⟩
  | 111 => ⟨S128, .f32⟩
  | 112 => ⟨S1x128, .f32⟩
  | 113 => ⟨S1x128, .f32⟩
  | 114 => ⟨S128, .f32⟩
  | 115 => ⟨S1x128, .f32⟩
  | 116 => ⟨S50000x128, .f32⟩
  | 117 => ⟨S1x128x128, .f32⟩
  | 118 => ⟨S128x128, .f32⟩
  | 119 => ⟨S1x128, .f32⟩
  | 120 => ⟨S128, .f32⟩
  | 121 => ⟨S50000x128, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x128, .f32⟩

abbrev hbmTy0_1 (i : Nat) : BufTy := match i % 128 with
  | 0 => ⟨S800000, .i32⟩
  | 1 => ⟨S800000x1, .i32⟩
  | 2 => ⟨S800000x128, .f32⟩
  | 3 => ⟨S800000x1, .f32⟩
  | 4 => ⟨S800000x128, .f32⟩
  | 5 => ⟨S800000x128, .f32⟩
  | 6 => ⟨S_, .f32⟩
  | 7 => ⟨S50000x128, .f32⟩
  | 8 => ⟨S800000x1, .i32⟩
  | 9 => ⟨S50000x128, .f32⟩
  | 10 => ⟨S1x128, .f32⟩
  | 11 => ⟨S50000x128, .f32⟩
  | 12 => ⟨S1x128, .f32⟩
  | 13 => ⟨S1x128, .f32⟩
  | 14 => ⟨S_, .f32⟩
  | 15 => ⟨S1x128, .f32⟩
  | 16 => ⟨S1x128, .f32⟩
  | 17 => ⟨S_, .f32⟩
  | 18 => ⟨S1x128, .f32⟩
  | 19 => ⟨S1x128, .f32⟩
  | 20 => ⟨S1x128, .f32⟩
  | 21 => ⟨S1x128, .f32⟩
  | 22 => ⟨S_, .f32⟩
  | 23 => ⟨S1x128, .f32⟩
  | 24 => ⟨S1x128, .f32⟩
  | 25 => ⟨S1x128, .f32⟩
  | 26 => ⟨S1x128, .f32⟩
  | 27 => ⟨S128, .f32⟩
  | 28 => ⟨S1x128, .f32⟩
  | 29 => ⟨S1x128, .f32⟩
  | 30 => ⟨S128, .f32⟩
  | 31 => ⟨S1x128, .f32⟩
  | 32 => ⟨S50000x128, .f32⟩
  | 33 => ⟨S50000x1, .i32⟩
  | 34 => ⟨S64, .i32⟩
  | 35 => ⟨S1x64, .i32⟩
  | 36 => ⟨S50000x64, .i32⟩
  | 37 => ⟨S50000x64, .i32⟩
  | 38 => ⟨S50000x64, .i1⟩
  | 39 => ⟨S50000x64, .f32⟩
  | 40 => ⟨S64x128, .f32⟩
  | 41 => ⟨S1x256, .f32⟩
  | 42 => ⟨S1x256, .f32⟩
  | 43 => ⟨S1x256, .f32⟩
  | 44 => ⟨S1x256, .f32⟩
  | 45 => ⟨S1x256, .f32⟩
  | 46 => ⟨S1x256, .f32⟩
  | 47 => ⟨S1x1, .f32⟩
  | 48 => ⟨S64x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x1, .f32⟩
  | .local _ .vmem, ⟨50, _⟩ => ⟨S5000x1, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S5000x128, .f32⟩
  | .local _ .vmem, ⟨65, _⟩ => ⟨S5000x128, .f32⟩
  | .local _ .vmem, ⟨66, _⟩ => ⟨S5000x64, .f32⟩
  | .local _ .vmem, ⟨67, _⟩ => ⟨S5000x64, .f32⟩
  | .local _ .vmem, ⟨68, _⟩ => ⟨S5000x128, .f32⟩
  | .local _ .vmem, ⟨69, _⟩ => ⟨S5000x128, .f32⟩
  | .local _ .vmem, ⟨70, _⟩ => ⟨S64x128, .f32⟩
  | .local _ .vmem, ⟨71, _⟩ => ⟨S64x128, .f32⟩
  | .local _ .vmem, ⟨72, _⟩ => ⟨S128x256, .f32⟩
  | .local _ .vmem, ⟨73, _⟩ => ⟨S1x256, .f32⟩
  | .local _ .vmem, ⟨74, _⟩ => ⟨S1x256, .f32⟩
  | .local _ .vmem, ⟨75, _⟩ => ⟨S1x256, .f32⟩
  | .local _ .vmem, ⟨76, _⟩ => ⟨S256x256, .f32⟩
  | .local _ .vmem, ⟨77, _⟩ => ⟨S1x256, .f32⟩
  | .local _ .vmem, ⟨78, _⟩ => ⟨S1x256, .f32⟩
  | .local _ .vmem, ⟨79, _⟩ => ⟨S1x256, .f32⟩
  | .local _ .vmem, ⟨80, _⟩ => ⟨S256x1, .f32⟩
  | .local _ .vmem, ⟨81, _⟩ => ⟨S1x1, .f32⟩
  | .local _ .vmem, ⟨82, _⟩ => ⟨S64x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | _, _ => false

abbrev semScoped : Fin 0 → Bool
  | ⟨_, h⟩ => absurd h (Nat.not_lt_zero _)

abbrev dmaSemScoped : Fin 83 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | _ => false

abbrev sig : RefSig :=
  ofTc nBuf bufTy 0 83 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_c_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_5 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_7 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_8 : Ref sig .tc := ⟨.hbm, 78, rfl⟩
abbrev main_v49 : Ref sig .tc := ⟨.hbm, 79, rfl⟩
abbrev main_v50 : Ref sig .tc := ⟨.hbm, 80, rfl⟩
abbrev main_c_9 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_10 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64_0 : Ref sig .tc := ⟨.hbm, 96, rfl⟩
abbrev main_v64_1 : Ref sig .tc := ⟨.hbm, 97, rfl⟩
abbrev main_cst_11 : Ref sig .tc := ⟨.hbm, 98, rfl⟩
abbrev main_v65 : Ref sig .tc := ⟨.hbm, 99, rfl⟩
abbrev main_v66 : Ref sig .tc := ⟨.hbm, 100, rfl⟩
abbrev main_cst_12 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_13 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_c_14 : Ref sig .tc := ⟨.hbm, 122, rfl⟩
abbrev main_v86 : Ref sig .tc := ⟨.hbm, 123, rfl⟩
abbrev main_v87 : Ref sig .tc := ⟨.hbm, 124, rfl⟩
abbrev main_c_15 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_16 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101_0 : Ref sig .tc := ⟨.hbm, 140, rfl⟩
abbrev main_v101_1 : Ref sig .tc := ⟨.hbm, 141, rfl⟩
abbrev main_cst_17 : Ref sig .tc := ⟨.hbm, 142, rfl⟩
abbrev main_v102 : Ref sig .tc := ⟨.hbm, 143, rfl⟩
abbrev main_v103 : Ref sig .tc := ⟨.hbm, 144, rfl⟩
abbrev main_cst_18 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_19 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg5_0 : Ref sig .tc := ⟨.vmem, 38, rfl⟩
abbrev cc5_stg5_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg2_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg1_1 : Ref sig .tc := ⟨.vmem, 48, rfl⟩
abbrev cc7_stg2_0 : Ref sig .tc := ⟨.vmem, 49, rfl⟩
abbrev cc7_stg2_1 : Ref sig .tc := ⟨.vmem, 50, rfl⟩
abbrev cc7_stg3_0 : Ref sig .tc := ⟨.vmem, 51, rfl⟩
abbrev cc7_stg4_0 : Ref sig .tc := ⟨.vmem, 52, rfl⟩
abbrev cc7_stg4_1 : Ref sig .tc := ⟨.vmem, 53, rfl⟩
abbrev cc8_stg0_0 : Ref sig .tc := ⟨.vmem, 54, rfl⟩
abbrev cc8_stg0_1 : Ref sig .tc := ⟨.vmem, 55, rfl⟩
abbrev cc8_stg1_0 : Ref sig .tc := ⟨.vmem, 56, rfl⟩
abbrev cc8_stg2_0 : Ref sig .tc := ⟨.vmem, 57, rfl⟩
abbrev cc9_stg0_0 : Ref sig .tc := ⟨.vmem, 58, rfl⟩
abbrev cc9_stg0_1 : Ref sig .tc := ⟨.vmem, 59, rfl⟩
abbrev cc9_stg1_0 : Ref sig .tc := ⟨.vmem, 60, rfl⟩
abbrev cc9_stg2_0 : Ref sig .tc := ⟨.vmem, 61, rfl⟩
abbrev cc9_stg3_0 : Ref sig .tc := ⟨.vmem, 62, rfl⟩
abbrev cc9_stg4_0 : Ref sig .tc := ⟨.vmem, 63, rfl⟩
abbrev cc9_stg5_0 : Ref sig .tc := ⟨.vmem, 64, rfl⟩
abbrev cc9_stg5_1 : Ref sig .tc := ⟨.vmem, 65, rfl⟩
abbrev cc10_stg0_0 : Ref sig .tc := ⟨.vmem, 66, rfl⟩
abbrev cc10_stg0_1 : Ref sig .tc := ⟨.vmem, 67, rfl⟩
abbrev cc10_stg1_0 : Ref sig .tc := ⟨.vmem, 68, rfl⟩
abbrev cc10_stg1_1 : Ref sig .tc := ⟨.vmem, 69, rfl⟩
abbrev cc10_stg2_0 : Ref sig .tc := ⟨.vmem, 70, rfl⟩
abbrev cc11_stg0_0 : Ref sig .tc := ⟨.vmem, 71, rfl⟩
abbrev cc11_stg1_0 : Ref sig .tc := ⟨.vmem, 72, rfl⟩
abbrev cc11_stg2_0 : Ref sig .tc := ⟨.vmem, 73, rfl⟩
abbrev cc11_stg3_0 : Ref sig .tc := ⟨.vmem, 74, rfl⟩
abbrev cc11_stg4_0 : Ref sig .tc := ⟨.vmem, 75, rfl⟩
abbrev cc11_stg5_0 : Ref sig .tc := ⟨.vmem, 76, rfl⟩
abbrev cc11_stg6_0 : Ref sig .tc := ⟨.vmem, 77, rfl⟩
abbrev cc11_stg7_0 : Ref sig .tc := ⟨.vmem, 78, rfl⟩
abbrev cc11_stg8_0 : Ref sig .tc := ⟨.vmem, 79, rfl⟩
abbrev cc11_stg9_0 : Ref sig .tc := ⟨.vmem, 80, rfl⟩
abbrev cc11_stg10_0 : Ref sig .tc := ⟨.vmem, 81, rfl⟩
abbrev cc11_stg11_0 : Ref sig .tc := ⟨.vmem, 82, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem4_0 : DmaSem sig := 37
abbrev cc5_sem5_0 : DmaSem sig := 38
abbrev cc5_sem5_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem1_1 : DmaSem sig := 48
abbrev cc7_sem2_0 : DmaSem sig := 49
abbrev cc7_sem2_1 : DmaSem sig := 50
abbrev cc7_sem3_0 : DmaSem sig := 51
abbrev cc7_sem4_0 : DmaSem sig := 52
abbrev cc7_sem4_1 : DmaSem sig := 53
abbrev cc8_sem0_0 : DmaSem sig := 54
abbrev cc8_sem0_1 : DmaSem sig := 55
abbrev cc8_sem1_0 : DmaSem sig := 56
abbrev cc8_sem2_0 : DmaSem sig := 57
abbrev cc9_sem0_0 : DmaSem sig := 58
abbrev cc9_sem0_1 : DmaSem sig := 59
abbrev cc9_sem1_0 : DmaSem sig := 60
abbrev cc9_sem2_0 : DmaSem sig := 61
abbrev cc9_sem3_0 : DmaSem sig := 62
abbrev cc9_sem4_0 : DmaSem sig := 63
abbrev cc9_sem5_0 : DmaSem sig := 64
abbrev cc9_sem5_1 : DmaSem sig := 65
abbrev cc10_sem0_0 : DmaSem sig := 66
abbrev cc10_sem0_1 : DmaSem sig := 67
abbrev cc10_sem1_0 : DmaSem sig := 68
abbrev cc10_sem1_1 : DmaSem sig := 69
abbrev cc10_sem2_0 : DmaSem sig := 70
abbrev cc11_sem0_0 : DmaSem sig := 71
abbrev cc11_sem1_0 : DmaSem sig := 72
abbrev cc11_sem2_0 : DmaSem sig := 73
abbrev cc11_sem3_0 : DmaSem sig := 74
abbrev cc11_sem4_0 : DmaSem sig := 75
abbrev cc11_sem5_0 : DmaSem sig := 76
abbrev cc11_sem6_0 : DmaSem sig := 77
abbrev cc11_sem7_0 : DmaSem sig := 78
abbrev cc11_sem8_0 : DmaSem sig := 79
abbrev cc11_sem9_0 : DmaSem sig := 80
abbrev cc11_sem10_0 : DmaSem sig := 81
abbrev cc11_sem11_0 : DmaSem sig := 82

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S64x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_8 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_9 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_10 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_11 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 1 → Memref sig .tc .vmem S64x128 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![false]

abbrev stage11_1 : Fin 1 → Memref sig .tc .vmem S128x256 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x256 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x256 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x256 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S256x256 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x256 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 1 → Memref sig .tc .vmem S1x256 .f32 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))
abbrev reads11_7 : Fin grid11.rank → Bool := ![false]

abbrev stage11_8 : Fin 1 → Memref sig .tc .vmem S1x256 .f32 := fun | 0 => Memref.whole cc11_stg8_0 | ⟨_ + 1, h⟩ => absurd h (Nat.not_lt.2 (Nat.le_add_left _ _))
abbrev sem11_8 : Fin 1 → DmaSem sig := fun | 0 => cc11_sem8_0 | ⟨_ + 1, h⟩ => absurd h (Nat.not_lt.2 (Nat.le_add_left _ _))
abbrev reads11_8 : Fin grid11.rank → Bool := ![false]

abbrev stage11_9 : Fin 1 → Memref sig .tc .vmem S256x1 .f32 := fun | 0 => Memref.whole cc11_stg9_0 | ⟨_ + 1, h⟩ => absurd h (Nat.not_lt.2 (Nat.le_add_left _ _))
abbrev sem11_9 : Fin 1 → DmaSem sig := fun | 0 => cc11_sem9_0 | ⟨_ + 1, h⟩ => absurd h (Nat.not_lt.2 (Nat.le_add_left _ _))
abbrev reads11_9 : Fin grid11.rank → Bool := ![false]

abbrev stage11_10 : Fin 1 → Memref sig .tc .vmem S1x1 .f32 := fun | 0 => Memref.whole cc11_stg10_0 | ⟨_ + 1, h⟩ => absurd h (Nat.not_lt.2 (Nat.le_add_left _ _))
abbrev sem11_10 : Fin 1 → DmaSem sig := fun | 0 => cc11_sem10_0 | ⟨_ + 1, h⟩ => absurd h (Nat.not_lt.2 (Nat.le_add_left _ _))
abbrev reads11_10 : Fin grid11.rank → Bool := ![false]

abbrev stage11_11 : Fin 1 → Memref sig .tc .vmem S64x1 .f32 := fun | 0 => Memref.whole cc11_stg11_0 | ⟨_ + 1, h⟩ => absurd h (Nat.not_lt.2 (Nat.le_add_left _ _))
abbrev sem11_11 : Fin 1 → DmaSem sig := fun | 0 => cc11_sem11_0 | ⟨_ + 1, h⟩ => absurd h (Nat.not_lt.2 (Nat.le_add_left _ _))
abbrev reads11_11 : Fin grid11.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S128x128_S128x128 : S128x128.ShapeCasts S128x128
  reduces_S5000x128_S128 : S5000x128.Reduces [0] S128
  bcast_S_S1x128 : S_.BroadcastsInDim S1x128 (![] : Fin 0 → Fin S1x128.rank)
  slices_S2x128x128_S1x128x128_1_0_0 : S2x128x128.Slices ![1, 0, 0] S1x128x128
  slices_S2x128_S1x128_1_0 : S2x128.Slices ![1, 0] S1x128
  bcast_S50000_S50000x1_0 : S50000.BroadcastsInDim S50000x1 (![0] : Fin 1 → Fin S50000x1.rank)
  bcast_S64_S1x64_1 : S64.BroadcastsInDim S1x64 (![1] : Fin 1 → Fin S1x64.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  inb_S64x128_S64x128_0_0 : ∀ a, (![0, 0] : Fin 2 → Nat) a + S64x128.size a ≤ S64x128.size a
  h_S64x128 : 0 < S64x128.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  shapeCasts_S64x128_S64x128 : S64x128.ShapeCasts S64x128
  transposes_S5000x64_p1_0_S64x5000 : S5000x64.Transposes [1, 0] S64x5000
  shapeCasts_S256_S1x256 : S256.ShapeCasts S1x256
  shapeCasts_S1_S1x1 : S1.ShapeCasts S1x1
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  reduces_S64x256_S256 : S64x256.Reduces [0] S256
  inb_S256x256_S256x256_0_0 : ∀ a, (![0, 0] : Fin 2 → Nat) a + S256x256.size a ≤ S256x256.size a
  h_S256x256 : 0 < S256x256.numel
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  inb_S64x1_S64x1_0_0 : ∀ a, (![0, 0] : Fin 2 → Nat) a + S64x1.size a ≤ S64x1.size a
  h_S64x1 : 0 < S64x1.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S64x5000_S5000x128_S64x128_1_0_0_1_n_n_wf : DotDims.WF S64x5000 S5000x128 S64x128 [1] [0] [0] [1] [] []
  dot_S64x128_S128x256_S64x256_1_0_0_1_n_n_wf : DotDims.WF S64x128 S128x256 S64x256 [1] [0] [0] [1] [] []
  dot_S64x256_S256x256_S64x256_1_0_0_1_n_n_wf : DotDims.WF S64x256 S256x256 S64x256 [1] [0] [0] [1] [] []
  dot_S64x256_S256x1_S64x1_1_0_0_1_n_n_wf : DotDims.WF S64x256 S256x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S50000x1.size a
  hwx7_2 : ∀ i : grid7.Coords, EltTy.bits .f32 = 32 ∨ (Rect.block (s := S50000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S50000x128.size a
  hwx7_4 : ∀ i : grid7.Coords, EltTy.bits .f32 = 32 ∨ (Rect.block (s := S50000x128) S5000x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x128.size a ≤ S50000x128.size a
  hwx9_5 : ∀ i : grid9.Coords, EltTy.bits .f32 = 32 ∨ (Rect.block (s := S50000x128) S5000x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S50000x64.size a
  hwx10_0 : ∀ i : grid10.Coords, EltTy.bits .f32 = 32 ∨ (Rect.block (s := S50000x64) S5000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x128.size a ≤ S50000x128.size a
  hwx10_1 : ∀ i : grid10.Coords, EltTy.bits .f32 = 32 ∨ (Rect.block (s := S50000x128) S5000x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S64x128.size a ≤ S64x128.size a
  hwx10_2 : ∀ i : grid10.Coords, EltTy.bits .f32 = 32 ∨ (Rect.block (s := S64x128) S64x128.size (cc10_transform_2 i) (hinb10_2 i)).WholeWords (EltTy.packing .f32)
  hrank11 : 0 < grid11.rank
  hstage11_0 : ∀ j, (stage11_0 j).IsWhole
  nbuf11_0 : grid11.bufCount reads11_0 true = 1
  hreads11_0 : ∀ i i' : grid11.Coords, (∀ a, reads11_0 a = true → i a = i' a) → cc11_transform_0 i = cc11_transform_0 i'
  hinb11_0 : ∀ (i : grid11.Coords) a, (cc11_transform_0 i a + 1) * S64x128.size a ≤ S64x128.size a
  hwx11_0 : ∀ i : grid11.Coords, EltTy.bits .f32 = 32 ∨ (Rect.block (s := S64x128) S64x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x256.size a ≤ S128x256.size a
  hwx11_1 : ∀ i : grid11.Coords, EltTy.bits .f32 = 32 ∨ (Rect.block (s := S128x256) S128x256.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x256.size a ≤ S1x256.size a
  hwx11_2 : ∀ i : grid11.Coords, EltTy.bits .f32 = 32 ∨ (Rect.block (s := S1x256) S1x256.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x256.size a ≤ S1x256.size a
  hwx11_3 : ∀ i : grid11.Coords, EltTy.bits .f32 = 32 ∨ (Rect.block (s := S1x256) S1x256.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x256.size a ≤ S1x256.size a
  hwx11_4 : ∀ i : grid11.Coords, EltTy.bits .f32 = 32 ∨ (Rect.block (s := S1x256) S1x256.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S256x256.size a ≤ S256x256.size a
  hwx11_5 : ∀ i : grid11.Coords, EltTy.bits .f32 = 32 ∨ (Rect.block (s := S256x256) S256x256.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x256.size a ≤ S1x256.size a
  hwx11_6 : ∀ i : grid11.Coords, EltTy.bits .f32 = 32 ∨ (Rect.block (s := S1x256) S1x256.size (cc11_transform_6 i) (hinb11_6 i)).WholeWords (EltTy.packing .f32)
  hstage11_7 : ∀ j, (stage11_7 j).IsWhole
  nbuf11_7 : grid11.bufCount reads11_7 true = 1
  hreads11_7 : ∀ i i' : grid11.Coords, (∀ a, reads11_7 a = true → i a = i' a) → cc11_transform_7 i = cc11_transform_7 i'
  hinb11_7 : ∀ (i : grid11.Coords) a, (cc11_transform_7 i a + 1) * S1x256.size a ≤ S1x256.size a
  hwx11_7 : ∀ i : grid11.Coords, EltTy.bits .f32 = 32 ∨ (Rect.block (s := S1x256) S1x256.size (cc11_transform_7 i) (hinb11_7 i)).WholeWords (EltTy.packing .f32)
  hstage11_8 : ∀ j, (stage11_8 j).IsWhole
  nbuf11_8 : grid11.bufCount reads11_8 true = 1
  hreads11_8 : ∀ i i' : grid11.Coords, (∀ a, reads11_8 a = true → i a = i' a) → cc11_transform_8 i = cc11_transform_8 i'
  hinb11_8 : ∀ (i : grid11.Coords) a, (cc11_transform_8 i a + 1) * S1x256.size a ≤ S1x256.size a
  hwx11_8 : ∀ i : grid11.Coords, EltTy.bits .f32 = 32 ∨ (Rect.block (s := S1x256) S1x256.size (cc11_transform_8 i) (hinb11_8 i)).WholeWords (EltTy.packing .f32)
  hstage11_9 : ∀ j, (stage11_9 j).IsWhole
  nbuf11_9 : grid11.bufCount reads11_9 true = 1
  hreads11_9 : ∀ i i' : grid11.Coords, (∀ a, reads11_9 a = true → i a = i' a) → cc11_transform_9 i = cc11_transform_9 i'
  hinb11_9 : ∀ (i : grid11.Coords) a, (cc11_transform_9 i a + 1) * S256x1.size a ≤ S256x1.size a
  hwx11_9 : ∀ i : grid11.Coords, EltTy.bits .f32 = 32 ∨ (Rect.block (s := S256x1) S256x1.size (cc11_transform_9 i) (hinb11_9 i)).WholeWords (EltTy.packing .f32)
  hstage11_10 : ∀ j, (stage11_10 j).IsWhole
  nbuf11_10 : grid11.bufCount reads11_10 true = 1
  hreads11_10 : ∀ i i' : grid11.Coords, (∀ a, reads11_10 a = true → i a = i' a) → cc11_transform_10 i = cc11_transform_10 i'
  hinb11_10 : ∀ (i : grid11.Coords) a, (cc11_transform_10 i a + 1) * S1x1.size a ≤ S1x1.size a
  hwx11_10 : ∀ i : grid11.Coords, EltTy.bits .f32 = 32 ∨ (Rect.block (s := S1x1) S1x1.size (cc11_transform_10 i) (hinb11_10 i)).WholeWords (EltTy.packing .f32)
  hstage11_11 : ∀ j, (stage11_11 j).IsWhole
  nbuf11_11 : grid11.bufCount reads11_11 true = 1
  hreads11_11 : ∀ i i' : grid11.Coords, (∀ a, reads11_11 a = true → i a = i' a) → cc11_transform_11 i = cc11_transform_11 i'
  hinb11_11 : ∀ (i : grid11.Coords) a, (cc11_transform_11 i a + 1) * S64x1.size a ≤ S64x1.size a
  hwx11_11 : ∀ i : grid11.Coords, EltTy.bits .f32 = 32 ∨ (Rect.block (s := S64x1) S64x1.size (cc11_transform_11 i) (hinb11_11 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S64x5000_S5000x128_S64x128_1_0_0_1_n_n : DotDims S64x5000 S5000x128 S64x128 where
  lhsContracting := [1]
  rhsContracting := [0]
  lhsNonContracting := [0]
  rhsNonContracting := [1]
  lhsBatch := []
  rhsBatch := []
  wf := dot_S64x5000_S5000x128_S64x128_1_0_0_1_n_n_wf
def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S64x256_S256x1_S64x1_1_0_0_1_n_n : DotDims S64x256 S256x1 S64x1 where
  lhsContracting := [1]
  rhsContracting := [0]
  lhsNonContracting := [0]
  rhsNonContracting := [1]
  lhsBatch := []
  rhsBatch := []
  wf := dot_S64x256_S256x1_S64x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64_0) S1x128.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64_1) S1x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v63) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v66) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v73) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v76) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v79) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v80) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v80) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v82) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v85) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v98) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v85) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v27) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v99) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v100) S5000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v100) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v101_0) S1x128.size cc8_transform_1 reads8_1 true true 1 stage8_1 sem8_1
    hrank8 hreads8_1 hinb8_1 nbuf8_1 (Memref.isWhole_whole _) hwx8_1 hstage8_1

abbrev win8_2 : Pipeline.Window sig grid8 :=
  Pipeline.Window.ofSpec (Memref.whole main_v101_1) S1x128.size cc8_transform_2 reads8_2 true true 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v100) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v103) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v110) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v113) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v116) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v117) S5000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v124) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v117) S5000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v125) S64x128.size cc10_transform_2 reads10_2 true true 1 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v125) S64x128.size cc11_transform_0 reads11_0 false true 1 stage11_0 sem11_0
    hrank11 hreads11_0 hinb11_0 nbuf11_0 (Memref.isWhole_whole _) hwx11_0 hstage11_0

abbrev win11_1 : Pipeline.Window sig grid11 :=
  Pipeline.Window.ofSpec (Memref.whole main_arg9) S128x256.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v126) S1x256.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v127) S1x256.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v128) S1x256.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_arg13) S256x256.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v129) S1x256.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_v130) S1x256.size cc11_transform_7 reads11_7 false true 1 stage11_7 sem11_7
    hrank11 hreads11_7 hinb11_7 nbuf11_7 (Memref.isWhole_whole _) hwx11_7 hstage11_7

abbrev win11_8 : Pipeline.Window sig grid11 :=
  Pipeline.Window.ofSpec (Memref.whole main_v131) S1x256.size cc11_transform_8 reads11_8 false true 1 stage11_8 sem11_8
    hrank11 hreads11_8 hinb11_8 nbuf11_8 (Memref.isWhole_whole _) hwx11_8 hstage11_8

abbrev win11_9 : Pipeline.Window sig grid11 :=
  Pipeline.Window.ofSpec (Memref.whole main_arg17) S256x1.size cc11_transform_9 reads11_9 false true 1 stage11_9 sem11_9
    hrank11 hreads11_9 hinb11_9 nbuf11_9 (Memref.isWhole_whole _) hwx11_9 hstage11_9

abbrev win11_10 : Pipeline.Window sig grid11 :=
  Pipeline.Window.ofSpec (Memref.whole main_v132) S1x1.size cc11_transform_10 reads11_10 false true 1 stage11_10 sem11_10
    hrank11 hreads11_10 hinb11_10 nbuf11_10 (Memref.isWhole_whole _) hwx11_10 hstage11_10

abbrev win11_11 : Pipeline.Window sig grid11 :=
  Pipeline.Window.ofSpec (Memref.whole main_v133) S64x1.size cc11_transform_11 reads11_11 true true 1 stage11_11 sem11_11
    hrank11 hreads11_11 hinb11_11 nbuf11_11 (Memref.isWhole_whole _) hwx11_11 hstage11_11

abbrev win11 : Fin 12 → Pipeline.Window sig grid11 := fun | 0 => win11_0 | 1 => win11_1 | 2 => win11_2 | 3 => win11_3 | 4 => win11_4 | 5 => win11_5 | 6 => win11_6 | 7 => win11_7 | 8 => win11_8 | 9 => win11_9 | 10 => win11_10 | 11 => win11_11 | ⟨_ + 12, h⟩ => absurd h (Nat.not_lt.2 (Nat.le_add_left _ _))
abbrev spec11 : Fin 12 → Pipeline.WinSpec sig grid11.rank := fun w => (win11 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S1x128x128 : Shape := ⟨3, ![1, 128, 128]⟩
abbrev S64x128 : Shape := ⟨2, ![64, 128]⟩
abbrev S64x256 : Shape := ⟨2, ![64, 256]⟩
abbrev S1x256 : Shape := ⟨2, ![1, 256]⟩
abbrev S64x1 : Shape := ⟨2, ![64, 1]⟩
abbrev S1x1 : Shape := ⟨2, ![1, 1]⟩

abbrev nBuf : Space → Nat
  | .hbm => 348
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S2x128x128, .f32⟩
  | 6 => ⟨S2x128, .f32⟩
  | 7 => ⟨S2x128, .f32⟩
  | 8 => ⟨S2x128, .f32⟩
  | 9 => ⟨S128x256, .f32⟩
  | 10 => ⟨S256, .f32⟩
  | 11 => ⟨S256, .f32⟩
  | 12 => ⟨S256, .f32⟩
  | 13 => ⟨S256x256, .f32⟩
  | 14 => ⟨S256, .f32⟩
  | 15 => ⟨S256, .f32⟩
  | 16 => ⟨S256, .f32⟩
  | 17 => ⟨S256x1, .f32⟩
  | 18 => ⟨S1, .f32⟩
  | 19 => ⟨S1x800000, .i32⟩
  | 20 => ⟨S800000, .i32⟩
  | 21 => ⟨S1x800000, .i32⟩
  | 22 => ⟨S800000, .i32⟩
  | 23 => ⟨S_, .f32⟩
  | 24 => ⟨S800000, .f32⟩
  | 25 => ⟨S_, .f32⟩
  | 26 => ⟨S50000, .f32⟩
  | 27 => ⟨S800000x1, .i32⟩
  | 28 => ⟨S50000, .f32⟩
  | 29 => ⟨S_, .f32⟩
  | 30 => ⟨S50000, .f32⟩
  | 31 => ⟨S50000, .f32⟩
  | 32 => ⟨S50000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000, .f32⟩
  | 51 => ⟨S800000, .f32⟩
  | 52 => ⟨S50000, .f32⟩
  | 53 => ⟨S50000x128, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x128, .f32⟩
  | 63 => ⟨S800000x1, .f32⟩
  | 64 => ⟨S800000x128, .f32⟩
  | 65 => ⟨S800000x128, .f32⟩
  | 66 => ⟨S_, .f32⟩
  | 67 => ⟨S50000x128, .f32⟩
  | 68 => ⟨S800000x1, .i32⟩
  | 69 => ⟨S50000x128, .f32⟩
  | 70 => ⟨S50000x1, .f32⟩
  | 71 => ⟨S50000x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S1x128x128, .f32⟩
  | 81 => ⟨S128x128, .f32⟩
  | 82 => ⟨S1x128, .f32⟩
  | 83 => ⟨S128, .f32⟩
  | 84 => ⟨S50000x128, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x128, .f32⟩
  | 94 => ⟨S800000x1, .f32⟩
  | 95 => ⟨S800000x128, .f32⟩
  | 96 => ⟨S800000x128, .f32⟩
  | 97 => ⟨S_, .f32⟩
  | 98 => ⟨S50000x128, .f32⟩
  | 99 => ⟨S800000x1, .i32⟩
  | 100 => ⟨S50000x128, .f32⟩
  | 101 => ⟨S50000x1, .f32⟩
  | 102 => ⟨S50000x128, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S_, .f32⟩
  | 109 => ⟨S50000x128, .f32⟩
  | 110 => ⟨S50000x128, .f32⟩
  | 111 => ⟨S1x128, .f32⟩
  | 112 => ⟨S128, .f32⟩
  | 113 => ⟨S1x128, .f32⟩
  | 114 => ⟨S128, .f32⟩
  | 115 => ⟨S_, .f32⟩
  | 116 => ⟨S128, .f32⟩
  | 117 => ⟨S_, .f32⟩
  | 118 => ⟨S128, .f32⟩
  | 119 => ⟨S128, .f32⟩
  | 120 => ⟨S_, .i32⟩
  | 121 => ⟨S_, .f32⟩
  | 122 => ⟨S128, .f32⟩
  | 123 => ⟨S1x128, .f32⟩
  | 124 => ⟨S_, .f32⟩
  | 125 => ⟨S1x128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S_, .f32⟩
  | 4 => ⟨S_, .f32⟩
  | 5 => ⟨S_, .f32⟩
  | 6 => ⟨S128, .f32⟩
  | 7 => ⟨S128, .f32⟩
  | 8 => ⟨S128, .f32⟩
  | 9 => ⟨S_, .f32⟩
  | 10 => ⟨S_, .i1⟩
  | 11 => ⟨S_, .f32⟩
  | 12 => ⟨S_, .f32⟩
  | 13 => ⟨S128, .f32⟩
  | 14 => ⟨S128, .f32⟩
  | 15 => ⟨S1x128, .f32⟩
  | 16 => ⟨S50000x128, .f32⟩
  | 17 => ⟨S50000x128, .f32⟩
  | 18 => ⟨S_, .f32⟩
  | 19 => ⟨S128, .f32⟩
  | 20 => ⟨S128, .f32⟩
  | 21 => ⟨S128, .f32⟩
  | 22 => ⟨S1x128, .f32⟩
  | 23 => ⟨S50000x128, .f32⟩
  | 24 => ⟨S50000x128, .f32⟩
  | 25 => ⟨S1x128, .f32⟩
  | 26 => ⟨S50000x128, .f32⟩
  | 27 => ⟨S50000x128, .f32⟩
  | 28 => ⟨S1x128, .f32⟩
  | 29 => ⟨S50000x128, .f32⟩
  | 30 => ⟨S50000x128, .f32⟩
  | 31 => ⟨S1x128x128, .f32⟩
  | 32 => ⟨S128x128, .f32⟩
  | 33 => ⟨S1x128, .f32⟩
  | 34 => ⟨S128, .f32⟩
  | 35 => ⟨S50000x128, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x128, .f32⟩
  | 45 => ⟨S800000x1, .f32⟩
  | 46 => ⟨S800000x128, .f32⟩
  | 47 => ⟨S800000x128, .f32⟩
  | 48 => ⟨S_, .f32⟩
  | 49 => ⟨S50000x128, .f32⟩
  | 50 => ⟨S800000x1, .i32⟩
  | 51 => ⟨S50000x128, .f32⟩
  | 52 => ⟨S50000x1, .f32⟩
  | 53 => ⟨S50000x128, .f32⟩
  | 54 => ⟨S50000x128, .f32⟩
  | 55 => ⟨S50000x128, .f32⟩
  | 56 => ⟨S1x128, .f32⟩
  | 57 => ⟨S50000x128, .f32⟩
  | 58 => ⟨S50000x128, .f32⟩
  | 59 => ⟨S_, .f32⟩
  | 60 => ⟨S50000x128, .f32⟩
  | 61 => ⟨S50000x128, .f32⟩
  | 62 => ⟨S1x128, .f32⟩
  | 63 => ⟨S128, .f32⟩
  | 64 => ⟨S1x128, .f32⟩
  | 65 => ⟨S128, .f32⟩
  | 66 => ⟨S_, .f32⟩
  | 67 => ⟨S128, .f32⟩
  | 68 => ⟨S_, .f32⟩
  | 69 => ⟨S128, .f32⟩
  | 70 => ⟨S128, .f32⟩
  | 71 => ⟨S_, .i32⟩
  | 72 => ⟨S_, .f32⟩
  | 73 => ⟨S128, .f32⟩
  | 74 => ⟨S1x128, .f32⟩
  | 75 => ⟨S_, .f32⟩
  | 76 => ⟨S1x128, .f32⟩
  | 77 => ⟨S1x128, .f32⟩
  | 78 => ⟨S50000x128, .f32⟩
  | 79 => ⟨S50000x128, .f32⟩
  | 80 => ⟨S50000x128, .f32⟩
  | 81 => ⟨S_, .f32⟩
  | 82 => ⟨S_, .f32⟩
  | 83 => ⟨S_, .f32⟩
  | 84 => ⟨S_, .f32⟩
  | 85 => ⟨S128, .f32⟩
  | 86 => ⟨S128, .f32⟩
  | 87 => ⟨S128, .f32⟩
  | 88 => ⟨S_, .f32⟩
  | 89 => ⟨S_, .i1⟩
  | 90 => ⟨S_, .f32⟩
  | 91 => ⟨S_, .f32⟩
  | 92 => ⟨S128, .f32⟩
  | 93 => ⟨S128, .f32⟩
  | 94 => ⟨S1x128, .f32⟩
  | 95 => ⟨S50000x128, .f32⟩
  | 96 => ⟨S50000x128, .f32⟩
  | 97 => ⟨S_, .f32⟩
  | 98 => ⟨S128, .f32⟩
  | 99 => ⟨S128, .f32⟩
  | 100 => ⟨S128, .f32⟩
  | 101 => ⟨S1x128, .f32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S_, .f32⟩
  | 111 => ⟨S64x128, .f32⟩
  | 112 => ⟨S50000x1, .i32⟩
  | 113 => ⟨S64x128, .f32⟩
  | 114 => ⟨S64x256, .f32⟩
  | 115 => ⟨S1x256, .f32⟩
  | 116 => ⟨S64x256, .f32⟩
  | 117 => ⟨S64x256, .f32⟩
  | 118 => ⟨S_, .f32⟩
  | 119 => ⟨S64x256, .f32⟩
  | 120 => ⟨S64x256, .f32⟩
  | 121 => ⟨S_, .f32⟩
  | 122 => ⟨S256, .f32⟩
  | 123 => ⟨S_, .f32⟩
  | 124 => ⟨S256, .f32⟩
  | 125 => ⟨S256, .f32⟩
  | 126 => ⟨S_, .i32⟩
  | 127 => ⟨S_, .f32⟩
  | _ => ⟨S50000x128, .f32⟩

abbrev hbmTy0_2 (i : Nat) : BufTy := match i % 128 with
  | 0 => ⟨S256, .f32⟩
  | 1 => ⟨S1x256, .f32⟩
  | 2 => ⟨S_, .f32⟩
  | 3 => ⟨S1x256, .f32⟩
  | 4 => ⟨S1x256, .f32⟩
  | 5 => ⟨S64x256, .f32⟩
  | 6 => ⟨S64x256, .f32⟩
  | 7 => ⟨S64x256, .f32⟩
  | 8 => ⟨S_, .f32⟩
  | 9 => ⟨S_, .f32⟩
  | 10 => ⟨S_, .f32⟩
  | 11 => ⟨S_, .f32⟩
  | 12 => ⟨S256, .f32⟩
  | 13 => ⟨S256, .f32⟩
  | 14 => ⟨S256, .f32⟩
  | 15 => ⟨S_, .f32⟩
  | 16 => ⟨S_, .i1⟩
  | 17 => ⟨S_, .f32⟩
  | 18 => ⟨S_, .f32⟩
  | 19 => ⟨S256, .f32⟩
  | 20 => ⟨S256, .f32⟩
  | 21 => ⟨S1x256, .f32⟩
  | 22 => ⟨S64x256, .f32⟩
  | 23 => ⟨S64x256, .f32⟩
  | 24 => ⟨S_, .f32⟩
  | 25 => ⟨S256, .f32⟩
  | 26 => ⟨S256, .f32⟩
  | 27 => ⟨S256, .f32⟩
  | 28 => ⟨S1x256, .f32⟩
  | 29 => ⟨S64x256, .f32⟩
  | 30 => ⟨S64x256, .f32⟩
  | 31 => ⟨S1x256, .f32⟩
  | 32 => ⟨S64x256, .f32⟩
  | 33 => ⟨S64x256, .f32⟩
  | 34 => ⟨S1x256, .f32⟩
  | 35 => ⟨S64x256, .f32⟩
  | 36 => ⟨S64x256, .f32⟩
  | 37 => ⟨S64x256, .f32⟩
  | 38 => ⟨S1x256, .f32⟩
  | 39 => ⟨S64x256, .f32⟩
  | 40 => ⟨S64x256, .f32⟩
  | 41 => ⟨S_, .f32⟩
  | 42 => ⟨S64x256, .f32⟩
  | 43 => ⟨S64x256, .f32⟩
  | 44 => ⟨S_, .f32⟩
  | 45 => ⟨S256, .f32⟩
  | 46 => ⟨S_, .f32⟩
  | 47 => ⟨S256, .f32⟩
  | 48 => ⟨S256, .f32⟩
  | 49 => ⟨S_, .i32⟩
  | 50 => ⟨S_, .f32⟩
  | 51 => ⟨S256, .f32⟩
  | 52 => ⟨S1x256, .f32⟩
  | 53 => ⟨S_, .f32⟩
  | 54 => ⟨S1x256, .f32⟩
  | 55 => ⟨S1x256, .f32⟩
  | 56 => ⟨S64x256, .f32⟩
  | 57 => ⟨S64x256, .f32⟩
  | 58 => ⟨S64x256, .f32⟩
  | 59 => ⟨S_, .f32⟩
  | 60 => ⟨S_, .f32⟩
  | 61 => ⟨S_, .f32⟩
  | 62 => ⟨S_, .f32⟩
  | 63 => ⟨S256, .f32⟩
  | 64 => ⟨S256, .f32⟩
  | 65 => ⟨S256, .f32⟩
  | 66 => ⟨S_, .f32⟩
  | 67 => ⟨S_, .i1⟩
  | 68 => ⟨S_, .f32⟩
  | 69 => ⟨S_, .f32⟩
  | 70 => ⟨S256, .f32⟩
  | 71 => ⟨S256, .f32⟩
  | 72 => ⟨S1x256, .f32⟩
  | 73 => ⟨S64x256, .f32⟩
  | 74 => ⟨S64x256, .f32⟩
  | 75 => ⟨S_, .f32⟩
  | 76 => ⟨S256, .f32⟩
  | 77 => ⟨S256, .f32⟩
  | 78 => ⟨S256, .f32⟩
  | 79 => ⟨S1x256, .f32⟩
  | 80 => ⟨S64x256, .f32⟩
  | 81 => ⟨S64x256, .f32⟩
  | 82 => ⟨S1x256, .f32⟩
  | 83 => ⟨S64x256, .f32⟩
  | 84 => ⟨S64x256, .f32⟩
  | 85 => ⟨S1x256, .f32⟩
  | 86 => ⟨S64x256, .f32⟩
  | 87 => ⟨S64x256, .f32⟩
  | 88 => ⟨S64x1, .f32⟩
  | 89 => ⟨S1x1, .f32⟩
  | 90 => ⟨S64x1, .f32⟩
  | 91 => ⟨S64x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_c_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_5 : Ref sig .tc := ⟨.hbm, 54, rfl⟩
abbrev main_v28 : Ref sig .tc := ⟨.hbm, 55, rfl⟩
abbrev main_v29 : Ref sig .tc := ⟨.hbm, 56, rfl⟩
abbrev main_c_6 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_7 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_call0_cst : Ref sig .tc := ⟨.hbm, 77, rfl⟩
abbrev main_call0_v0 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_c_8 : Ref sig .tc := ⟨.hbm, 85, rfl⟩
abbrev main_v54 : Ref sig .tc := ⟨.hbm, 86, rfl⟩
abbrev main_v55 : Ref sig .tc := ⟨.hbm, 87, rfl⟩
abbrev main_c_9 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_10 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_call1_cst : Ref sig .tc := ⟨.hbm, 108, rfl⟩
abbrev main_call1_v0 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_11 : Ref sig .tc := ⟨.hbm, 115, rfl⟩
abbrev main_v79 : Ref sig .tc := ⟨.hbm, 116, rfl⟩
abbrev main_cst_12 : Ref sig .tc := ⟨.hbm, 117, rfl⟩
abbrev main_v80 : Ref sig .tc := ⟨.hbm, 118, rfl⟩
abbrev main_v81 : Ref sig .tc := ⟨.hbm, 119, rfl⟩
abbrev main_c_13 : Ref sig .tc := ⟨.hbm, 120, rfl⟩
abbrev main_call2_cst : Ref sig .tc := ⟨.hbm, 121, rfl⟩
abbrev main_call2_v0 : Ref sig .tc := ⟨.hbm, 122, rfl⟩
abbrev main_call2_v1 : Ref sig .tc := ⟨.hbm, 123, rfl⟩
abbrev main_call2_cst_0 : Ref sig .tc := ⟨.hbm, 124, rfl⟩
abbrev main_call2_v2 : Ref sig .tc := ⟨.hbm, 125, rfl⟩
abbrev main_call2_v3 : Ref sig .tc := ⟨.hbm, 126, rfl⟩
abbrev main_call2_v4 : Ref sig .tc := ⟨.hbm, 127, rfl⟩
abbrev main_call2_v5 : Ref sig .tc := ⟨.hbm, 128, rfl⟩
abbrev main_call2_v6 : Ref sig .tc := ⟨.hbm, 129, rfl⟩
abbrev main_call2_v7 : Ref sig .tc := ⟨.hbm, 130, rfl⟩
abbrev main_call2_cst_1 : Ref sig .tc := ⟨.hbm, 131, rfl⟩
abbrev main_call2_v8 : Ref sig .tc := ⟨.hbm, 132, rfl⟩
abbrev main_call2_cst_2 : Ref sig .tc := ⟨.hbm, 133, rfl⟩
abbrev main_call2_v9 : Ref sig .tc := ⟨.hbm, 134, rfl⟩
abbrev main_call2_v10 : Ref sig .tc := ⟨.hbm, 135, rfl⟩
abbrev main_call2_v11 : Ref sig .tc := ⟨.hbm, 136, rfl⟩
abbrev main_call2_cst_3 : Ref sig .tc := ⟨.hbm, 137, rfl⟩
abbrev main_call2_v12 : Ref sig .tc := ⟨.hbm, 138, rfl⟩
abbrev main_call2_cst_4 : Ref sig .tc := ⟨.hbm, 139, rfl⟩
abbrev main_call2_call0_v0 : Ref sig .tc := ⟨.hbm, 140, rfl⟩
abbrev main_call2_call0_v1 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_cst_14 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_c_15 : Ref sig .tc := ⟨.hbm, 164, rfl⟩
abbrev main_v103 : Ref sig .tc := ⟨.hbm, 165, rfl⟩
abbrev main_v104 : Ref sig .tc := ⟨.hbm, 166, rfl⟩
abbrev main_c_16 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_cst_17 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_call3_cst : Ref sig .tc := ⟨.hbm, 187, rfl⟩
abbrev main_call3_v0 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_cst_18 : Ref sig .tc := ⟨.hbm, 194, rfl⟩
abbrev main_v128 : Ref sig .tc := ⟨.hbm, 195, rfl⟩
abbrev main_cst_19 : Ref sig .tc := ⟨.hbm, 196, rfl⟩
abbrev main_v129 : Ref sig .tc := ⟨.hbm, 197, rfl⟩
abbrev main_v130 : Ref sig .tc := ⟨.hbm, 198, rfl⟩
abbrev main_c_20 : Ref sig .tc := ⟨.hbm, 199, rfl⟩
abbrev main_call4_cst : Ref sig .tc := ⟨.hbm, 200, rfl⟩
abbrev main_call4_v0 : Ref sig .tc := ⟨.hbm, 201, rfl⟩
abbrev main_call4_v1 : Ref sig .tc := ⟨.hbm, 202, rfl⟩
abbrev main_call4_cst_0 : Ref sig .tc := ⟨.hbm, 203, rfl⟩
abbrev main_call4_v2 : Ref sig .tc := ⟨.hbm, 204, rfl⟩
abbrev main_call4_v3 : Ref sig .tc := ⟨.hbm, 205, rfl⟩
abbrev main_call4_v4 : Ref sig .tc := ⟨.hbm, 206, rfl⟩
abbrev main_call4_v5 : Ref sig .tc := ⟨.hbm, 207, rfl⟩
abbrev main_call4_v6 : Ref sig .tc := ⟨.hbm, 208, rfl⟩
abbrev main_call4_v7 : Ref sig .tc := ⟨.hbm, 209, rfl⟩
abbrev main_call4_cst_1 : Ref sig .tc := ⟨.hbm, 210, rfl⟩
abbrev main_call4_v8 : Ref sig .tc := ⟨.hbm, 211, rfl⟩
abbrev main_call4_cst_2 : Ref sig .tc := ⟨.hbm, 212, rfl⟩
abbrev main_call4_v9 : Ref sig .tc := ⟨.hbm, 213, rfl⟩
abbrev main_call4_v10 : Ref sig .tc := ⟨.hbm, 214, rfl⟩
abbrev main_call4_v11 : Ref sig .tc := ⟨.hbm, 215, rfl⟩
abbrev main_call4_cst_3 : Ref sig .tc := ⟨.hbm, 216, rfl⟩
abbrev main_call4_v12 : Ref sig .tc := ⟨.hbm, 217, rfl⟩
abbrev main_call4_cst_4 : Ref sig .tc := ⟨.hbm, 218, rfl⟩
abbrev main_call4_call0_v0 : Ref sig .tc := ⟨.hbm, 219, rfl⟩
abbrev main_call4_call0_v1 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_cst_21 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_v141 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_cst_22 : Ref sig .tc := ⟨.hbm, 238, rfl⟩
abbrev main_v147 : Ref sig .tc := ⟨.hbm, 239, rfl⟩
abbrev main_v148 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_v152 : Ref sig .tc := ⟨.hbm, 244, rfl⟩
abbrev main_v153 : Ref sig .tc := ⟨.hbm, 245, rfl⟩
abbrev main_call5_cst : Ref sig .tc := ⟨.hbm, 246, rfl⟩
abbrev main_call5_v0 : Ref sig .tc := ⟨.hbm, 247, rfl⟩
abbrev main_v154 : Ref sig .tc := ⟨.hbm, 248, rfl⟩
abbrev main_cst_23 : Ref sig .tc := ⟨.hbm, 249, rfl⟩
abbrev main_v155 : Ref sig .tc := ⟨.hbm, 250, rfl⟩
abbrev main_cst_24 : Ref sig .tc := ⟨.hbm, 251, rfl⟩
abbrev main_v156 : Ref sig .tc := ⟨.hbm, 252, rfl⟩
abbrev main_v157 : Ref sig .tc := ⟨.hbm, 253, rfl⟩
abbrev main_c_25 : Ref sig .tc := ⟨.hbm, 254, rfl⟩
abbrev main_call6_cst : Ref sig .tc := ⟨.hbm, 255, rfl⟩
abbrev main_call6_v0 : Ref sig .tc := ⟨.hbm, 256, rfl⟩
abbrev main_call6_v1 : Ref sig .tc := ⟨.hbm, 257, rfl⟩
abbrev main_call6_cst_0 : Ref sig .tc := ⟨.hbm, 258, rfl⟩
abbrev main_call6_v2 : Ref sig .tc := ⟨.hbm, 259, rfl⟩
abbrev main_call6_v3 : Ref sig .tc := ⟨.hbm, 260, rfl⟩
abbrev main_call6_v4 : Ref sig .tc := ⟨.hbm, 261, rfl⟩
abbrev main_call6_v5 : Ref sig .tc := ⟨.hbm, 262, rfl⟩
abbrev main_call6_v6 : Ref sig .tc := ⟨.hbm, 263, rfl⟩
abbrev main_call6_v7 : Ref sig .tc := ⟨.hbm, 264, rfl⟩
abbrev main_call6_cst_1 : Ref sig .tc := ⟨.hbm, 265, rfl⟩
abbrev main_call6_v8 : Ref sig .tc := ⟨.hbm, 266, rfl⟩
abbrev main_call6_cst_2 : Ref sig .tc := ⟨.hbm, 267, rfl⟩
abbrev main_call6_v9 : Ref sig .tc := ⟨.hbm, 268, rfl⟩
abbrev main_call6_v10 : Ref sig .tc := ⟨.hbm, 269, rfl⟩
abbrev main_call6_v11 : Ref sig .tc := ⟨.hbm, 270, rfl⟩
abbrev main_call6_cst_3 : Ref sig .tc := ⟨.hbm, 271, rfl⟩
abbrev main_call6_v12 : Ref sig .tc := ⟨.hbm, 272, rfl⟩
abbrev main_call6_cst_4 : Ref sig .tc := ⟨.hbm, 273, rfl⟩
abbrev main_call6_call0_v0 : Ref sig .tc := ⟨.hbm, 274, rfl⟩
abbrev main_call6_call0_v1 : Ref sig .tc := ⟨.hbm, 275, rfl⟩
abbrev main_v158 : Ref sig .tc := ⟨.hbm, 276, rfl⟩
abbrev main_v159 : Ref sig .tc := ⟨.hbm, 277, rfl⟩
abbrev main_v160 : Ref sig .tc := ⟨.hbm, 278, rfl⟩
abbrev main_v161 : Ref sig .tc := ⟨.hbm, 279, rfl⟩
abbrev main_cst_26 : Ref sig .tc := ⟨.hbm, 280, rfl⟩
abbrev main_v162 : Ref sig .tc := ⟨.hbm, 281, rfl⟩
abbrev main_v163 : Ref sig .tc := ⟨.hbm, 282, rfl⟩
abbrev main_v164 : Ref sig .tc := ⟨.hbm, 283, rfl⟩
abbrev main_v165 : Ref sig .tc := ⟨.hbm, 284, rfl⟩
abbrev main_v166 : Ref sig .tc := ⟨.hbm, 285, rfl⟩
abbrev main_v167 : Ref sig .tc := ⟨.hbm, 286, rfl⟩
abbrev main_v168 : Ref sig .tc := ⟨.hbm, 287, rfl⟩
abbrev main_v169 : Ref sig .tc := ⟨.hbm, 288, rfl⟩
abbrev main_v170 : Ref sig .tc := ⟨.hbm, 289, rfl⟩
abbrev main_v171 : Ref sig .tc := ⟨.hbm, 290, rfl⟩
abbrev main_v172 : Ref sig .tc := ⟨.hbm, 291, rfl⟩
abbrev main_v173 : Ref sig .tc := ⟨.hbm, 292, rfl⟩
abbrev main_v174 : Ref sig .tc := ⟨.hbm, 293, rfl⟩
abbrev main_v175 : Ref sig .tc := ⟨.hbm, 294, rfl⟩
abbrev main_v176 : Ref sig .tc := ⟨.hbm, 295, rfl⟩
abbrev main_v177 : Ref sig .tc := ⟨.hbm, 296, rfl⟩
abbrev main_call7_cst : Ref sig .tc := ⟨.hbm, 297, rfl⟩
abbrev main_call7_v0 : Ref sig .tc := ⟨.hbm, 298, rfl⟩
abbrev main_v178 : Ref sig .tc := ⟨.hbm, 299, rfl⟩
abbrev main_cst_27 : Ref sig .tc := ⟨.hbm, 300, rfl⟩
abbrev main_v179 : Ref sig .tc := ⟨.hbm, 301, rfl⟩
abbrev main_cst_28 : Ref sig .tc := ⟨.hbm, 302, rfl⟩
abbrev main_v180 : Ref sig .tc := ⟨.hbm, 303, rfl⟩
abbrev main_v181 : Ref sig .tc := ⟨.hbm, 304, rfl⟩
abbrev main_c_29 : Ref sig .tc := ⟨.hbm, 305, rfl⟩
abbrev main_call8_cst : Ref sig .tc := ⟨.hbm, 306, rfl⟩
abbrev main_call8_v0 : Ref sig .tc := ⟨.hbm, 307, rfl⟩
abbrev main_call8_v1 : Ref sig .tc := ⟨.hbm, 308, rfl⟩
abbrev main_call8_cst_0 : Ref sig .tc := ⟨.hbm, 309, rfl⟩
abbrev main_call8_v2 : Ref sig .tc := ⟨.hbm, 310, rfl⟩
abbrev main_call8_v3 : Ref sig .tc := ⟨.hbm, 311, rfl⟩
abbrev main_call8_v4 : Ref sig .tc := ⟨.hbm, 312, rfl⟩
abbrev main_call8_v5 : Ref sig .tc := ⟨.hbm, 313, rfl⟩
abbrev main_call8_v6 : Ref sig .tc := ⟨.hbm, 314, rfl⟩
abbrev main_call8_v7 : Ref sig .tc := ⟨.hbm, 315, rfl⟩
abbrev main_call8_cst_1 : Ref sig .tc := ⟨.hbm, 316, rfl⟩
abbrev main_call8_v8 : Ref sig .tc := ⟨.hbm, 317, rfl⟩
abbrev main_call8_cst_2 : Ref sig .tc := ⟨.hbm, 318, rfl⟩
abbrev main_call8_v9 : Ref sig .tc := ⟨.hbm, 319, rfl⟩
abbrev main_call8_v10 : Ref sig .tc := ⟨.hbm, 320, rfl⟩
abbrev main_call8_v11 : Ref sig .tc := ⟨.hbm, 321, rfl⟩
abbrev main_call8_cst_3 : Ref sig .tc := ⟨.hbm, 322, rfl⟩
abbrev main_call8_v12 : Ref sig .tc := ⟨.hbm, 323, rfl⟩
abbrev main_call8_cst_4 : Ref sig .tc := ⟨.hbm, 324, rfl⟩
abbrev main_call8_call0_v0 : Ref sig .tc := ⟨.hbm, 325, rfl⟩
abbrev main_call8_call0_v1 : Ref sig .tc := ⟨.hbm, 326, rfl⟩
abbrev main_v182 : Ref sig .tc := ⟨.hbm, 327, rfl⟩
abbrev main_v183 : Ref sig .tc := ⟨.hbm, 328, rfl⟩
abbrev main_v184 : Ref sig .tc := ⟨.hbm, 329, rfl⟩
abbrev main_v185 : Ref sig .tc := ⟨.hbm, 330, rfl⟩
abbrev main_cst_30 : Ref sig .tc := ⟨.hbm, 331, rfl⟩
abbrev main_v186 : Ref sig .tc := ⟨.hbm, 332, rfl⟩
abbrev main_v187 : Ref sig .tc := ⟨.hbm, 333, rfl⟩
abbrev main_v188 : Ref sig .tc := ⟨.hbm, 334, rfl⟩
abbrev main_v189 : Ref sig .tc := ⟨.hbm, 335, rfl⟩
abbrev main_v190 : Ref sig .tc := ⟨.hbm, 336, rfl⟩
abbrev main_v191 : Ref sig .tc := ⟨.hbm, 337, rfl⟩
abbrev main_v192 : Ref sig .tc := ⟨.hbm, 338, rfl⟩
abbrev main_v193 : Ref sig .tc := ⟨.hbm, 339, rfl⟩
abbrev main_v194 : Ref sig .tc := ⟨.hbm, 340, rfl⟩
abbrev main_v195 : Ref sig .tc := ⟨.hbm, 341, rfl⟩
abbrev main_v196 : Ref sig .tc := ⟨.hbm, 342, rfl⟩
abbrev main_v197 : Ref sig .tc := ⟨.hbm, 343, rfl⟩
abbrev main_v198 : Ref sig .tc := ⟨.hbm, 344, rfl⟩
abbrev main_v199 : Ref sig .tc := ⟨.hbm, 345, rfl⟩
abbrev main_v200 : Ref sig .tc := ⟨.hbm, 346, rfl⟩
abbrev main_v201 : Ref sig .tc := ⟨.hbm, 347, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S2x128x128_S1x128x128_1_0_0 : S2x128x128.Slices ![1, 0, 0] S1x128x128
  slices_S2x128_S1x128_1_0 : S2x128.Slices ![1, 0] S1x128
  bcast_S_S64x128 : S_.BroadcastsInDim S64x128 (![] : Fin 0 → Fin S64x128.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S_S64x256 : S_.BroadcastsInDim S64x256 (![] : Fin 0 → Fin S64x256.rank)
  reducesTo_S64x256_S256_d0 : S64x256.ReducesTo [0] S256
  bcast_S_S256 : S_.BroadcastsInDim S256 (![] : Fin 0 → Fin S256.rank)
  bcast_S_S1x256 : S_.BroadcastsInDim S1x256 (![] : Fin 0 → Fin S1x256.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S64x128_S50000x1_S50000x128_1_0_0_1_wf : ScatterDims.WF S64x128 S50000x1 S50000x128 [1] [0] [0] 1
  dot_S64x128_S128x256_S64x256_1_0_0_1_n_n_wf : DotDims.WF S64x128 S128x256 S64x256 [1] [0] [0] [1] [] []
  dot_S64x256_S256x256_S64x256_1_0_0_1_n_n_wf : DotDims.WF S64x256 S256x256 S64x256 [1] [0] [0] [1] [] []
  dot_S64x256_S256x1_S64x1_1_0_0_1_n_n_wf : DotDims.WF S64x256 S256x1 S64x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S64x256_S256x1_S64x1_1_0_0_1_n_n : DotDims S64x256 S256x1 S64x1 where
  lhsContracting := [1]
  rhsContracting := [0]
  lhsNonContracting := [0]
  rhsNonContracting := [1]
  lhsBatch := []
  rhsBatch := []
  wf := dot_S64x256_S256x1_S64x1_1_0_0_1_n_n_wf

class Facts : Prop extends Facts₀ where

variable [Facts]
-- ==== Proof.KCarry.lean ====
import proofs.«431361_j18107582120395_1_alg».proof.Proof.Gen.KernelIdeal.Frame
import Idealize.ShloMosaic.Lib.StableHlo.Run

set_option maxRecDepth 16384

noncomputable section

namespace Cert.KernelIdeal.KCarry

open Idealize.ShloMosaic Idealize.ShloMosaic.TcCoe Cert.KernelIdeal Cert.KernelIdeal.Gen
open Idealize.ShloMosaic.Pipeline (Dat)

variable {F : FTy → Type} [FloatOps F]
variable (m : (ℓ : Loc nD τ sig) → Buf (Elt F) ℓ) (ρ : Dev nD → PrngReg)

/-- Operations that each write one listed buffer leave every buffer off the list as it was. -/
theorem after_keep {ops : List (HloOp τ sig (Elt F))} {ys : List (Ref sig .tc)}
    (h : List.Forall₂ (fun op y => op.writes = {Proc.devRef .tc y}) ops ys) (X : Valuation τ sig (Elt F))
    {b : Ref sig .tc} (hb : b ∉ ys) : StableHlo.after ops X (Proc.devRef .tc b) = X (Proc.devRef .tc b) := by
  induction h generalizing X with
  | nil => rfl
  | cons hy _ ih =>
    rw [StableHlo.after_cons, ih _ (List.not_mem_of_not_mem_cons hb), HloOp.result_of_not_mem]
    rw [hy, Finset.mem_singleton]
    exact StableHlo.devRef_ne_of_ne (List.ne_of_not_mem_cons hb)

/-- A kernel region writes only its output arrays: every other buffer keeps its contents. -/
theorem region_keep {cfg : Pipeline.Cfg sig Λ₀} (hinj : Function.Injective (Pipeline.arrRef cfg.spec)) {c : Dev nD}
    {dat : Dat τ (Elt F) Unit ℕ (UR sig nD τ) ℕ cfg c} {X : Valuation τ sig (Elt F)}
    (hA : ∀ w, dat.A w = X (Proc.devRef .tc (Pipeline.arrRef cfg.spec w))) {outs : List (Ref sig .tc)}
    (ho : ∀ w, (cfg.win w).isOut = true → Pipeline.arrRef cfg.spec w ∈ outs) {b : Ref sig .tc} (hb : b ∉ outs) :
    Pipeline.withArrays cfg.spec c X (fun w => dat.arrAt w cfg.N) (Proc.devRef .tc b) = X (Proc.devRef .tc b) := by
  by_cases h : ∃ w, Pipeline.arrRef cfg.spec w = b
  · obtain ⟨w, rfl⟩ := h
    rw [Pipeline.withArrays_arr _ hinj, dat.arrAt_in w (Bool.eq_false_iff.mpr fun e => hb (ho w e)), hA]
  · exact Pipeline.withArrays_of_ne _ c _ _ b fun w e => h ⟨w, e⟩

/-- What each step of the program writes: a stretch of host operations its results in order, a kernel region its outputs. -/
private abbrev wrs : List (List (Ref sig .tc)) :=
  [[main_v0, main_v1, main_v2, main_v3, main_cst, main_v4, main_cst_0, main_v5, main_v6, main_v7, main_cst_1, main_v8,
    main_v9, main_v10, main_c, main_v11, main_v12, main_c_2, main_v13, main_v14, main_v15, main_v16, main_v17, main_c_3,
    main_v18, main_v19, main_c_4, main_v20, main_v21, main_v22, main_v23, main_v24, main_v25, main_v26, main_v27],
   [main_v28],
   [main_c_5, main_v29, main_v30, main_c_6, main_v31, main_v32, main_v33, main_v34, main_v35, main_v36, main_v37,
    main_v38, main_cst_7, main_v39, main_v40, main_v41, main_v42],
   [main_v43],
   [main_v44, main_v45, main_v46, main_v47],
   [main_v48],
   [main_c_8, main_v49, main_v50, main_c_9, main_v51, main_v52, main_v53, main_v54, main_v55, main_v56, main_v57,
    main_v58, main_cst_10, main_v59, main_v60, main_v61, main_v62],
   [main_v63],
   [main_v64_0, main_v64_1],
   [main_cst_11, main_v65, main_v66, main_cst_12, main_v67, main_v68, main_v69, main_v70, main_cst_13, main_v71, main_v72,
    main_v73, main_v74, main_v75, main_v76, main_v77, main_v78, main_v79],
   [main_v80],
   [main_v81, main_v82, main_v83, main_v84],
   [main_v85],
   [main_c_14, main_v86, main_v87, main_c_15, main_v88, main_v89, main_v90, main_v91, main_v92, main_v93, main_v94,
    main_v95, main_cst_16, main_v96, main_v97, main_v98, main_v99],
   [main_v100],
   [main_v101_0, main_v101_1],
   [main_cst_17, main_v102, main_v103, main_cst_18, main_v104, main_v105, main_v106, main_v107, main_cst_19, main_v108,
    main_v109, main_v110, main_v111, main_v112, main_v113, main_v114, main_v115, main_v116],
   [main_v117],
   [main_v118, main_v119, main_v120, main_v121, main_v122, main_v123, main_v124],
   [main_v125],
   [main_v126, main_v127, main_v128, main_v129, main_v130, main_v131, main_v132],
   [main_v133]]

private def wr (k : ℕ) : List (Ref sig .tc) := wrs.getD k []

private theorem s0 (c : Dev nD) {b : Ref sig .tc} (h : b ∉ wr 0) :
    W1 m ρ c (Proc.devRef .tc b) = W0 m ρ c (Proc.devRef .tc b) := after_keep (by repeat' constructor) _ h

private theorem s1 (c : Dev nD) {b : Ref sig .tc} (h : b ∉ wr 1) :
    W2 m ρ c (Proc.devRef .tc b) = W1 m ρ c (Proc.devRef .tc b) :=
  region_keep (cfg := cfg0) launch0.win.arr_inj (A_eq0 (V1 m ρ) c) (by decide) h

private theorem s2 (c : Dev nD) {b : Ref sig .tc} (h : b ∉ wr 2) :
    W3 m ρ c (Proc.devRef .tc b) = W2 m ρ c (Proc.devRef .tc b) := after_keep (by repeat' constructor) _ h

private theorem s3 (c : Dev nD) {b : Ref sig .tc} (h : b ∉ wr 3) :
    W4 m ρ c (Proc.devRef .tc b) = W3 m ρ c (Proc.devRef .tc b) :=
  region_keep (cfg := cfg1) launch1.win.arr_inj (A_eq1 (V3 m ρ) c) (by decide) h

private theorem s4 (c : Dev nD) {b : Ref sig .tc} (h : b ∉ wr 4) :
    W5 m ρ c (Proc.devRef .tc b) = W4 m ρ c (Proc.devRef .tc b) := after_keep (by repeat' constructor) _ h

private theorem s5 (c : Dev nD) {b : Ref sig .tc} (h : b ∉ wr 5) :
    W6 m ρ c (Proc.devRef .tc b) = W5 m ρ c (Proc.devRef .tc b) :=
  region_keep (cfg := cfg2) launch2.win.arr_inj (A_eq2 (V5 m ρ) c) (by decide) h

private theorem s6 (c : Dev nD) {b : Ref sig .tc} (h : b ∉ wr 6) :
    W7 m ρ c (Proc.devRef .tc b) = W6 m ρ c (Proc.devRef .tc b) := after_keep (by repeat' constructor) _ h

private theorem s7 (c : Dev nD) {b : Ref sig .tc} (h : b ∉ wr 7) :
    W8 m ρ c (Proc.devRef .tc b) = W7 m ρ c (Proc.devRef .tc b) :=
  region_keep (cfg := cfg3) launch3.win.arr_inj (A_eq3 (V7 m ρ) c) (by decide) h

private theorem s8 (c : Dev nD) {b : Ref sig .tc} (h : b ∉ wr 8) :
    W9 m ρ c (Proc.devRef .tc b) = W8 m ρ c (Proc.devRef .tc b) :=
  region_keep (cfg := cfg4) launch4.win.arr_inj (A_eq4 (V8 m ρ) c) (by decide) h

private theorem s9 (c : Dev nD) {b : Ref sig .tc} (h : b ∉ wr 9) :
    W10 m ρ c (Proc.devRef .tc b) = W9 m ρ c (Proc.devRef .tc b) := after_keep (by repeat' constructor) _ h

private theorem s10 (c : Dev nD) {b : Ref sig .tc} (h : b ∉ wr 10) :
    W11 m ρ c (Proc.devRef .tc b) = W10 m ρ c (Proc.devRef .tc b) :=
  region_keep (cfg := cfg5) launch5.win.arr_inj (A_eq5 (V10 m ρ) c) (by decide) h

private theorem s11 (c : Dev nD) {b : Ref sig .tc} (h : b ∉ wr 11) :
    W12 m ρ c (Proc.devRef .tc b) = W11 m ρ c (Proc.devRef .tc b) := after_keep (by repeat' constructor) _ h

private theorem s12 (c : Dev nD) {b : Ref sig .tc} (h : b ∉ wr 12) :
    W13 m ρ c (Proc.devRef .tc b) = W12 m ρ c (Proc.devRef .tc b) :=
  region_keep (cfg := cfg6) launch6.win.arr_inj (A_eq6 (V12 m ρ) c) (by decide) h

private theorem s13 (c : Dev nD) {b : Ref sig .tc} (h : b ∉ wr 13) :
    W14 m ρ c (Proc.devRef .tc b) = W13 m ρ c (Proc.devRef .tc b) := after_keep (by repeat' constructor) _ h

private theorem s14 (c : Dev nD) {b : Ref sig .tc} (h : b ∉ wr 14) :
    W15 m ρ c (Proc.devRef .tc b) = W14 m ρ c (Proc.devRef .tc b) :=
  region_keep (cfg := cfg7) launch7.win.arr_inj (A_eq7 (V14 m ρ) c) (by decide) h

private theorem s15 (c : Dev nD) {b : Ref sig .tc} (h : b ∉ wr 15) :
    W16 m ρ c (Proc.devRef .tc b) = W15 m ρ c (Proc.devRef .tc b) :=
  region_keep (cfg := cfg8) launch8.win.arr_inj (A_eq8 (V15 m ρ) c) (by decide) h

private theorem s16 (c : Dev nD) {b : Ref sig .tc} (h : b ∉ wr 16) :
    W17 m ρ c (Proc.devRef .tc b) = W16 m ρ c (Proc.devRef .tc b) := after_keep (by repeat' constructor) _ h

private theorem s17 (c : Dev nD) {b : Ref sig .tc} (h : b ∉ wr 17) :
    W18 m ρ c (Proc.devRef .tc b) = W17 m ρ c (Proc.devRef .tc b) :=
  region_keep (cfg := cfg9) launch9.win.arr_inj (A_eq9 (V17 m ρ) c) (by decide) h

private theorem s18 (c : Dev nD) {b : Ref sig .tc} (h : b ∉ wr 18) :
    W19 m ρ c (Proc.devRef .tc b) = W18 m ρ c (Proc.devRef .tc b) := after_keep (by repeat' constructor) _ h

private theorem s19 (c : Dev nD) {b : Ref sig .tc} (h : b ∉ wr 19) :
    W20 m ρ c (Proc.devRef .tc b) = W19 m ρ c (Proc.devRef .tc b) :=
  region_keep (cfg := cfg10) launch10.win.arr_inj (A_eq10 (V19 m ρ) c) (by decide) h

private theorem s20 (c : Dev nD) {b : Ref sig .tc} (h : b ∉ wr 20) :
    W21 m ρ c (Proc.devRef .tc b) = W20 m ρ c (Proc.devRef .tc b) := after_keep (by repeat' constructor) _ h

private theorem s21 (c : Dev nD) {b : Ref sig .tc} (h : b ∉ wr 21) :
    W22 m ρ c (Proc.devRef .tc b) = W21 m ρ c (Proc.devRef .tc b) :=
  region_keep (cfg := cfg11) launch11.win.arr_inj (A_eq11 (V21 m ρ) c) (by decide) h

/-- From the launch to point `k` a buffer none of the first `k` steps writes keeps its contents. -/
private theorem a1 (c : Dev nD) {b : Ref sig .tc} (h : ∀ i < 1, b ∉ wr i) :
    W1 m ρ c (Proc.devRef .tc b) = W0 m ρ c (Proc.devRef .tc b) := s0 m ρ c (h 0 (by decide))

private theorem a2 (c : Dev nD) {b : Ref sig .tc} (h : ∀ i < 2, b ∉ wr i) :
    W2 m ρ c (Proc.devRef .tc b) = W0 m ρ c (Proc.devRef .tc b) :=
  (s1 m ρ c (h 1 (by decide))).trans (a1 m ρ c fun i hi => h i (Nat.lt_succ_of_lt hi))

private theorem a3 (c : Dev nD) {b : Ref sig .tc} (h : ∀ i < 3, b ∉ wr i) :
    W3 m ρ c (Proc.devRef .tc b) = W0 m ρ c (Proc.devRef .tc b) :=
  (s2 m ρ c (h 2 (by decide))).trans (a2 m ρ c fun i hi => h i (Nat.lt_succ_of_lt hi))

private theorem a4 (c : Dev nD) {b : Ref sig .tc} (h : ∀ i < 4, b ∉ wr i) :
    W4 m ρ c (Proc.devRef .tc b) = W0 m ρ c (Proc.devRef .tc b) :=
  (s3 m ρ c (h 3 (by decide))).trans (a3 m ρ c fun i hi => h i (Nat.lt_succ_of_lt hi))

private theorem a5 (c : Dev nD) {b : Ref sig .tc} (h : ∀ i < 5, b ∉ wr i) :
    W5 m ρ c (Proc.devRef .tc b) = W0 m ρ c (Proc.devRef .tc b) :=
  (s4 m ρ c (h 4 (by decide))).trans (a4 m ρ c fun i hi => h i (Nat.lt_succ_of_lt hi))

private theorem a6 (c : Dev nD) {b : Ref sig .tc} (h : ∀ i < 6, b ∉ wr i) :
    W6 m ρ c (Proc.devRef .tc b) = W0 m ρ c (Proc.devRef .tc b) :=
  (s5 m ρ c (h 5 (by decide))).trans (a5 m ρ c fun i hi => h i (Nat.lt_succ_of_lt hi))

private theorem a7 (c : Dev nD) {b : Ref sig .tc} (h : ∀ i < 7, b ∉ wr i) :
    W7 m ρ c (Proc.devRef .tc b) = W0 m ρ c (Proc.devRef .tc b) :=
  (s6 m ρ c (h 6 (by decide))).trans (a6 m ρ c fun i hi => h i (Nat.lt_succ_of_lt hi))

private theorem a8 (c : Dev nD) {b : Ref sig .tc} (h : ∀ i < 8, b ∉ wr i) :
    W8 m ρ c (Proc.devRef .tc b) = W0 m ρ c (Proc.devRef .tc b) :=
  (s7 m ρ c (h 7 (by decide))).trans (a7 m ρ c fun i hi => h i (Nat.lt_succ_of_lt hi))

private theorem a9 (c : Dev nD) {b : Ref sig .tc} (h : ∀ i < 9, b ∉ wr i) :
    W9 m ρ c (Proc.devRef .tc b) = W0 m ρ c (Proc.devRef .tc b) :=
  (s8 m ρ c (h 8 (by decide))).trans (a8 m ρ c fun i hi => h i (Nat.lt_succ_of_lt hi))

private theorem a10 (c : Dev nD) {b : Ref sig .tc} (h : ∀ i < 10, b ∉ wr i) :
    W10 m ρ c (Proc.devRef .tc b) = W0 m ρ c (Proc.devRef .tc b) :=
  (s9 m ρ c (h 9 (by decide))).trans (a9 m ρ c fun i hi => h i (Nat.lt_succ_of_lt hi))

private theorem a11 (c : Dev nD) {b : Ref sig .tc} (h : ∀ i < 11, b ∉ wr i) :
    W11 m ρ c (Proc.devRef .tc b) = W0 m ρ c (Proc.devRef .tc b) :=
  (s10 m ρ c (h 10 (by decide))).trans (a10 m ρ c fun i hi => h i (Nat.lt_succ_of_lt hi))

private theorem a12 (c : Dev nD) {b : Ref sig .tc} (h : ∀ i < 12, b ∉ wr i) :
    W12 m ρ c (Proc.devRef .tc b) = W0 m ρ c (Proc.devRef .tc b) :=
  (s11 m ρ c (h 11 (by decide))).trans (a11 m ρ c fun i hi => h i (Nat.lt_succ_of_lt hi))

private theorem a13 (c : Dev nD) {b : Ref sig .tc} (h : ∀ i < 13, b ∉ wr i) :
    W13 m ρ c (Proc.devRef .tc b) = W0 m ρ c (Proc.devRef .tc b) :=
  (s12 m ρ c (h 12 (by decide))).trans (a12 m ρ c fun i hi => h i (Nat.lt_succ_of_lt hi))

private theorem a14 (c : Dev nD) {b : Ref sig .tc} (h : ∀ i < 14, b ∉ wr i) :
    W14 m ρ c (Proc.devRef .tc b) = W0 m ρ c (Proc.devRef .tc b) :=
  (s13 m ρ c (h 13 (by decide))).trans (a13 m ρ c fun i hi => h i (Nat.lt_succ_of_lt hi))

private theorem a15 (c : Dev nD) {b : Ref sig .tc} (h : ∀ i < 15, b ∉ wr i) :
    W15 m ρ c (Proc.devRef .tc b) = W0 m ρ c (Proc.devRef .tc b) :=
  (s14 m ρ c (h 14 (by decide))).trans (a14 m ρ c fun i hi => h i (Nat.lt_succ_of_lt hi))

private theorem a16 (c : Dev nD) {b : Ref sig .tc} (h : ∀ i < 16, b ∉ wr i) :
    W16 m ρ c (Proc.devRef .tc b) = W0 m ρ c (Proc.devRef .tc b) :=
  (s15 m ρ c (h 15 (by decide))).trans (a15 m ρ c fun i hi => h i (Nat.lt_succ_of_lt hi))

private theorem a17 (c : Dev nD) {b : Ref sig .tc} (h : ∀ i < 17, b ∉ wr i) :
    W17 m ρ c (Proc.devRef .tc b) = W0 m ρ c (Proc.devRef .tc b) :=
  (s16 m ρ c (h 16 (by decide))).trans (a16 m ρ c fun i hi => h i (Nat.lt_succ_of_lt hi))

private theorem a18 (c : Dev nD) {b : Ref sig .tc} (h : ∀ i < 18, b ∉ wr i) :
    W18 m ρ c (Proc.devRef .tc b) = W0 m ρ c (Proc.devRef .tc b) :=
  (s17 m ρ c (h 17 (by decide))).trans (a17 m ρ c fun i hi => h i (Nat.lt_succ_of_lt hi))

private theorem a19 (c : Dev nD) {b : Ref sig .tc} (h : ∀ i < 19, b ∉ wr i) :
    W19 m ρ c (Proc.devRef .tc b) = W0 m ρ c (Proc.devRef .tc b) :=
  (s18 m ρ c (h 18 (by decide))).trans (a18 m ρ c fun i hi => h i (Nat.lt_succ_of_lt hi))

private theorem a20 (c : Dev nD) {b : Ref sig .tc} (h : ∀ i < 20, b ∉ wr i) :
    W20 m ρ c (Proc.devRef .tc b) = W0 m ρ c (Proc.devRef .tc b) :=
  (s19 m ρ c (h 19 (by decide))).trans (a19 m ρ c fun i hi => h i (Nat.lt_succ_of_lt hi))

private theorem a21 (c : Dev nD) {b : Ref sig .tc} (h : ∀ i < 21, b ∉ wr i) :
    W21 m ρ c (Proc.devRef .tc b) = W0 m ρ c (Proc.devRef .tc b) :=
  (s20 m ρ c (h 20 (by decide))).trans (a20 m ρ c fun i hi => h i (Nat.lt_succ_of_lt hi))

theorem carry_arg0_1 (c : Dev nD) : W1 m ρ c (Proc.devRef .tc main_arg0) = m ((c : Thread nD τ).loc main_arg0) :=
  a1 m ρ c (by decide)

theorem carry_arg3_1 (c : Dev nD) : W1 m ρ c (Proc.devRef .tc main_arg3) = m ((c : Thread nD τ).loc main_arg3) :=
  a1 m ρ c (by decide)

theorem carry_arg4_2 (c : Dev nD) : W2 m ρ c (Proc.devRef .tc main_arg4) = m ((c : Thread nD τ).loc main_arg4) :=
  a2 m ρ c (by decide)

theorem carry_arg5_4 (c : Dev nD) : W4 m ρ c (Proc.devRef .tc main_arg5) = m ((c : Thread nD τ).loc main_arg5) :=
  a4 m ρ c (by decide)

theorem carry_arg5_11 (c : Dev nD) : W11 m ρ c (Proc.devRef .tc main_arg5) = m ((c : Thread nD τ).loc main_arg5) :=
  a11 m ρ c (by decide)

theorem carry_arg6_4 (c : Dev nD) : W4 m ρ c (Proc.devRef .tc main_arg6) = m ((c : Thread nD τ).loc main_arg6) :=
  a4 m ρ c (by decide)

theorem carry_arg6_11 (c : Dev nD) : W11 m ρ c (Proc.devRef .tc main_arg6) = m ((c : Thread nD τ).loc main_arg6) :=
  a11 m ρ c (by decide)

theorem carry_arg7_9 (c : Dev nD) : W9 m ρ c (Proc.devRef .tc main_arg7) = m ((c : Thread nD τ).loc main_arg7) :=
  a9 m ρ c (by decide)

theorem carry_arg7_16 (c : Dev nD) : W16 m ρ c (Proc.devRef .tc main_arg7) = m ((c : Thread nD τ).loc main_arg7) :=
  a16 m ρ c (by decide)

theorem carry_arg8_9 (c : Dev nD) : W9 m ρ c (Proc.devRef .tc main_arg8) = m ((c : Thread nD τ).loc main_arg8) :=
  a9 m ρ c (by decide)

theorem carry_arg8_16 (c : Dev nD) : W16 m ρ c (Proc.devRef .tc main_arg8) = m ((c : Thread nD τ).loc main_arg8) :=
  a16 m ρ c (by decide)

theorem carry_arg2_18 (c : Dev nD) : W18 m ρ c (Proc.devRef .tc main_arg2) = m ((c : Thread nD τ).loc main_arg2) :=
  a18 m ρ c (by decide)

theorem carry_arg10_20 (c : Dev nD) : W20 m ρ c (Proc.devRef .tc main_arg10) = m ((c : Thread nD τ).loc main_arg10) :=
  a20 m ρ c (by decide)

theorem carry_arg11_20 (c : Dev nD) : W20 m ρ c (Proc.devRef .tc main_arg11) = m ((c : Thread nD τ).loc main_arg11) :=
  a20 m ρ c (by decide)

theorem carry_arg12_20 (c : Dev nD) : W20 m ρ c (Proc.devRef .tc main_arg12) = m ((c : Thread nD τ).loc main_arg12) :=
  a20 m ρ c (by decide)

theorem carry_arg14_20 (c : Dev nD) : W20 m ρ c (Proc.devRef .tc main_arg14) = m ((c : Thread nD τ).loc main_arg14) :=
  a20 m ρ c (by decide)

theorem carry_arg15_20 (c : Dev nD) : W20 m ρ c (Proc.devRef .tc main_arg15) = m ((c : Thread nD τ).loc main_arg15) :=
  a20 m ρ c (by decide)

theorem carry_arg16_20 (c : Dev nD) : W20 m ρ c (Proc.devRef .tc main_arg16) = m ((c : Thread nD τ).loc main_arg16) :=
  a20 m ρ c (by decide)

theorem carry_arg18_20 (c : Dev nD) : W20 m ρ c (Proc.devRef .tc main_arg18) = m ((c : Thread nD τ).loc main_arg18) :=
  a20 m ρ c (by decide)

theorem carry_arg9_21 (c : Dev nD) : W21 m ρ c (Proc.devRef .tc main_arg9) = m ((c : Thread nD τ).loc main_arg9) :=
  a21 m ρ c (by decide)

theorem carry_arg13_21 (c : Dev nD) : W21 m ρ c (Proc.devRef .tc main_arg13) = m ((c : Thread nD τ).loc main_arg13) :=
  a21 m ρ c (by decide)

theorem carry_arg17_21 (c : Dev nD) : W21 m ρ c (Proc.devRef .tc main_arg17) = m ((c : Thread nD τ).loc main_arg17) :=
  a21 m ρ c (by decide)

theorem carry_v1_2 (c : Dev nD) : W2 m ρ c (Proc.devRef .tc main_v1) = W1 m ρ c (Proc.devRef .tc main_v1) :=
  s1 m ρ c (by decide)

theorem carry_v1_6 (c : Dev nD) : W6 m ρ c (Proc.devRef .tc main_v1) = W1 m ρ c (Proc.devRef .tc main_v1) :=
  (s5 m ρ c (by decide)).trans <| (s4 m ρ c (by decide)).trans <| (s3 m ρ c (by decide)).trans <|
  (s2 m ρ c (by decide)).trans <| s1 m ρ c (by decide)

theorem carry_v1_13 (c : Dev nD) : W13 m ρ c (Proc.devRef .tc main_v1) = W1 m ρ c (Proc.devRef .tc main_v1) :=
  (s12 m ρ c (by decide)).trans <| (s11 m ρ c (by decide)).trans <| (s10 m ρ c (by decide)).trans <|
  (s9 m ρ c (by decide)).trans <| (s8 m ρ c (by decide)).trans <| (s7 m ρ c (by decide)).trans <|
  (s6 m ρ c (by decide)).trans <| (s5 m ρ c (by decide)).trans <| (s4 m ρ c (by decide)).trans <|
  (s3 m ρ c (by decide)).trans <| (s2 m ρ c (by decide)).trans <| s1 m ρ c (by decide)

theorem carry_v3_2 (c : Dev nD) : W2 m ρ c (Proc.devRef .tc main_v3) = W1 m ρ c (Proc.devRef .tc main_v3) :=
  s1 m ρ c (by decide)

theorem carry_v3_6 (c : Dev nD) : W6 m ρ c (Proc.devRef .tc main_v3) = W1 m ρ c (Proc.devRef .tc main_v3) :=
  (s5 m ρ c (by decide)).trans <| (s4 m ρ c (by decide)).trans <| (s3 m ρ c (by decide)).trans <|
  (s2 m ρ c (by decide)).trans <| s1 m ρ c (by decide)

theorem carry_v3_13 (c : Dev nD) : W13 m ρ c (Proc.devRef .tc main_v3) = W1 m ρ c (Proc.devRef .tc main_v3) :=
  (s12 m ρ c (by decide)).trans <| (s11 m ρ c (by decide)).trans <| (s10 m ρ c (by decide)).trans <|
  (s9 m ρ c (by decide)).trans <| (s8 m ρ c (by decide)).trans <| (s7 m ρ c (by decide)).trans <|
  (s6 m ρ c (by decide)).trans <| (s5 m ρ c (by decide)).trans <| (s4 m ρ c (by decide)).trans <|
  (s3 m ρ c (by decide)).trans <| (s2 m ρ c (by decide)).trans <| s1 m ρ c (by decide)

theorem carry_v25_2 (c : Dev nD) : W2 m ρ c (Proc.devRef .tc main_v25) = W1 m ρ c (Proc.devRef .tc main_v25) :=
  s1 m ρ c (by decide)

theorem carry_v25_6 (c : Dev nD) : W6 m ρ c (Proc.devRef .tc main_v25) = W1 m ρ c (Proc.devRef .tc main_v25) :=
  (s5 m ρ c (by decide)).trans <| (s4 m ρ c (by decide)).trans <| (s3 m ρ c (by decide)).trans <|
  (s2 m ρ c (by decide)).trans <| s1 m ρ c (by decide)

theorem carry_v25_13 (c : Dev nD) : W13 m ρ c (Proc.devRef .tc main_v25) = W1 m ρ c (Proc.devRef .tc main_v25) :=
  (s12 m ρ c (by decide)).trans <| (s11 m ρ c (by decide)).trans <| (s10 m ρ c (by decide)).trans <|
  (s9 m ρ c (by decide)).trans <| (s8 m ρ c (by decide)).trans <| (s7 m ρ c (by decide)).trans <|
  (s6 m ρ c (by decide)).trans <| (s5 m ρ c (by decide)).trans <| (s4 m ρ c (by decide)).trans <|
  (s3 m ρ c (by decide)).trans <| (s2 m ρ c (by decide)).trans <| s1 m ρ c (by decide)

theorem carry_v27_3 (c : Dev nD) : W3 m ρ c (Proc.devRef .tc main_v27) = W1 m ρ c (Proc.devRef .tc main_v27) :=
  (s2 m ρ c (by decide)).trans <| s1 m ρ c (by decide)

theorem carry_v27_7 (c : Dev nD) : W7 m ρ c (Proc.devRef .tc main_v27) = W1 m ρ c (Proc.devRef .tc main_v27) :=
  (s6 m ρ c (by decide)).trans <| (s5 m ρ c (by decide)).trans <| (s4 m ρ c (by decide)).trans <|
  (s3 m ρ c (by decide)).trans <| (s2 m ρ c (by decide)).trans <| s1 m ρ c (by decide)

theorem carry_v27_14 (c : Dev nD) : W14 m ρ c (Proc.devRef .tc main_v27) = W1 m ρ c (Proc.devRef .tc main_v27) :=
  (s13 m ρ c (by decide)).trans <| (s12 m ρ c (by decide)).trans <| (s11 m ρ c (by decide)).trans <|
  (s10 m ρ c (by decide)).trans <| (s9 m ρ c (by decide)).trans <| (s8 m ρ c (by decide)).trans <|
  (s7 m ρ c (by decide)).trans <| (s6 m ρ c (by decide)).trans <| (s5 m ρ c (by decide)).trans <|
  (s4 m ρ c (by decide)).trans <| (s3 m ρ c (by decide)).trans <| (s2 m ρ c (by decide)).trans <| s1 m ρ c (by decide)

theorem carry_v28_3 (c : Dev nD) : W3 m ρ c (Proc.devRef .tc main_v28) = W2 m ρ c (Proc.devRef .tc main_v28) :=
  s2 m ρ c (by decide)

theorem carry_v43_5 (c : Dev nD) : W5 m ρ c (Proc.devRef .tc main_v43) = W4 m ρ c (Proc.devRef .tc main_v43) :=
  s4 m ρ c (by decide)

theorem carry_v47_6 (c : Dev nD) : W6 m ρ c (Proc.devRef .tc main_v47) = W5 m ρ c (Proc.devRef .tc main_v47) :=
  s5 m ρ c (by decide)

theorem carry_v48_7 (c : Dev nD) : W7 m ρ c (Proc.devRef .tc main_v48) = W6 m ρ c (Proc.devRef .tc main_v48) :=
  s6 m ρ c (by decide)

theorem carry_v63_10 (c : Dev nD) : W10 m ρ c (Proc.devRef .tc main_v63) = W8 m ρ c (Proc.devRef .tc main_v63) :=
  (s9 m ρ c (by decide)).trans <| s8 m ρ c (by decide)

theorem carry_v80_12 (c : Dev nD) : W12 m ρ c (Proc.devRef .tc main_v80) = W11 m ρ c (Proc.devRef .tc main_v80) :=
  s11 m ρ c (by decide)

theorem carry_v84_13 (c : Dev nD) : W13 m ρ c (Proc.devRef .tc main_v84) = W12 m ρ c (Proc.devRef .tc main_v84) :=
  s12 m ρ c (by decide)

theorem carry_v85_14 (c : Dev nD) : W14 m ρ c (Proc.devRef .tc main_v85) = W13 m ρ c (Proc.devRef .tc main_v85) :=
  s13 m ρ c (by decide)

theorem carry_v100_17 (c : Dev nD) : W17 m ρ c (Proc.devRef .tc main_v100) = W15 m ρ c (Proc.devRef .tc main_v100) :=
  (s16 m ρ c (by decide)).trans <| s15 m ρ c (by decide)

theorem carry_v117_19 (c : Dev nD) : W19 m ρ c (Proc.devRef .tc main_v117) = W18 m ρ c (Proc.devRef .tc main_v117) :=
  s18 m ρ c (by decide)

theorem carry_v125_21 (c : Dev nD) : W21 m ρ c (Proc.devRef .tc main_v125) = W20 m ρ c (Proc.devRef .tc main_v125) :=
  s20 m ρ c (by decide)

end Cert.KernelIdeal.KCarry

end
-- ==== Proof.Spec.lean ====
import proofs.«431361_j18107582120395_1_alg».proof.ReferenceIdeal
import Idealize.ShloMosaic.PureOps.Ideal
import Idealize.ShloMosaic.Lib.ValueIdx

noncomputable section

namespace Cert.Spec

open Idealize.ShloMosaic Cert.ReferenceIdeal

variable [Cert.ReferenceIdeal.Facts]
open Cert.ReferenceIdeal.Facts₀

/-- No entry is infinite. -/
def IsReal {s : Shape} (v : FVec Ideal s .f32) : Prop := ∀ i, ∃ r : ℝ, v i = (r : EReal)

/-- The constants 0, 1, 50000 (nodes), 64 (graphs) and the variance floor. -/
def c0 : FVec Ideal S_ .f32 := constant S_ .f32 0x00000000#32
def c1 : FVec Ideal S_ .f32 := constant S_ .f32 0x3F800000#32
def cN : FVec Ideal S_ .f32 := constant S_ .f32 0x47435000#32
def cG : FVec Ideal S_ .f32 := constant S_ .f32 0x42800000#32
def cEps : FVec Ideal S_ .f32 := constant S_ .f32 0x3727C5AC#32

/-- Vectors laid out as a row or a column, and a row or column repeated to the full array. -/
def row128 (v : FVec Ideal S128 .f32) : FVec Ideal S1x128 .f32 := broadcastInDim S1x128 ![1] bcast_S128_S1x128_1 v
def rows128 (r : FVec Ideal S1x128 .f32) : FVec Ideal S50000x128 .f32 := broadcastInDim S50000x128 ![0, 1] bcast_S1x128_S50000x128_0_1 r

def col50000 (v : FVec Ideal S50000 .f32) : FVec Ideal S50000x1 .f32 := broadcastInDim S50000x1 ![0] bcast_S50000_S50000x1_0 v
def cols50000 (k : FVec Ideal S50000x1 .f32) : FVec Ideal S50000x128 .f32 := broadcastInDim S50000x128 ![0, 1] bcast_S50000x1_S50000x128_0_1 k

def row256 (v : FVec Ideal S256 .f32) : FVec Ideal S1x256 .f32 := broadcastInDim S1x256 ![1] bcast_S256_S1x256_1 v
def rows256 (r : FVec Ideal S1x256 .f32) : FVec Ideal S64x256 .f32 := broadcastInDim S64x256 ![0, 1] bcast_S1x256_S64x256_0_1 r

/-- The two rows of the edge list: each edge's source and destination node. -/
def src (ei : IVec S2x800000 32) : IVec S800000 32 :=
  shapeCast S800000 (extractStridedSlice S1x800000 ![0, 0] ei slices_S2x800000_S1x800000_0_0) shapeCasts_S1x800000_S800000

def dst (ei : IVec S2x800000 32) : IVec S800000 32 :=
  shapeCast S800000 (extractStridedSlice S1x800000 ![1, 0] ei slices_S2x800000_S1x800000_1_0) shapeCasts_S1x800000_S800000

def asIdx (v : IVec S800000 32) : IVec S800000x1 32 := broadcastInDim S800000x1 ![0] bcast_S800000_S800000x1_0 v

/-- Gather indices: a negative node number counts from the end. -/
def wrapIdx (v : IVec S800000 32) : IVec S800000x1 32 :=
  asIdx (select (cmpi .slt v (broadcastInDim S800000 ![] bcast_S_S800000 (constantI S_ 32 0#32)))
    (addi v (broadcastInDim S800000 ![] bcast_S_S800000 (constantI S_ 32 50000#32))) v)

/-- `1/√deg`, where `deg` is one plus the number of edges ending at the node. -/
def dis (ei : IVec S2x800000 32) : FVec Ideal S50000 .f32 :=
  Host.rsqrt (addf (Host.scatterAdd scatter_S50000_S800000x1_S800000_n_0_0_1 (broadcastInDim S50000 ![] bcast_S_S50000 c0)
    (asIdx (dst ei)) (broadcastInDim S800000 ![] bcast_S_S800000 c1)) (broadcastInDim S50000 ![] bcast_S_S50000 c1))

/-- An edge's weight is the product of `1/√deg` at its two ends; a self-loop's is `1/deg`. -/
def enorm (ei : IVec S2x800000 32) : FVec Ideal S800000 .f32 :=
  mulf (Host.gather gather_S50000_S800000x1_S800000_n_0_n_n_0_1_1 (dis ei) (wrapIdx (src ei)))
    (Host.gather gather_S50000_S800000x1_S800000_n_0_n_n_0_1_1 (dis ei) (wrapIdx (dst ei)))

def snorm (ei : IVec S2x800000 32) : FVec Ideal S50000 .f32 := mulf (dis ei) (dis ei)

/-- Node rows times a weight matrix. -/
def lin (h : FVec Ideal S50000x128 .f32) (W : FVec Ideal S128x128 .f32) : FVec Ideal S50000x128 .f32 :=
  Host.dotGeneral dot_S50000x128_S128x128_S50000x128_1_0_0_1_n_n none h W

/-- Each edge adds its source's row, scaled by the edge's weight, to its destination's row. -/
def aggOf (s d : IVec S800000 32) (en : FVec Ideal S800000 .f32) (l : FVec Ideal S50000x128 .f32) : FVec Ideal S50000x128 .f32 :=
  Host.scatterAdd scatter_S50000x128_S800000x1_S800000x128_1_0_0_1 (broadcastInDim S50000x128 ![] bcast_S_S50000x128 c0) (asIdx d)
    (mulf (Host.gather gather_S50000x128_S800000x1_S800000x128_1_0_n_n_0_1_1128 l (wrapIdx s))
      (broadcastInDim S800000x128 ![0, 1] bcast_S800000x1_S800000x128_0_1 (broadcastInDim S800000x1 ![0] bcast_S800000_S800000x1_0 en)))

def agg (ei : IVec S2x800000 32) (l : FVec Ideal S50000x128 .f32) : FVec Ideal S50000x128 .f32 :=
  aggOf (src ei) (dst ei) (enorm ei) l

/-- `max (a + l · sn + b) 0`, with `sn` a column and `b` a row. -/
def combine (a l : FVec Ideal S50000x128 .f32) (sn : FVec Ideal S50000x1 .f32) (b : FVec Ideal S1x128 .f32) : FVec Ideal S50000x128 .f32 :=
  maximumf (addf (addf a (mulf l (cols50000 sn))) (rows128 b)) (broadcastInDim S50000x128 ![] bcast_S_S50000x128 c0)

/-- One graph convolution: the neighbours' weighted sum plus the node's own weighted row plus a bias, rectified. -/
def gcn (ei : IVec S2x800000 32) (h : FVec Ideal S50000x128 .f32) (W : FVec Ideal S128x128 .f32) (b : FVec Ideal S128 .f32) : FVec Ideal S50000x128 .f32 :=
  combine (agg ei (lin h W)) (lin h W) (col50000 (snorm ei)) (row128 b)

/-- Column sums, means and variances over the 50000 nodes. -/
def colSum (a : FVec Ideal S50000x128 .f32) : FVec Ideal S128 .f32 := Host.reduceAdd a c0 reducesTo_S50000x128_S128_d0 h_S_

def mean (a : FVec Ideal S50000x128 .f32) : FVec Ideal S128 .f32 := Host.divf (colSum a) (broadcastInDim S128 ![] bcast_S_S128 cN)

def centred (a : FVec Ideal S50000x128 .f32) : FVec Ideal S50000x128 .f32 :=
  subf a (rows128 (Host.divf (row128 (colSum a)) (broadcastInDim S1x128 ![] bcast_S_S1x128 cN)))

def nMinus : FVec Ideal S_ .f32 := subf cN (sitofp .f32 (constantI S_ 32 0#32))

def var (a : FVec Ideal S50000x128 .f32) : FVec Ideal S128 .f32 :=
  select (broadcastInDim S128 ![] bcast_S_S128 (cmpf .ogt nMinus c0))
    (Host.divf (colSum (mulf (centred a) (centred a))) (broadcastInDim S128 ![] bcast_S_S128 nMinus))
    (broadcastInDim S128 ![] bcast_S_S128 (id (constant S_ .f32 0x7FC00000#32 : FVec Ideal S_ .f32)))

/-- `((a - mu) · inv) · g + be`, the four parameters being rows. -/
def affine (a : FVec Ideal S50000x128 .f32) (mu inv g be : FVec Ideal S1x128 .f32) : FVec Ideal S50000x128 .f32 :=
  addf (mulf (mulf (subf a (rows128 mu)) (rows128 inv)) (rows128 g)) (rows128 be)

def invStd (a : FVec Ideal S50000x128 .f32) : FVec Ideal S128 .f32 := Host.rsqrt (addf (var a) (broadcastInDim S128 ![] bcast_S_S128 cEps))

/-- Every column brought to mean zero and variance one, then scaled and shifted. -/
def bn (a : FVec Ideal S50000x128 .f32) (g be : FVec Ideal S128 .f32) : FVec Ideal S50000x128 .f32 :=
  affine a (row128 (mean a)) (row128 (invStd a)) (row128 g) (row128 be)

/-- Layer `k`'s matrix and vector out of the stacked parameters. -/
def mat (k : Fin 2) (Ws : FVec Ideal S2x128x128 .f32) : FVec Ideal S128x128 .f32 :=
  match k with
  | ⟨0, _⟩ => shapeCast S128x128 (extractStridedSlice S1x128x128 ![0, 0, 0] Ws slices_S2x128x128_S1x128x128_0_0_0) shapeCasts_S1x128x128_S128x128
  | ⟨1, _⟩ => shapeCast S128x128 (extractStridedSlice S1x128x128 ![1, 0, 0] Ws slices_S2x128x128_S1x128x128_1_0_0) shapeCasts_S1x128x128_S128x128
def vec (k : Fin 2) (v : FVec Ideal S2x128 .f32) : FVec Ideal S128 .f32 :=
  match k with
  | ⟨0, _⟩ => shapeCast S128 (extractStridedSlice S1x128 ![0, 0] v slices_S2x128_S1x128_0_0) shapeCasts_S1x128_S128
  | ⟨1, _⟩ => shapeCast S128 (extractStridedSlice S1x128 ![1, 0] v slices_S2x128_S1x128_1_0) shapeCasts_S1x128_S128

/-- Row `g` is the sum of the rows of the nodes in graph `g`. -/
def pool (batch : IVec S50000 32) (h : FVec Ideal S50000x128 .f32) : FVec Ideal S64x128 .f32 :=
  Host.scatterAdd scatter_S64x128_S50000x1_S50000x128_1_0_0_1 (broadcastInDim S64x128 ![] bcast_S_S64x128 c0)
    (broadcastInDim S50000x1 ![0] bcast_S50000_S50000x1_0 batch) h

/-- The same sums as a product with the 0/1 membership matrix. -/
def poolMM (oh : FVec Ideal (⟨2, ![50000, 64]⟩ : Shape) .f32) (h : FVec Ideal S50000x128 .f32) : FVec Ideal S64x128 .f32 :=
  fun i => ∑ n : Fin 50000, oh (ValueIdx.ix2 n (⟨(i 0).val, (i 0).isLt⟩ : Fin 64)) * h (ValueIdx.ix2 n (⟨(i 1).val, (i 1).isLt⟩ : Fin 128))

/-- The same column statistics over the 64 pooled rows. -/
def colSumH (a : FVec Ideal S64x256 .f32) : FVec Ideal S256 .f32 := Host.reduceAdd a c0 reducesTo_S64x256_S256_d0 h_S_
def meanH (a : FVec Ideal S64x256 .f32) : FVec Ideal S256 .f32 := Host.divf (colSumH a) (broadcastInDim S256 ![] bcast_S_S256 cG)
def centredH (a : FVec Ideal S64x256 .f32) : FVec Ideal S64x256 .f32 :=
  subf a (rows256 (Host.divf (row256 (colSumH a)) (broadcastInDim S1x256 ![] bcast_S_S1x256 cG)))
def gMinus : FVec Ideal S_ .f32 := subf cG (sitofp .f32 (constantI S_ 32 0#32))
def varH (a : FVec Ideal S64x256 .f32) : FVec Ideal S256 .f32 :=
  select (broadcastInDim S256 ![] bcast_S_S256 (cmpf .ogt gMinus c0))
    (Host.divf (colSumH (mulf (centredH a) (centredH a))) (broadcastInDim S256 ![] bcast_S_S256 gMinus))
    (broadcastInDim S256 ![] bcast_S_S256 (id (constant S_ .f32 0x7FC00000#32 : FVec Ideal S_ .f32)))

def bnH (a : FVec Ideal S64x256 .f32) (g be : FVec Ideal S1x256 .f32) : FVec Ideal S64x256 .f32 :=
  addf (mulf (mulf (subf a (rows256 (row256 (meanH a))))
    (rows256 (row256 (Host.rsqrt (addf (varH a) (broadcastInDim S256 ![] bcast_S_S256 cEps)))))) (rows256 g)) (rows256 be)

def reluH (z : FVec Ideal S64x256 .f32) : FVec Ideal S64x256 .f32 := maximumf z (broadcastInDim S64x256 ![] bcast_S_S64x256 c0)

/-- Two dense layers, each rectified and normalised, then a dense layer to one value per graph. -/
def head (p : FVec Ideal S64x128 .f32) (W1 : FVec Ideal S128x256 .f32) (b1 g1 be1 : FVec Ideal S1x256 .f32)
    (W2 : FVec Ideal S256x256 .f32) (b2 g2 be2 : FVec Ideal S1x256 .f32) (Wo : FVec Ideal S256x1 .f32) (bo : FVec Ideal S1x1 .f32) :
    FVec Ideal S64x1 .f32 :=
  addf (Host.dotGeneral dot_S64x256_S256x1_S64x1_1_0_0_1_n_n none
      (bnH (reluH (addf (Host.dotGeneral dot_S64x256_S256x256_S64x256_1_0_0_1_n_n none
          (bnH (reluH (addf (Host.dotGeneral dot_S64x128_S128x256_S64x256_1_0_0_1_n_n none p W1) (rows256 b1))) g1 be1) W2) (rows256 b2))) g2 be2) Wo)
    (broadcastInDim S64x1 ![0, 1] bcast_S1x1_S64x1_0_1 bo)

/-- The node rows after the three convolutions. -/
def nodes (x : FVec Ideal S50000x128 .f32) (ei : IVec S2x800000 32) (Wi : FVec Ideal S128x128 .f32) (bi : FVec Ideal S128 .f32)
    (Ws : FVec Ideal S2x128x128 .f32) (bs gs bes : FVec Ideal S2x128 .f32) : FVec Ideal S50000x128 .f32 :=
  bn (gcn ei (bn (gcn ei (gcn ei x Wi bi) (mat 0 Ws) (vec 0 bs)) (vec 0 gs) (vec 0 bes)) (mat 1 Ws) (vec 1 bs)) (vec 1 gs) (vec 1 bes)

/-- The network: convolutions, pooling, head. -/
def out (x : FVec Ideal S50000x128 .f32) (ei : IVec S2x800000 32) (batch : IVec S50000 32) (Wi : FVec Ideal S128x128 .f32) (bi : FVec Ideal S128 .f32)
    (Ws : FVec Ideal S2x128x128 .f32) (bs gs bes : FVec Ideal S2x128 .f32)
    (W1 : FVec Ideal S128x256 .f32) (b1 g1 be1 : FVec Ideal S256 .f32) (W2 : FVec Ideal S256x256 .f32) (b2 g2 be2 : FVec Ideal S256 .f32)
    (Wo : FVec Ideal S256x1 .f32) (bo : FVec Ideal S1 .f32) : FVec Ideal S64x1 .f32 :=
  head (pool batch (nodes x ei Wi bi Ws bs gs bes)) W1 (row256 b1) (row256 g1) (row256 be1) W2 (row256 b2) (row256 g2) (row256 be2) Wo
    (broadcastInDim S1x1 ![1] bcast_S1_S1x1_1 bo)

end Cert.Spec

end
-- ==== Proof.KHost0.lean ====
import proofs.«431361_j18107582120395_1_alg».proof.Proof.Gen.KernelIdeal.Launch
import proofs.«431361_j18107582120395_1_alg».proof.Proof.Gen.ReferenceIdeal
import proofs.«431361_j18107582120395_1_alg».proof.Proof.Spec
import Idealize.ShloMosaic.Lib.StableHlo.Run
import Idealize.ShloMosaic.Lib.Pipeline.Value
import Idealize.ShloMosaic.Lib.ValueIdx

noncomputable section

namespace Cert.KernelIdeal.KHost

open Idealize.ShloMosaic Idealize.ShloMosaic.StableHlo Cert.KernelIdeal Cert.KernelIdeal.Gen

theorem h0_reshape_col (v : FVec Ideal S50000 .f32) (h : S50000.ShapeCasts S50000x1) :
    shapeCast S50000x1 v h = Cert.Spec.col50000 v := by
  funext j
  have h1 : (j 1).val = 0 := by have := (j 1).isLt; simp at this; omega
  have hk : ((S50000.rowMajor (ValueIdx.ix1 (⟨(j 0).val, (j 0).isLt⟩ : Fin 50000))).val) = (S50000x1.rowMajor j).val := by
    rw [Shape.rowMajor_val_one, Shape.rowMajor_val_two]
    show (j 0).val = (j 0).val * 1 + (j 1).val
    omega
  refine (shapeCast_apply v h j (ValueIdx.ix1 (⟨(j 0).val, (j 0).isLt⟩ : Fin 50000)) hk).trans ?_
  unfold Cert.Spec.col50000
  refine (broadcastInDim_apply _ _ v j (ValueIdx.ix1 (⟨(j 0).val, (j 0).isLt⟩ : Fin 50000)) ?_).symm
  intro a
  match a with
  | ⟨0, _⟩ => rfl

variable (W : Valuation τ sig (Elt Ideal))

theorem h0_src : after (hostOps0 (F := Ideal)) W (Proc.devRef .tc main_v1) = Cert.Spec.src (W (Proc.devRef .tc main_arg1)) := by
  simp only [hostOps0]
  after_results_simp
  rfl

theorem h0_dst : after (hostOps0 (F := Ideal)) W (Proc.devRef .tc main_v3) = Cert.Spec.dst (W (Proc.devRef .tc main_arg1)) := by
  simp only [hostOps0]
  after_results_simp
  rfl

attribute [local irreducible] Host.scatterAdd Host.gather Host.rsqrt in

theorem h0_enorm : after (hostOps0 (F := Ideal)) W (Proc.devRef .tc main_v25) = Cert.Spec.enorm (W (Proc.devRef .tc main_arg1)) := by
  simp only [hostOps0]
  after_results_simp
  rfl

attribute [local irreducible] Host.scatterAdd Host.gather Host.rsqrt in

theorem h0_sncol : after (hostOps0 (F := Ideal)) W (Proc.devRef .tc main_v27)
    = Cert.Spec.col50000 (Cert.Spec.snorm (W (Proc.devRef .tc main_arg1))) := by
  simp only [hostOps0]
  after_results_simp
  exact (show _ = shapeCast S50000x1 (Cert.Spec.snorm (W (Proc.devRef .tc main_arg1))) shapeCasts_S50000_S50000x1 from rfl).trans
    (h0_reshape_col _ _)

end Cert.KernelIdeal.KHost

end
-- ==== Proof.PoolAlgebra.lean ====
import proofs.«431361_j18107582120395_1_alg».proof.Proof.Spec
import proofs.«431361_j18107582120395_1_alg».proof.KernelIdeal
import proofs.«431361_j18107582120395_1_alg».proof.Proof.Gen.KernelIdeal
import Idealize.ShloMosaic.Lib.StableHlo.Predicate
import Idealize.ShloMosaic.Lib.ValueIdx
import Idealize.ShloMosaic.PureOps.Ideal.Laws

noncomputable section

namespace Cert.Spec

open Idealize.ShloMosaic

/-- The 0/1 membership matrix: entry `(n, g)` is one exactly when node `n`'s graph number is `g`. -/
def onehot (batch : IVec Cert.KernelIdeal.S50000 32) : FVec Ideal Cert.KernelIdeal.S50000x64 .f32 :=
  uitofp .f32
    (cmpi .eq
      (broadcastInDim Cert.KernelIdeal.S50000x64 ![0, 1] Cert.KernelIdeal.Facts₀.bcast_S50000x1_S50000x64_0_1
        (broadcastInDim Cert.KernelIdeal.S50000x1 ![0] Cert.KernelIdeal.Facts₀.bcast_S50000_S50000x1_0 batch))
      (broadcastInDim Cert.KernelIdeal.S50000x64 ![0, 1] Cert.KernelIdeal.Facts₀.bcast_S1x64_S50000x64_0_1
        (broadcastInDim Cert.KernelIdeal.S1x64 ![1] Cert.KernelIdeal.Facts₀.bcast_S64_S1x64_1 (iotaInDim Cert.KernelIdeal.S64 32 0))))

private theorem ij_eq_ix2 {n m : Nat} (p : Fin n) (q : Fin m) : StableHlo.Predicate.ij p q = ValueIdx.ix2 p q := by
  funext a; match a with | ⟨0, _⟩ => rfl | ⟨1, _⟩ => rfl

private theorem ofFin_eq_ix1 {n : Nat} (p : Fin n) : Shape.Idx.ofFin p = ValueIdx.ix1 p := by
  funext a; match a with | ⟨0, _⟩ => rfl

private theorem onehot_bit (batch : IVec Cert.KernelIdeal.S50000 32) (n : Fin 50000) (g : Fin 64) :
    onehot batch (ValueIdx.ix2 n g)
      = FloatOps.uitofp (F := Ideal) .f32 (IntOp.cmpi .eq (batch (ValueIdx.ix1 n)) (BitVec.ofNat 32 g.val)) := by
  unfold onehot
  show FloatOps.uitofp (F := Ideal) .f32 (IntOp.cmpi .eq _ _) = _
  rw [← ij_eq_ix2, StableHlo.Predicate.bcast_rows, StableHlo.Predicate.bcast_cols, StableHlo.Predicate.iota_apply, ofFin_eq_ix1]

private theorem word_eq_iff (a : BitVec 32) (g : Fin 64) : a = BitVec.ofNat 32 g.val ↔ a.toInt = (g.val : Int) := by
  have hg := g.isLt
  constructor
  · intro h; rw [h]; exact StableHlo.Predicate.toInt_ofNat_small g.val (by omega)
  · intro h
    apply BitVec.eq_of_toInt_eq
    rw [h, StableHlo.Predicate.toInt_ofNat_small g.val (by omega)]

theorem onehot_apply (batch : IVec Cert.KernelIdeal.S50000 32) (n : Fin 50000) (g : Fin 64) :
    onehot batch (ValueIdx.ix2 n g) = if (batch (ValueIdx.ix1 n)).toInt = (g.val : Int) then 1 else 0 := by
  rw [onehot_bit]
  show (((IntOp.cmpi .eq (batch (ValueIdx.ix1 n)) (BitVec.ofNat 32 g.val)).toNat : ℝ) : EReal) = _
  by_cases h : (batch (ValueIdx.ix1 n)).toInt = (g.val : Int)
  · rw [if_pos h, StableHlo.Predicate.cmpi_eq_iff.2 ((word_eq_iff _ g).2 h)]
    norm_num
  · rw [if_neg h, ValueIdx.eq_zero_of_ne_one (fun hc => h ((word_eq_iff _ g).1 (StableHlo.Predicate.cmpi_eq_iff.1 hc)))]
    norm_num

open Cert.ReferenceIdeal

variable [Cert.ReferenceIdeal.Facts]
open Cert.ReferenceIdeal.Facts₀

private abbrev poolDims := scatter_S64x128_S50000x1_S50000x128_1_0_0_1

private theorem poolDims_start0 (idx : IVec S50000x1 32) (n : Fin 50000) (j : Fin 128) :
    poolDims.start (ValueIdx.ix2 n j) idx 0 = (idx (ValueIdx.ix2 n (0 : Fin 1))).toInt := by
  unfold ScatterDims.start
  rw [dif_pos (show (0 : Fin 2) ∈ poolDims.scatterDimsToOperandDims from List.mem_singleton.mpr rfl)]
  congr 2
  funext b
  refine Fin.ext ?_
  match b with
  | ⟨0, _⟩ => rfl
  | ⟨1, _⟩ => rfl

private theorem poolDims_start1 (idx : IVec S50000x1 32) (n : Fin 50000) (j : Fin 128) :
    poolDims.start (ValueIdx.ix2 n j) idx 1 = 0 := rfl

private theorem poolDims_window0 (n : Fin 50000) (j : Fin 128) : poolDims.window (ValueIdx.ix2 n j) 0 = 0 := rfl

private theorem poolDims_window1 (n : Fin 50000) (j : Fin 128) : poolDims.window (ValueIdx.ix2 n j) 1 = j.val := rfl

private theorem poolDims_resultIdx_iff (idx : IVec S50000x1 32) (n : Fin 50000) (j : Fin 128) (i : (⟨2, ![64, 128]⟩ : Shape).Idx) :
    poolDims.resultIdx? (ValueIdx.ix2 n j) idx = some i ↔
      (idx (ValueIdx.ix2 n (0 : Fin 1))).toInt = ((i 0).val : Int) ∧ j.val = (i 1).val := by
  have hi0 := ValueIdx.idx2_lt0 i
  have hi1 := ValueIdx.idx2_lt1 i
  have hj := j.isLt
  have s0 := poolDims_start0 idx n j
  have s1 := poolDims_start1 idx n j
  have w0 := poolDims_window0 n j
  have w1 := poolDims_window1 n j
  unfold ScatterDims.resultIdx?
  split
  · rename_i hin
    have h0 := hin 0
    have h1 := hin 1
    rw [Option.some.injEq, funext_iff, Fin.forall_fin_two, Fin.ext_iff, Fin.ext_iff]
    show (poolDims.start (ValueIdx.ix2 n j) idx 0 + (poolDims.window (ValueIdx.ix2 n j) 0 : Int)).toNat = (i 0).val
      ∧ (poolDims.start (ValueIdx.ix2 n j) idx 1 + (poolDims.window (ValueIdx.ix2 n j) 1 : Int)).toNat = (i 1).val ↔ _
    simp only [s0, s1, w0, w1] at h0 h1 ⊢
    omega
  · rename_i hout
    refine ⟨fun e => absurd e (by simp), fun ⟨e0, e1⟩ => (hout fun a => ?_).elim⟩
    match a with
    | ⟨0, _⟩ =>
      show 0 ≤ poolDims.start (ValueIdx.ix2 n j) idx 0 + (poolDims.window (ValueIdx.ix2 n j) 0 : Int) ∧
        poolDims.start (ValueIdx.ix2 n j) idx 0 + (poolDims.window (ValueIdx.ix2 n j) 0 : Int) < ((64 : Nat) : Int)
      rw [s0, w0]; omega
    | ⟨1, _⟩ =>
      show 0 ≤ poolDims.start (ValueIdx.ix2 n j) idx 1 + (poolDims.window (ValueIdx.ix2 n j) 1 : Int) ∧
        poolDims.start (ValueIdx.ix2 n j) idx 1 + (poolDims.window (ValueIdx.ix2 n j) 1 : Int) < ((128 : Nat) : Int)
      rw [s1, w1]; omega

private theorem idxcol_apply (batch : IVec S50000 32) (n : Fin 50000) :
    broadcastInDim S50000x1 ![0] bcast_S50000_S50000x1_0 batch (ValueIdx.ix2 n (0 : Fin 1)) = batch (ValueIdx.ix1 n) := by
  have e : (ValueIdx.ix2 n (0 : Fin 1)) = StableHlo.Predicate.ixP n := by
    funext a; match a with | ⟨0, _⟩ => rfl | ⟨1, _⟩ => rfl
  rw [e, StableHlo.Predicate.bcast_col1, ofFin_eq_ix1]

/-- An entry of the scatter-add is the sum, over the nodes whose graph number is the entry's row, of their value in its column. -/
theorem pool_apply (batch : IVec S50000 32) (h : FVec Ideal S50000x128 .f32) (i : (⟨2, ![64, 128]⟩ : Shape).Idx) :
    pool batch h i = ∑ n : Fin 50000,
      if (batch (ValueIdx.ix1 n)).toInt = ((i 0).val : Int) then h (ValueIdx.ix2 n (⟨(i 1).val, (i 1).isLt⟩ : Fin 128)) else 0 := by
  unfold pool
  simp only [Host.scatterAdd, Ideal.hostScatterAdd_def]
  unfold Ideal.hostScatterAdd
  show Ideal.ofBits .f32 0x00000000#32 + _ = _
  rw [Ideal.ofBits_zero_f32, zero_add, Finset.sum_filter, ValueIdx.sum_idx2]
  refine Finset.sum_congr rfl fun n _ => ?_
  have hc : ∀ j : Fin 128,
      (poolDims.resultIdx? (ValueIdx.ix2 n j) (broadcastInDim S50000x1 ![0] bcast_S50000_S50000x1_0 batch) = some i) ↔
      ((batch (ValueIdx.ix1 n)).toInt = ((i 0).val : Int) ∧ j = (⟨(i 1).val, (i 1).isLt⟩ : Fin 128)) := by
    intro j
    rw [poolDims_resultIdx_iff, idxcol_apply, Fin.ext_iff]
  rw [Finset.sum_congr rfl fun j _ => if_congr (hc j) rfl rfl]
  by_cases hb : (batch (ValueIdx.ix1 n)).toInt = ((i 0).val : Int)
  · rw [if_pos hb]
    simp only [hb, true_and]
    rw [Finset.sum_ite_eq' Finset.univ, if_pos (Finset.mem_univ _)]
  · rw [if_neg hb]
    exact Finset.sum_eq_zero fun j _ => if_neg fun hx => hb hx.1

/-- The product with the membership matrix adds each node's row to its own graph's row and to no other. -/
theorem pool_eq (batch : IVec S50000 32) (h : FVec Ideal S50000x128 .f32) : poolMM (onehot batch) h = pool batch h := by
  funext i
  rw [pool_apply]
  unfold poolMM
  refine Finset.sum_congr rfl fun n _ => ?_
  rw [onehot_apply]
  by_cases hb : (batch (ValueIdx.ix1 n)).toInt = ((i 0).val : Int)
  · rw [if_pos hb, if_pos hb, one_mul]
  · rw [if_neg hb, if_neg hb, zero_mul]

end Cert.Spec

end
-- ==== Proof.KHostRest.lean ====
import proofs.«431361_j18107582120395_1_alg».proof.Proof.Gen.KernelIdeal.Launch
import proofs.«431361_j18107582120395_1_alg».proof.Proof.Gen.ReferenceIdeal
import proofs.«431361_j18107582120395_1_alg».proof.Proof.Spec
import Idealize.ShloMosaic.Lib.StableHlo.Run
import Idealize.ShloMosaic.Lib.Pipeline.Value
import Idealize.ShloMosaic.Lib.ValueLayout
import proofs.«431361_j18107582120395_1_alg».proof.Proof.PoolAlgebra

noncomputable section

namespace Cert.KernelIdeal.KHost

open Idealize.ShloMosaic Idealize.ShloMosaic.StableHlo Cert.KernelIdeal Cert.KernelIdeal.Gen
open Idealize.ShloMosaic.ValueIdx

variable (W : Valuation τ sig (Elt Ideal))

theorem shapeCast_row_eq_bcast {α : Type} {n : ℕ} (v : (⟨1, ![n]⟩ : Shape).Idx → α)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ v h = broadcastInDim ⟨2, ![1, n]⟩ ![1] h' v := by
  funext j
  obtain ⟨u, i, rfl⟩ : ∃ (u : Fin 1) (i : Fin n), j = ix2 u i := ⟨j 0, j 1, eq_ix2 j⟩
  rw [shapeCast_a_1a_apply]
  refine (broadcastInDim_apply _ h' v _ (ix1 i) fun a => ?_).symm
  match a with
  | ⟨0, _⟩ =>
    show i.val = if n = 1 then 0 else i.val
    split
    · have := i.isLt; omega
    · rfl

local notation "cNrow" => (broadcastInDim Cert.ReferenceIdeal.S1x128 ![] Cert.ReferenceIdeal.Facts₀.bcast_S_S1x128 Cert.Spec.cN : FVec Ideal Cert.ReferenceIdeal.S1x128 FTy.f32)
local notation "epsRow" => (broadcastInDim Cert.ReferenceIdeal.S1x128 ![] Cert.ReferenceIdeal.Facts₀.bcast_S_S1x128 Cert.Spec.cEps : FVec Ideal Cert.ReferenceIdeal.S1x128 FTy.f32)

attribute [local irreducible] Host.scatterAdd Host.gather in
theorem h1_agg : after hostOps1 W (Proc.devRef .tc main_v41)
    = Cert.Spec.aggOf (W (Proc.devRef .tc main_v1)) (W (Proc.devRef .tc main_v3)) (W (Proc.devRef .tc main_v25))
        (W (Proc.devRef .tc main_v28)) := by
  simp only [hostOps1]
  after_results_simp
  rfl

theorem h1_brow : after hostOps1 W (Proc.devRef .tc main_v42) = Cert.Spec.row128 (W (Proc.devRef .tc main_arg4)) := by
  simp only [hostOps1]
  after_results_simp
  exact shapeCast_row_eq_bcast _ _ _

theorem h2_mat : after hostOps2 W (Proc.devRef .tc main_v45) = Cert.Spec.mat 0 (W (Proc.devRef .tc main_arg5)) := by
  simp only [hostOps2]
  after_results_simp
  rfl

theorem h2_vec : after hostOps2 W (Proc.devRef .tc main_v47) = Cert.Spec.vec 0 (W (Proc.devRef .tc main_arg6)) := by
  simp only [hostOps2]
  after_results_simp
  rfl

attribute [local irreducible] Host.scatterAdd Host.gather in
theorem h3_agg : after hostOps3 W (Proc.devRef .tc main_v61)
    = Cert.Spec.aggOf (W (Proc.devRef .tc main_v1)) (W (Proc.devRef .tc main_v3)) (W (Proc.devRef .tc main_v25))
        (W (Proc.devRef .tc main_v48)) := by
  simp only [hostOps3]
  after_results_simp
  rfl

theorem h3_brow : after hostOps3 W (Proc.devRef .tc main_v62) = Cert.Spec.row128 (W (Proc.devRef .tc main_v47)) := by
  simp only [hostOps3]
  after_results_simp
  exact shapeCast_row_eq_bcast _ _ _

theorem h5_mu : after hostOps5 W (Proc.devRef .tc main_v66)
    = Host.divf (F := Ideal) (W (Proc.devRef .tc main_v64_0)) cNrow := by
  simp only [hostOps5]
  after_results_simp
  rfl

theorem h5_inv : after hostOps5 W (Proc.devRef .tc main_v73)
    = Host.rsqrt (F := Ideal) (addf (subf (Host.divf (F := Ideal) (W (Proc.devRef .tc main_v64_1)) cNrow)
        (mulf (Host.divf (F := Ideal) (W (Proc.devRef .tc main_v64_0)) cNrow)
          (Host.divf (F := Ideal) (W (Proc.devRef .tc main_v64_0)) cNrow))) epsRow) := by
  simp only [hostOps5]
  after_results_simp
  rfl

theorem h5_g : after hostOps5 W (Proc.devRef .tc main_v76)
    = Cert.Spec.row128 (Cert.Spec.vec 0 (W (Proc.devRef .tc main_arg7))) := by
  simp only [hostOps5]
  after_results_simp
  exact shapeCast_row_eq_bcast _ _ _

theorem h5_be : after hostOps5 W (Proc.devRef .tc main_v79)
    = Cert.Spec.row128 (Cert.Spec.vec 0 (W (Proc.devRef .tc main_arg8))) := by
  simp only [hostOps5]
  after_results_simp
  exact shapeCast_row_eq_bcast _ _ _

theorem h6_mat : after hostOps6 W (Proc.devRef .tc main_v82) = Cert.Spec.mat 1 (W (Proc.devRef .tc main_arg5)) := by
  simp only [hostOps6]
  after_results_simp
  rfl

theorem h6_vec : after hostOps6 W (Proc.devRef .tc main_v84) = Cert.Spec.vec 1 (W (Proc.devRef .tc main_arg6)) := by
  simp only [hostOps6]
  after_results_simp
  rfl

attribute [local irreducible] Host.scatterAdd Host.gather in
theorem h7_agg : after hostOps7 W (Proc.devRef .tc main_v98)
    = Cert.Spec.aggOf (W (Proc.devRef .tc main_v1)) (W (Proc.devRef .tc main_v3)) (W (Proc.devRef .tc main_v25))
        (W (Proc.devRef .tc main_v85)) := by
  simp only [hostOps7]
  after_results_simp
  rfl

theorem h7_brow : after hostOps7 W (Proc.devRef .tc main_v99) = Cert.Spec.row128 (W (Proc.devRef .tc main_v84)) := by
  simp only [hostOps7]
  after_results_simp
  exact shapeCast_row_eq_bcast _ _ _

theorem h9_mu : after hostOps9 W (Proc.devRef .tc main_v103)
    = Host.divf (F := Ideal) (W (Proc.devRef .tc main_v101_0)) cNrow := by
  simp only [hostOps9]
  after_results_simp
  rfl

theorem h9_inv : after hostOps9 W (Proc.devRef .tc main_v110)
    = Host.rsqrt (F := Ideal) (addf (subf (Host.divf (F := Ideal) (W (Proc.devRef .tc main_v101_1)) cNrow)
        (mulf (Host.divf (F := Ideal) (W (Proc.devRef .tc main_v101_0)) cNrow)
          (Host.divf (F := Ideal) (W (Proc.devRef .tc main_v101_0)) cNrow))) epsRow) := by
  simp only [hostOps9]
  after_results_simp
  rfl

theorem h9_g : after hostOps9 W (Proc.devRef .tc main_v113)
    = Cert.Spec.row128 (Cert.Spec.vec 1 (W (Proc.devRef .tc main_arg7))) := by
  simp only [hostOps9]
  after_results_simp
  exact shapeCast_row_eq_bcast _ _ _

theorem h9_be : after hostOps9 W (Proc.devRef .tc main_v116)
    = Cert.Spec.row128 (Cert.Spec.vec 1 (W (Proc.devRef .tc main_arg8))) := by
  simp only [hostOps9]
  after_results_simp
  exact shapeCast_row_eq_bcast _ _ _

theorem h10_onehot : after hostOps10 W (Proc.devRef .tc main_v124) = Cert.Spec.onehot (W (Proc.devRef .tc main_arg2)) := by
  simp only [hostOps10]
  after_results_simp
  rfl

theorem h11_b1 : after hostOps11 W (Proc.devRef .tc main_v126) = Cert.Spec.row256 (W (Proc.devRef .tc main_arg10)) := by
  simp only [hostOps11]
  after_results_simp
  exact shapeCast_row_eq_bcast _ _ _

theorem h11_g1 : after hostOps11 W (Proc.devRef .tc main_v127) = Cert.Spec.row256 (W (Proc.devRef .tc main_arg11)) := by
  simp only [hostOps11]
  after_results_simp
  exact shapeCast_row_eq_bcast _ _ _

theorem h11_be1 : after hostOps11 W (Proc.devRef .tc main_v128) = Cert.Spec.row256 (W (Proc.devRef .tc main_arg12)) := by
  simp only [hostOps11]
  after_results_simp
  exact shapeCast_row_eq_bcast _ _ _

theorem h11_b2 : after hostOps11 W (Proc.devRef .tc main_v129) = Cert.Spec.row256 (W (Proc.devRef .tc main_arg14)) := by
  simp only [hostOps11]
  after_results_simp
  exact shapeCast_row_eq_bcast _ _ _

theorem h11_g2 : after hostOps11 W (Proc.devRef .tc main_v130) = Cert.Spec.row256 (W (Proc.devRef .tc main_arg15)) := by
  simp only [hostOps11]
  after_results_simp
  exact shapeCast_row_eq_bcast _ _ _

theorem h11_be2 : after hostOps11 W (Proc.devRef .tc main_v131) = Cert.Spec.row256 (W (Proc.devRef .tc main_arg16)) := by
  simp only [hostOps11]
  after_results_simp
  exact shapeCast_row_eq_bcast _ _ _

theorem h11_bo : after hostOps11 W (Proc.devRef .tc main_v132)
    = broadcastInDim Cert.ReferenceIdeal.S1x1 ![1] Cert.ReferenceIdeal.Facts₀.bcast_S1_S1x1_1
        (W (Proc.devRef .tc main_arg18)) := by
  simp only [hostOps11]
  after_results_simp
  exact shapeCast_row_eq_bcast _ _ _

end Cert.KernelIdeal.KHost

end
-- ==== Proof.RowTiles.lean ====
import proofs.«431361_j18107582120395_1_alg».proof.Proof.Gen.KernelIdeal.Points
import proofs.«431361_j18107582120395_1_alg».proof.Proof.Gen.KernelIdeal.Launch
import Idealize.ShloMosaic.Lib.ValueIdx

namespace Cert.KernelIdeal.RegValue.RowTiles

open Idealize.ShloMosaic Idealize.ShloMosaic.ValueIdx Cert.KernelIdeal Cert.KernelIdeal.Gen

theorem origin : (![0, 0] : Fin 2 → ℕ) = fun _ => 0 := funext fun a => by fin_cases a <;> rfl

theorem row_index : ∀ t : Fin grid0.N, win0_2.index t (0 : Fin 2) = t.val := by decide +kernel

/-- Row `r` lies in the tile of point `r / 5000`; the result windows of all six row-tiled regions cut these same ten tiles. -/
theorem cover (i : S50000x128.Idx) : ∃ t : Fin cfg0.N, (cfg0.win 2).flush t = true ∧ i ∈ ((cfg0.win 2).blk t).view.set := by
  have h0 := idx2_lt0 i
  have h1 := idx2_lt1 i
  obtain ⟨t, ht⟩ : ∃ t : Fin cfg0.N, t.val = (i 0).val / 5000 :=
    ⟨⟨_, Nat.lt_of_lt_of_eq (show (i 0).val / 5000 < 10 by omega) N_0.symm⟩, rfl⟩
  refine ⟨t, flush0_2 t, ?_⟩
  show i ∈ ((View.whole main_v28).slice (win0_2.rect t)).set
  rw [View.set_slice_whole, Rect.mem_set_unit]
  intro a
  match a with
  | ⟨0, _⟩ =>
    show win0_2.index t (0 : Fin 2) * 5000 ≤ (i 0).val ∧ (i 0).val < win0_2.index t (0 : Fin 2) * 5000 + 5000
    rw [row_index]; omega
  | ⟨1, _⟩ => show 0 * 128 ≤ (i 1).val ∧ (i 1).val < 0 * 128 + 128; omega

end Cert.KernelIdeal.RegValue.RowTiles
-- ==== Proof.RegLinear.lean ====
import proofs.«431361_j18107582120395_1_alg».proof.Proof.Gen.KernelIdeal.Frame
import proofs.«431361_j18107582120395_1_alg».proof.Proof.Gen.ReferenceIdeal
import proofs.«431361_j18107582120395_1_alg».proof.Proof.Spec
import proofs.«431361_j18107582120395_1_alg».proof.Proof.RowTiles
import Idealize.ShloMosaic.Lib.StackMember

namespace Cert.KernelIdeal.RegValue

open Idealize.ShloMosaic Idealize.ShloMosaic.TcCoe Idealize.ShloMosaic.ValueIdx Cert.KernelIdeal Cert.KernelIdeal.Gen

namespace Linear

/-- Entry `j` of a product with a 128 × 128 matrix is `∑ k, x (row, k) * w (k, column)`. -/
theorem dot_apply {m : ℕ} (x : FVec Ideal ⟨2, ![m, 128]⟩ .f32) (w : FVec Ideal S128x128 .f32) (j : (⟨2, ![m, 128]⟩ : Shape).Idx) :
    Host.dotGeneral (DotDims.plain m 128 128) none x w j = ∑ k : Fin 128, x (ix2 (j 0) k) * w (ix2 k (j 1)) :=
  (congrArg _ (eq_ix2 j)).trans (StackMember.dotGeneral_plain_apply none x w (j 0) (j 1))

/-- The rows the node window cuts at point `t`, times the whole matrix, are the rows of the whole product the result window cuts. -/
theorem tile (A : FVec Ideal S50000x128 .f32) (B : FVec Ideal S128x128 .f32) (t : Fin grid0.N) (j : S5000x128.Idx) :
    Host.dotGeneral (DotDims.plain 5000 128 128) none (fun y => A ((win0_0.rect t).emb y)) (fun y => B ((win0_1.rect t).emb y)) j
      = Cert.Spec.lin A B ((win0_2.rect t).emb j) := by
  refine (dot_apply _ _ j).trans (Eq.trans (Finset.sum_congr rfl fun k _ => ?_) (dot_apply A B ((win0_2.rect t).emb j)).symm)
  exact congrArg₂ (· * ·) (congrArg A (Shape.idx_ext₂ rfl (win0_0.rect_emb_val_of_index_zero t 1 rfl _)))
    (congrArg B (Shape.idx_ext₂ (win0_1.rect_emb_val_of_index_zero t 0 rfl _) rfl))

/-- On the extended reals a change of float format is the identity and a product accumulated into zero is the plain product. -/
theorem out0 (x : FVec Ideal S5000x128 .f32) (w : FVec Ideal S128x128 .f32) :
    out0_2 (F := Ideal) x w = Host.dotGeneral (DotDims.plain 5000 128 128) none x w := by
  unfold out0_2 k0_pay1
  rw [View.canon_unit_zero RowTiles.origin, View.ld_unit_zero RowTiles.origin, View.ld_unit_zero RowTiles.origin]
  exact matmul_zero_eq_dotGeneral _ none _ _

/-- The later layers first reshape each operand to its own shape, which moves nothing. -/
theorem out2 (x : FVec Ideal S5000x128 .f32) (w : FVec Ideal S128x128 .f32) :
    out2_2 (F := Ideal) x w = Host.dotGeneral (DotDims.plain 5000 128 128) none x w := by
  unfold out2_2 k2_pay1
  rw [View.canon_unit_zero RowTiles.origin, View.ld_unit_zero RowTiles.origin, View.ld_unit_zero RowTiles.origin,
    shapeCast_self, shapeCast_self]
  exact matmul_zero_eq_dotGeneral _ none _ _

end Linear

variable (V : (c : Dev nD) → (b : Ref sig .tc) → Buf (Elt Ideal) ((c : Thread nD τ).loc b))

theorem linear0 (c : Dev nD) : (dat0 (F := Ideal) V c).arrAt 2 cfg0.N = Cert.Spec.lin (V c main_arg0) (V c main_arg3) :=
  (dat0 V c).arrAt_eq_of_cover 2 _ (fun t _ => funext fun j =>
    (congrFun ((after0_2 V c t).trans (Linear.out0 _ _)) _).trans (Linear.tile (V c main_arg0) (V c main_arg3) t j)) RowTiles.cover

theorem linear2 (c : Dev nD) : (dat2 (F := Ideal) V c).arrAt 2 cfg2.N = Cert.Spec.lin (V c main_v43) (V c main_v45) :=
  (dat2 V c).arrAt_eq_of_cover 2 _ (fun t _ => funext fun j =>
    (congrFun ((after2_2 V c t).trans (Linear.out2 _ _)) _).trans (Linear.tile (V c main_v43) (V c main_v45) t j)) RowTiles.cover

theorem linear6 (c : Dev nD) : (dat6 (F := Ideal) V c).arrAt 2 cfg6.N = Cert.Spec.lin (V c main_v80) (V c main_v82) :=
  (dat6 V c).arrAt_eq_of_cover 2 _ (fun t _ => funext fun j =>
    (congrFun ((after6_2 V c t).trans (Linear.out2 _ _)) _).trans (Linear.tile (V c main_v80) (V c main_v82) t j)) RowTiles.cover

end Cert.KernelIdeal.RegValue
-- ==== Proof.RegCombine.lean ====
import proofs.«431361_j18107582120395_1_alg».proof.Proof.Gen.KernelIdeal.Frame
import proofs.«431361_j18107582120395_1_alg».proof.Proof.Gen.ReferenceIdeal
import proofs.«431361_j18107582120395_1_alg».proof.Proof.Spec
import proofs.«431361_j18107582120395_1_alg».proof.Proof.RowTiles
import Idealize.ShloMosaic.Lib.IdealHost
import Idealize.ShloMosaic.Lib.Pipeline.Value

namespace Cert.KernelIdeal.RegValue

open Idealize.ShloMosaic Idealize.ShloMosaic.TcCoe Idealize.ShloMosaic.ValueIdx Cert.KernelIdeal Cert.KernelIdeal.Gen

namespace Combine

/-- The repeated weight column is read at the entry's row, the repeated bias row at its column, the repeated zero everywhere. -/
theorem stage_apply (a l : FVec Ideal S50000x128 .f32) (sn : FVec Ideal S50000x1 .f32) (b : FVec Ideal S1x128 .f32) (i : S50000x128.Idx) :
    Cert.Spec.combine a l sn b i
      = max (a i + l i * sn (ix2 (i 0) (0 : Fin 1)) + b (ix2 (0 : Fin 1) (i 1))) (Ideal.ofBits .f32 0x00000000#32) := by
  unfold Cert.Spec.combine Cert.Spec.cols50000 Cert.Spec.rows128 Cert.Spec.c0
  rw [maximumf_apply, addf_apply, addf_apply, mulf_apply,
    broadcastInDim_apply _ _ sn i (ix2 (i 0) (0 : Fin 1)) fun a => by fin_cases a <;> rfl,
    broadcastInDim_apply _ _ b i (ix2 (0 : Fin 1) (i 1)) fun a => by fin_cases a <;> rfl, broadcastInDim_scalar_apply]
  rfl

/-- What the body stores for a tile is, entry by entry, the same expression of the four input tiles. -/
theorem out_apply (x0 x1 : FVec Ideal S5000x128 .f32) (x2 : FVec Ideal S5000x1 .f32) (x3 : FVec Ideal S1x128 .f32) (j : S5000x128.Idx) :
    out1_4 (F := Ideal) x0 x1 x2 x3 j
      = max (x0 j + x1 j * x2 (ix2 (j 0) (0 : Fin 1)) + x3 (ix2 (0 : Fin 1) (j 1))) (Ideal.ofBits .f32 0x00000000#32) := by
  unfold out1_4 k1_pay1
  rw [View.canon_unit_zero RowTiles.origin, View.ld_unit_zero RowTiles.origin, View.ld_unit_zero RowTiles.origin,
    View.ld_unit_zero RowTiles.origin, View.ld_unit_zero RowTiles.origin]
  simp only [shapeCast_self]
  rw [maximumf_apply, addf_apply, addf_apply, mulf_apply, broadcast_apply,
    broadcastTo_apply x2 _ j (ix2 (j 0) (0 : Fin 1)) fun a => by fin_cases a <;> rfl,
    broadcastTo_apply x3 _ j (ix2 (0 : Fin 1) (j 1)) fun a => by fin_cases a <;> rfl]
  rfl

/-- On the tiles the windows cut at point `t` the body computes the tile of the stage: the row-tiled windows cut the same rows, the bias window the whole row. -/
theorem tile (a l : FVec Ideal S50000x128 .f32) (sn : FVec Ideal S50000x1 .f32) (b : FVec Ideal S1x128 .f32) (t : Fin grid1.N)
    (j : S5000x128.Idx) :
    out1_4 (F := Ideal) (fun y => a ((win1_0.rect t).emb y)) (fun y => l ((win1_1.rect t).emb y)) (fun y => sn ((win1_2.rect t).emb y))
        (fun y => b ((win1_3.rect t).emb y)) j
      = Cert.Spec.combine a l sn b ((win1_4.rect t).emb j) := by
  rw [out_apply, stage_apply,
    show (win1_2.rect t).emb (ix2 (j 0) (0 : Fin 1)) = ix2 ((win1_4.rect t).emb j 0) (0 : Fin 1) from Shape.idx_ext₂ rfl rfl,
    show (win1_3.rect t).emb (ix2 (0 : Fin 1) (j 1)) = ix2 (0 : Fin 1) ((win1_4.rect t).emb j 1) from Shape.idx_ext₂ rfl rfl]
  rfl

end Combine

variable (V : (c : Dev nD) → (b : Ref sig .tc) → Buf (Elt Ideal) ((c : Thread nD τ).loc b))

theorem combine1 (c : Dev nD) :
    (dat1 (F := Ideal) V c).arrAt 4 cfg1.N = Cert.Spec.combine (V c main_v41) (V c main_v28) (V c main_v27) (V c main_v42) :=
  (dat1 (F := Ideal) V c).arrAt_eq_of_cover 4 _ (fun t _ => funext fun j =>
    (congrFun (after1_4 V c t) _).trans (Combine.tile (V c main_v41) (V c main_v28) (V c main_v27) (V c main_v42) t j)) RowTiles.cover

theorem combine3 (c : Dev nD) :
    (dat3 (F := Ideal) V c).arrAt 4 cfg3.N = Cert.Spec.combine (V c main_v61) (V c main_v48) (V c main_v27) (V c main_v62) :=
  (dat3 (F := Ideal) V c).arrAt_eq_of_cover 4 _ (fun t _ => funext fun j =>
    (congrFun (after3_4 V c t) _).trans (Combine.tile (V c main_v61) (V c main_v48) (V c main_v27) (V c main_v62) t j)) RowTiles.cover

theorem combine7 (c : Dev nD) :
    (dat7 (F := Ideal) V c).arrAt 4 cfg7.N = Cert.Spec.combine (V c main_v98) (V c main_v85) (V c main_v27) (V c main_v99) :=
  (dat7 (F := Ideal) V c).arrAt_eq_of_cover 4 _ (fun t _ => funext fun j =>
    (congrFun (after7_4 V c t) _).trans (Combine.tile (V c main_v98) (V c main_v85) (V c main_v27) (V c main_v99) t j)) RowTiles.cover

end Cert.KernelIdeal.RegValue
-- ==== Proof.ColumnSums.lean ====
import proofs.«431361_j18107582120395_1_alg».proof.Proof.Gen.KernelIdeal.Skeleton
import proofs.«431361_j18107582120395_1_alg».proof.Proof.Gen.ReferenceIdeal
import proofs.«431361_j18107582120395_1_alg».proof.Proof.Spec
import Idealize.ShloMosaic.PureOps.Ideal.Laws
import Idealize.ShloMosaic.Lib.ValueIdx
import Idealize.ShloMosaic.Lib.IdealHost
import Idealize.ShloMosaic.Lib.Pipeline.Value

noncomputable section

namespace Cert.KernelIdeal.RegValue

open Idealize.ShloMosaic Idealize.ShloMosaic.ValueIdx Cert.KernelIdeal Cert.KernelIdeal.Gen Cert.Spec
open scoped BigOperators

abbrev T5000x128 : Shape := ⟨2, ![5000, 128]⟩
abbrev T50000x128 : Shape := ⟨2, ![50000, 128]⟩
abbrev T1x128 : Shape := ⟨2, ![1, 128]⟩
abbrev T128 : Shape := ⟨1, ![128]⟩

/-- Column `j` continued by zeros past the last row, so that sums over the first rows are sums over ranges. -/
def colSeq (a : FVec Ideal S50000x128 .f32) (j : Fin 128) (k : ℕ) : EReal :=
  if h : k < 50000 then a (ix2 ⟨k, h⟩ j) else 0

theorem colSeq_of_lt (a : FVec Ideal S50000x128 .f32) (j : Fin 128) {k : ℕ} (h : k < 50000) :
    colSeq a j k = a (ix2 ⟨k, h⟩ j) := dif_pos h

theorem colSeq_mulf (a : FVec Ideal S50000x128 .f32) (j : Fin 128) (k : ℕ) :
    colSeq (mulf a a) j k = colSeq a j k * colSeq a j k := by
  by_cases h : k < 50000
  · rw [colSeq_of_lt _ j h, colSeq_of_lt _ j h]; rfl
  · unfold colSeq; rw [dif_neg h, dif_neg h, mul_zero]

theorem lift_rows {R : ℕ} (h : (⟨2, ![R, 128]⟩ : Shape).Reduces [0] T128) (j : Fin 128) (k : Fin R) :
    h.lift (ix1 j) k = ix2 k j :=
  funext fun a => Fin.ext (match a with | ⟨0, _⟩ => rfl | ⟨1, _⟩ => rfl)

/-- The array's column sums, laid out as a row, are the sums of the columns' sequences. -/
theorem row_colSum_apply (a : FVec Ideal S50000x128 .f32) (j : Fin 128) :
    row128 (colSum a) (ix2 0 j) = ∑ k ∈ Finset.range 50000, colSeq a j k := by
  have hred : T50000x128.Reduces [0] T128 := by decide
  unfold row128 colSum
  rw [broadcastInDim_apply ![1] _ _ (ix2 0 j) (ix1 j) (fun b => match b with | ⟨0, _⟩ => rfl),
    hostReduceAdd_apply, Ideal.hostReduceAdd_single _ hred, Finset.sum_range,
    show ∀ i, c0 i = 0 from fun _ => Ideal.ofBits_zero_f32, zero_add]
  exact Finset.sum_congr rfl fun r _ => (congrArg a (lift_rows hred j r)).trans (colSeq_of_lt a j r.isLt).symm

theorem stats_pay1_apply (i : S1x128.Idx) : k4_pay1 (F := Ideal) i = 0 := by
  show (broadcast S1x128 (Scalar.ofBits .f32 0x00000000#32) : FVec Ideal S1x128 .f32) i = 0
  show Ideal.ofBits .f32 0x00000000#32 = 0
  exact Ideal.ofBits_zero_f32

theorem row_of_vec_apply {α : Type} (v : T128.Idx → α) (h : T128.ShapeCasts T1x128) (j : Fin 128) :
    shapeCast T1x128 v h (ix2 (0 : Fin 1) j) = v (ix1 j) :=
  (shapeCast_addUnit_apply ![128] v h (ix2 (0 : Fin 1) j)).trans
    (congrArg v (funext fun a => match a with | ⟨0, _⟩ => rfl))

/-- One tile's step: the running row plus the tile's column sums. -/
theorem tile_step (x : FVec Ideal T5000x128 .f32) (acc : FVec Ideal T1x128 .f32)
    (hxx : T5000x128.ShapeCasts T5000x128) (haa : T1x128.ShapeCasts T1x128) (hva : T128.ShapeCasts T1x128)
    (hred : T5000x128.Reduces [0] T128) (hφ : FKind.Formats .f32) (hacc : (0x00000000#32 : BitVec 32) = 0x00000000#32)
    (j : Fin 128) :
    addf (shapeCast T1x128 acc haa)
        (shapeCast T1x128 (multiReduction .add [0] T128 (shapeCast T5000x128 x hxx) 0x00000000#32 hred hφ hacc) hva) (ix2 (0 : Fin 1) j)
      = acc (ix2 (0 : Fin 1) j) + ∑ r : Fin 5000, x (ix2 r j) := by
  rw [addf_apply, shapeCast_self, shapeCast_self, row_of_vec_apply]
  refine congrArg (acc (ix2 (0 : Fin 1) j) + ·) ((Ideal.multiReduction_add_single x 0x00000000#32 hred hφ hacc (ix1 j)).trans ?_)
  exact Finset.sum_congr rfl fun r _ => congrArg x (lift_rows hred j r)

theorem stats_pay4_apply (x : FVec Ideal S5000x128 .f32) (acc : FVec Ideal S1x128 .f32) (j : Fin 128) :
    k4_pay4 (F := Ideal) x acc (ix2 0 j) = acc (ix2 0 j) + ∑ r : Fin 5000, x (ix2 r j) := by
  unfold k4_pay4 k4_pay3
  exact tile_step x acc _ _ _ _ _ _ j

/-- The step on the sums of squares is the step on the tile's entrywise square. -/
theorem stats_pay5_eq (x : FVec Ideal S5000x128 .f32) (acc : FVec Ideal S1x128 .f32) :
    k4_pay5 (F := Ideal) x acc = k4_pay4 (mulf x x) acc := by
  unfold k4_pay5 k4_pay4 k4_pay3
  simp only [shapeCast_self]

section Fold

variable {N : ℕ} (a : FVec Ideal S50000x128 .f32) (x : (n : ℕ) → n < N → FVec Ideal S5000x128 .f32)
  (hx : ∀ n h r j, x n h (ix2 r j) = colSeq a j (5000 * n + r))
  (f : (n : ℕ) → n < N → FVec Ideal S1x128 .f32)
  (h0 : ∀ h, f 0 h = k4_pay4 (x 0 h) k4_pay1)
  (hs : ∀ n h, f (n + 1) h = k4_pay4 (x (n + 1) h) (f n (Nat.lt_of_succ_lt h)))

include hx in
theorem coltile_sum (acc : FVec Ideal S1x128 .f32) (n : ℕ) (h : n < N) (j : Fin 128) :
    k4_pay4 (x n h) acc (ix2 0 j) = acc (ix2 0 j) + ∑ r ∈ Finset.range 5000, colSeq a j (5000 * n + r) := by
  rw [stats_pay4_apply, Finset.sum_range]
  exact congrArg _ (Finset.sum_congr rfl fun r _ => hx n h r j)

include hx h0 hs

/-- Started from zero and stepped tile by tile, the row holds after tile `n` the column sums over the rows below `5000 (n + 1)`. -/
theorem colfold_apply (j : Fin 128) : ∀ n h, f n h (ix2 0 j) = ∑ k ∈ Finset.range (5000 * (n + 1)), colSeq a j k
  | 0, h => by
    rw [Nat.mul_succ, Finset.sum_range_add, h0, coltile_sum a x hx, stats_pay1_apply, Nat.mul_zero, Finset.range_zero,
      Finset.sum_empty]
  | n + 1, h => by
    rw [Nat.mul_succ, Finset.sum_range_add, hs, coltile_sum a x hx, colfold_apply j n]

theorem colfold_last (h9 : 9 < N) : f 9 h9 = row128 (colSum a) := by
  funext i
  obtain ⟨p, q, rfl⟩ : ∃ (p : Fin 1) (q : Fin 128), i = ix2 p q := ⟨i 0, i 1, eq_ix2 i⟩
  obtain rfl : p = 0 := Subsingleton.elim _ _
  rw [colfold_apply a x hx f h0 hs q 9 h9, row_colSum_apply]

end Fold

/-- After the last of the ten tiles the two rows are the array's column sums and those of its entrywise square. -/
theorem stats_last {N : ℕ} (a : FVec Ideal S50000x128 .f32) (x : (n : ℕ) → n < N → FVec Ideal S5000x128 .f32)
    (hx : ∀ n h r j, x n h (ix2 r j) = colSeq a j (5000 * n + r))
    (f : (n : ℕ) → n < N → FVec Ideal S1x128 .f32 × FVec Ideal S1x128 .f32)
    (h0 : ∀ h, f 0 h = (k4_pay4 (x 0 h) k4_pay1, k4_pay5 (x 0 h) k4_pay2))
    (hs : ∀ n h, f (n + 1) h = (k4_pay4 (x (n + 1) h) (f n (Nat.lt_of_succ_lt h)).1,
      k4_pay5 (x (n + 1) h) (f n (Nat.lt_of_succ_lt h)).2)) (h9 : 9 < N) :
    (f 9 h9).1 = row128 (colSum a) ∧ (f 9 h9).2 = row128 (colSum (mulf a a)) :=
  ⟨colfold_last a x hx (fun n h => (f n h).1) (fun h => congrArg Prod.fst (h0 h)) (fun n h => congrArg Prod.fst (hs n h)) h9,
    colfold_last (mulf a a) (fun n h => mulf (x n h) (x n h))
      (fun n h r j => (congrArg₂ (· * ·) (hx n h r j) (hx n h r j)).trans (colSeq_mulf a j _).symm)
      (fun n h => (f n h).2) (fun h => (congrArg Prod.snd (h0 h)).trans (stats_pay5_eq _ _))
      (fun n h => (congrArg Prod.snd (hs n h)).trans (stats_pay5_eq _ _)) h9⟩

end Cert.KernelIdeal.RegValue

end
-- ==== Proof.RegStats4.lean ====
import proofs.«431361_j18107582120395_1_alg».proof.Proof.Gen.KernelIdeal.Frame
import proofs.«431361_j18107582120395_1_alg».proof.Proof.ColumnSums
import Idealize.ShloMosaic.Lib.Tactic

noncomputable section

namespace Cert.KernelIdeal.RegValue

open Idealize.ShloMosaic Idealize.ShloMosaic.TcCoe Idealize.SL.Sem Cert.KernelIdeal Cert.KernelIdeal.Gen Cert.Spec
open Idealize.ShloMosaic.ValueIdx
open Idealize.ShloMosaic.Pipeline (Dat)

section Body4

variable {F : FTy → Type} [FloatOps F] (c : Dev nD) (i : grid4.Coords)
  (a1 : Memref sig .tc .vmem S5000x128 .f32) (h1 : a1.IsWhole) (a2 : Memref sig .tc .vmem S1x128 .f32) (h2 : a2.IsWhole)
  (a3 : Memref sig .tc .vmem S1x128 .f32) (h3 : a3.IsWhole) (x : Vec F S5000x128 .f32)

theorem origin4 : (![0, 0] : Fin 2 → Nat) = fun _ => 0 := funext fun a => by fin_cases a <;> rfl

/-- At a later point each row is the tile's step from the row of the point before. -/
theorem out4_B_eq (hc : ¬cond4_0 i) (xo1 xo2 : Vec F S1x128 .f32) :
    (out4_B_1 c i a1 h1 a2 h2 a3 h3 hc x xo1 xo2, out4_B_2 c i a1 h1 a2 h2 a3 h3 hc x xo1 xo2)
      = (k4_pay4 x xo1, k4_pay5 x xo2) := by
  unfold out4_B_1 out4_B_2
  rw [View.read_writes_eq_canon _ _ _ (cover4_B_1 c i a1 h1 a2 h2 a3 h3 hc x xo1 xo2),
    View.read_writes_eq_canon _ _ _ (cover4_B_2 c i a1 h1 a2 h2 a3 h3 hc x xo1 xo2)]
  unfold kernelRun4_B
  dsimp only
  sl_unfold_words
  rw [View.canon_unit_zero origin4, View.canon_unit_zero origin4]
  simp only [View.readAt_eq_ld, h1.read_unread, h2.read_unread, h3.read_unread,
    View.ld_unit_zero (S := S5000x128) origin4, View.ld_unit_zero (S := S1x128) origin4]

/-- At the first point each row is the tile's step from a zero row. -/
theorem out4_A_eq (hc : cond4_0 i) :
    (out4_A_1 c i a1 h1 a2 h2 a3 h3 hc x, out4_A_2 c i a1 h1 a2 h2 a3 h3 hc x)
      = (k4_pay4 x (k4_pay1 (F := F)), k4_pay5 x (k4_pay2 (F := F))) := by
  unfold out4_A_1 out4_A_2
  rw [View.read_writes_eq_canon _ _ _ (cover4_A_1 c i a1 h1 a2 h2 a3 h3 hc x),
    View.read_writes_eq_canon _ _ _ (cover4_A_2 c i a1 h1 a2 h2 a3 h3 hc x)]
  unfold kernelRun4_A
  dsimp only
  sl_unfold_words
  rw [View.canon_cons_unit_zero (S := S1x128) origin4, View.readCov_unit_zero (S := S1x128) _ origin4,
    View.canon_cons_unit_zero (S := S1x128) origin4, View.readCov_unit_zero (S := S1x128) _ origin4]
  simp only [View.readAt_eq_ld, h1.read_unread, View.ld_unit_zero (S := S5000x128) origin4]

end Body4

section Region4

variable {F : FTy → Type} [FloatOps F]

variable (V : (c : Dev nD) → (b : Ref sig .tc) → Buf (Elt F) ((c : Thread nD τ).loc b))

theorem outsAt4_zero (c : Dev nD) (h : 0 < cfg4.N) : outsAt4 V c 0 h
    = (k4_pay4 (iblk4 V c 0 ⟨0, h⟩) (k4_pay1 (F := F)), k4_pay5 (iblk4 V c 0 ⟨0, h⟩) (k4_pay2 (F := F))) :=
  (outsAt4_A V c ⟨0, h⟩ rfl).trans (out4_A_eq c _ _ _ _ _ _ _ _ _)

theorem outsAt4_succ (c : Dev nD) (n : ℕ) (h : n + 1 < cfg4.N) : outsAt4 V c (n + 1) h
    = (k4_pay4 (iblk4 V c 0 ⟨n + 1, h⟩) (outsAt4 V c n (Nat.lt_of_succ_lt h)).1,
      k4_pay5 (iblk4 V c 0 ⟨n + 1, h⟩) (outsAt4 V c n (Nat.lt_of_succ_lt h)).2) :=
  (outsAt4_B V c ⟨n + 1, h⟩ (by have := h.trans_eq N_4; dsimp only; omega)).trans (out4_B_eq c _ _ _ _ _ _ _ _ _ _ _)

theorem final4_1 (c : Dev nD) : (dat4 V c).arrAt 1 cfg4.N = (outsAt4 V c t4_9.val t4_9.isLt).1 := by
  have hz : (fun a => win4_1.index t4_9 a * main_v64_0.ty.shape.size a) = fun _ => 0 := funext fun a => by fin_cases a <;> decide
  refine (dat4 V c).arrAt_eq_of_cover 1 _ (fun t hf => ?_) fun i => ⟨t4_9, (flush4_1 t4_9).mpr rfl, ?_⟩
  · obtain rfl : t = t4_9 :=
      Fin.ext (show t.val = 9 by have := (flush4_1 t).mp hf; have := t.isLt.trans_eq N_4; omega)
    show (cfg4.win 1).cut (grid4.coords t4_9) ((dat4 V c).after 1 t4_9) = _
    rw [after4_1]
    exact (Memref.read_access_unit_zero (Elt F) main_v64_0 hz (fun a => by rw [congrFun hz a]; simp) _).symm
  · show i ∈ ((View.whole main_v64_0).slice (win4_1.rect t4_9)).set
    rw [View.set_slice_whole]
    exact View.mem_set_unit_zero hz _ i

theorem final4_2 (c : Dev nD) : (dat4 V c).arrAt 2 cfg4.N = (outsAt4 V c t4_9.val t4_9.isLt).2 := by
  have hz : (fun a => win4_2.index t4_9 a * main_v64_1.ty.shape.size a) = fun _ => 0 := funext fun a => by fin_cases a <;> decide
  refine (dat4 V c).arrAt_eq_of_cover 2 _ (fun t hf => ?_) fun i => ⟨t4_9, (flush4_2 t4_9).mpr rfl, ?_⟩
  · obtain rfl : t = t4_9 :=
      Fin.ext (show t.val = 9 by have := (flush4_2 t).mp hf; have := t.isLt.trans_eq N_4; omega)
    show (cfg4.win 2).cut (grid4.coords t4_9) ((dat4 V c).after 2 t4_9) = _
    rw [after4_2]
    exact (Memref.read_access_unit_zero (Elt F) main_v64_1 hz (fun a => by rw [congrFun hz a]; simp) _).symm
  · show i ∈ ((View.whole main_v64_1).slice (win4_2.rect t4_9)).set
    rw [View.set_slice_whole]
    exact View.mem_set_unit_zero hz _ i

end Region4

section Sums4

variable (V : (c : Dev nD) → (b : Ref sig .tc) → Buf (Elt Ideal) ((c : Thread nD τ).loc b))

theorem idx4 : ∀ t : Fin cfg4.N, win4_0.index t 0 * win4_0.size 0 = 5000 * t.val ∧ win4_0.index t 1 * win4_0.size 1 = 0 :=
  (by decide +kernel : ∀ t : Fin grid4.N, _)

/-- Row `r` of tile `t` is row `5000 t + r` of the array. -/
theorem blk4_apply (c : Dev nD) (t : Fin cfg4.N) (r : Fin 5000) (j : Fin 128) :
    iblk4 V c 0 t (ix2 r j) = colSeq (V c main_v63) j (5000 * t.val + r) := by
  have hr : 5000 * t.val + r < 50000 := by have := r.isLt; have := t.isLt.trans_eq N_4; omega
  rw [colSeq_of_lt _ j hr]
  show V c main_v63 (((cfg4.win 0).blk t).view.emb (ix2 r j)) = _
  exact congrArg (V c main_v63) (Shape.idx_ext₂ ((win4_0.rect_emb_val t _ 0).trans (congrArg (· + _) (idx4 t).1))
    ((win4_0.rect_emb_val t _ 1).trans ((congrArg (· + _) (idx4 t).2).trans (Nat.zero_add _))))

theorem last4 (c : Dev nD) : (outsAt4 V c t4_9.val t4_9.isLt).1 = row128 (colSum (V c main_v63))
    ∧ (outsAt4 V c t4_9.val t4_9.isLt).2 = row128 (colSum (mulf (V c main_v63) (V c main_v63))) :=
  stats_last (V c main_v63) (fun n h => iblk4 V c 0 ⟨n, h⟩) (fun n h => blk4_apply V c ⟨n, h⟩) (outsAt4 V c)
    (outsAt4_zero V c) (outsAt4_succ V c) t4_9.isLt

theorem stats4_sum (c : Dev nD) :
    (dat4 (F := Ideal) V c).arrAt 1 cfg4.N = Cert.Spec.row128 (Cert.Spec.colSum (V c main_v63)) :=
  (final4_1 V c).trans (last4 V c).1

theorem stats4_sq (c : Dev nD) :
    (dat4 (F := Ideal) V c).arrAt 2 cfg4.N = Cert.Spec.row128 (Cert.Spec.colSum (mulf (V c main_v63) (V c main_v63))) :=
  (final4_2 V c).trans (last4 V c).2

end Sums4

end Cert.KernelIdeal.RegValue

end
-- ==== Proof.RegStats8.lean ====
import proofs.«431361_j18107582120395_1_alg».proof.Proof.Gen.KernelIdeal.Frame
import proofs.«431361_j18107582120395_1_alg».proof.Proof.ColumnSums
import Idealize.ShloMosaic.Lib.Tactic

noncomputable section

namespace Cert.KernelIdeal.RegValue

open Idealize.ShloMosaic Idealize.ShloMosaic.TcCoe Idealize.SL.Sem Cert.KernelIdeal Cert.KernelIdeal.Gen Cert.Spec
open Idealize.ShloMosaic.ValueIdx
open Idealize.ShloMosaic.Pipeline (Dat)

section Body8

variable {F : FTy → Type} [FloatOps F] (c : Dev nD) (i : grid8.Coords)
  (a1 : Memref sig .tc .vmem S5000x128 .f32) (h1 : a1.IsWhole) (a2 : Memref sig .tc .vmem S1x128 .f32) (h2 : a2.IsWhole)
  (a3 : Memref sig .tc .vmem S1x128 .f32) (h3 : a3.IsWhole) (x : Vec F S5000x128 .f32)

theorem origin8 : (![0, 0] : Fin 2 → Nat) = fun _ => 0 := funext fun a => by fin_cases a <;> rfl

/-- At a later point each row is the tile's step from the row of the point before. -/
theorem out8_B_eq (hc : ¬cond8_0 i) (xo1 xo2 : Vec F S1x128 .f32) :
    (out8_B_1 c i a1 h1 a2 h2 a3 h3 hc x xo1 xo2, out8_B_2 c i a1 h1 a2 h2 a3 h3 hc x xo1 xo2)
      = (k8_pay4 x xo1, k8_pay5 x xo2) := by
  unfold out8_B_1 out8_B_2
  rw [View.read_writes_eq_canon _ _ _ (cover8_B_1 c i a1 h1 a2 h2 a3 h3 hc x xo1 xo2),
    View.read_writes_eq_canon _ _ _ (cover8_B_2 c i a1 h1 a2 h2 a3 h3 hc x xo1 xo2)]
  unfold kernelRun8_B
  dsimp only
  sl_unfold_words
  rw [View.canon_unit_zero origin8, View.canon_unit_zero origin8]
  simp only [View.readAt_eq_ld, h1.read_unread, h2.read_unread, h3.read_unread,
    View.ld_unit_zero (S := S5000x128) origin8, View.ld_unit_zero (S := S1x128) origin8]

/-- At the first point each row is the tile's step from a zero row. -/
theorem out8_A_eq (hc : cond8_0 i) :
    (out8_A_1 c i a1 h1 a2 h2 a3 h3 hc x, out8_A_2 c i a1 h1 a2 h2 a3 h3 hc x)
      = (k8_pay4 x (k8_pay1 (F := F)), k8_pay5 x (k8_pay2 (F := F))) := by
  unfold out8_A_1 out8_A_2
  rw [View.read_writes_eq_canon _ _ _ (cover8_A_1 c i a1 h1 a2 h2 a3 h3 hc x),
    View.read_writes_eq_canon _ _ _ (cover8_A_2 c i a1 h1 a2 h2 a3 h3 hc x)]
  unfold kernelRun8_A
  dsimp only
  sl_unfold_words
  rw [View.canon_cons_unit_zero (S := S1x128) origin8, View.readCov_unit_zero (S := S1x128) _ origin8,
    View.canon_cons_unit_zero (S := S1x128) origin8, View.readCov_unit_zero (S := S1x128) _ origin8]
  simp only [View.readAt_eq_ld, h1.read_unread, View.ld_unit_zero (S := S5000x128) origin8]

end Body8

section Region8

variable {F : FTy → Type} [FloatOps F]

variable (V : (c : Dev nD) → (b : Ref sig .tc) → Buf (Elt F) ((c : Thread nD τ).loc b))

theorem outsAt8_zero (c : Dev nD) (h : 0 < cfg8.N) : outsAt8 V c 0 h
    = (k8_pay4 (iblk8 V c 0 ⟨0, h⟩) (k8_pay1 (F := F)), k8_pay5 (iblk8 V c 0 ⟨0, h⟩) (k8_pay2 (F := F))) :=
  (outsAt8_A V c ⟨0, h⟩ rfl).trans (out8_A_eq c _ _ _ _ _ _ _ _ _)

theorem outsAt8_succ (c : Dev nD) (n : ℕ) (h : n + 1 < cfg8.N) : outsAt8 V c (n + 1) h
    = (k8_pay4 (iblk8 V c 0 ⟨n + 1, h⟩) (outsAt8 V c n (Nat.lt_of_succ_lt h)).1,
      k8_pay5 (iblk8 V c 0 ⟨n + 1, h⟩) (outsAt8 V c n (Nat.lt_of_succ_lt h)).2) :=
  (outsAt8_B V c ⟨n + 1, h⟩ (by have := h.trans_eq N_8; dsimp only; omega)).trans (out8_B_eq c _ _ _ _ _ _ _ _ _ _ _)

theorem final8_1 (c : Dev nD) : (dat8 V c).arrAt 1 cfg8.N = (outsAt8 V c t8_9.val t8_9.isLt).1 := by
  have hz : (fun a => win8_1.index t8_9 a * main_v101_0.ty.shape.size a) = fun _ => 0 := funext fun a => by fin_cases a <;> decide
  refine (dat8 V c).arrAt_eq_of_cover 1 _ (fun t hf => ?_) fun i => ⟨t8_9, (flush8_1 t8_9).mpr rfl, ?_⟩
  · obtain rfl : t = t8_9 :=
      Fin.ext (show t.val = 9 by have := (flush8_1 t).mp hf; have := t.isLt.trans_eq N_8; omega)
    show (cfg8.win 1).cut (grid8.coords t8_9) ((dat8 V c).after 1 t8_9) = _
    rw [after8_1]
    exact (Memref.read_access_unit_zero (Elt F) main_v101_0 hz (fun a => by rw [congrFun hz a]; simp) _).symm
  · show i ∈ ((View.whole main_v101_0).slice (win8_1.rect t8_9)).set
    rw [View.set_slice_whole]
    exact View.mem_set_unit_zero hz _ i

theorem final8_2 (c : Dev nD) : (dat8 V c).arrAt 2 cfg8.N = (outsAt8 V c t8_9.val t8_9.isLt).2 := by
  have hz : (fun a => win8_2.index t8_9 a * main_v101_1.ty.shape.size a) = fun _ => 0 := funext fun a => by fin_cases a <;> decide
  refine (dat8 V c).arrAt_eq_of_cover 2 _ (fun t hf => ?_) fun i => ⟨t8_9, (flush8_2 t8_9).mpr rfl, ?_⟩
  · obtain rfl : t = t8_9 :=
      Fin.ext (show t.val = 9 by have := (flush8_2 t).mp hf; have := t.isLt.trans_eq N_8; omega)
    show (cfg8.win 2).cut (grid8.coords t8_9) ((dat8 V c).after 2 t8_9) = _
    rw [after8_2]
    exact (Memref.read_access_unit_zero (Elt F) main_v101_1 hz (fun a => by rw [congrFun hz a]; simp) _).symm
  · show i ∈ ((View.whole main_v101_1).slice (win8_2.rect t8_9)).set
    rw [View.set_slice_whole]
    exact View.mem_set_unit_zero hz _ i

end Region8

section Sums8

variable (V : (c : Dev nD) → (b : Ref sig .tc) → Buf (Elt Ideal) ((c : Thread nD τ).loc b))

theorem idx8 : ∀ t : Fin cfg8.N, win8_0.index t 0 * win8_0.size 0 = 5000 * t.val ∧ win8_0.index t 1 * win8_0.size 1 = 0 :=
  (by decide +kernel : ∀ t : Fin grid8.N, _)

/-- Row `r` of tile `t` is row `5000 t + r` of the array. -/
theorem blk8_apply (c : Dev nD) (t : Fin cfg8.N) (r : Fin 5000) (j : Fin 128) :
    iblk8 V c 0 t (ix2 r j) = colSeq (V c main_v100) j (5000 * t.val + r) := by
  have hr : 5000 * t.val + r < 50000 := by have := r.isLt; have := t.isLt.trans_eq N_8; omega
  rw [colSeq_of_lt _ j hr]
  show V c main_v100 (((cfg8.win 0).blk t).view.emb (ix2 r j)) = _
  exact congrArg (V c main_v100) (Shape.idx_ext₂ ((win8_0.rect_emb_val t _ 0).trans (congrArg (· + _) (idx8 t).1))
    ((win8_0.rect_emb_val t _ 1).trans ((congrArg (· + _) (idx8 t).2).trans (Nat.zero_add _))))

theorem last8 (c : Dev nD) : (outsAt8 V c t8_9.val t8_9.isLt).1 = row128 (colSum (V c main_v100))
    ∧ (outsAt8 V c t8_9.val t8_9.isLt).2 = row128 (colSum (mulf (V c main_v100) (V c main_v100))) :=
  stats_last (V c main_v100) (fun n h => iblk8 V c 0 ⟨n, h⟩) (fun n h => blk8_apply V c ⟨n, h⟩) (outsAt8 V c)
    (outsAt8_zero V c) (outsAt8_succ V c) t8_9.isLt

theorem stats8_sum (c : Dev nD) :
    (dat8 (F := Ideal) V c).arrAt 1 cfg8.N = Cert.Spec.row128 (Cert.Spec.colSum (V c main_v100)) :=
  (final8_1 V c).trans (last8 V c).1

theorem stats8_sq (c : Dev nD) :
    (dat8 (F := Ideal) V c).arrAt 2 cfg8.N = Cert.Spec.row128 (Cert.Spec.colSum (mulf (V c main_v100) (V c main_v100))) :=
  (final8_2 V c).trans (last8 V c).2

end Sums8

end Cert.KernelIdeal.RegValue

end
-- ==== Proof.AffineEntry.lean ====
import proofs.«431361_j18107582120395_1_alg».proof.Proof.Gen.KernelIdeal.Frame
import proofs.«431361_j18107582120395_1_alg».proof.Proof.Gen.ReferenceIdeal
import proofs.«431361_j18107582120395_1_alg».proof.Proof.Spec
import Idealize.ShloMosaic.Lib.Pipeline.Value
import Idealize.ShloMosaic.Lib.ValueIdx

noncomputable section

namespace Cert.KernelIdeal.RegValue

open Idealize.ShloMosaic Idealize.ShloMosaic.TcCoe Cert.KernelIdeal Cert.KernelIdeal.Gen
open Idealize.ShloMosaic.ValueIdx
open Idealize.ShloMosaic.Pipeline (Dat)

theorem affine_off0 : (![0, 0] : Fin 2 → Nat) = fun _ => 0 := funext fun a => by fin_cases a <;> rfl

theorem affine_rowTile_apply (r : FVec Ideal S1x128 .f32) (h : S1x128.Broadcasts S5000x128) (p : Fin 5000) (q : Fin 128) :
    broadcastTo S5000x128 r h (ix2 p q) = r (ix2 0 q) :=
  broadcastTo_apply r h (ix2 p q) (ix2 0 q) fun a => match a with | ⟨0, _⟩ => rfl | ⟨1, _⟩ => rfl

theorem affine_rows128_apply (r : FVec Ideal S1x128 .f32) (n : Fin 50000) (q : Fin 128) :
    Cert.Spec.rows128 r (ix2 n q) = r (ix2 0 q) :=
  broadcastInDim_apply _ _ r (ix2 n q) (ix2 0 q) fun a => match a with | ⟨0, _⟩ => rfl | ⟨1, _⟩ => rfl

/-- No entry depends on another row: the value at the tile's entry `j` is the stage's at the array's entry `i` it sits on. -/
theorem affine_tile_entry (x0 : Vec Ideal S5000x128 .f32) (x1 x2 x3 x4 : Vec Ideal S1x128 .f32)
    (a : FVec Ideal S50000x128 .f32) (mu inv g be : FVec Ideal S1x128 .f32)
    (h1 : x1 = mu) (h2 : x2 = inv) (h3 : x3 = g) (h4 : x4 = be)
    (j : S5000x128.Idx) (i : S50000x128.Idx) (h0 : x0 j = a i) (hq : (i 1).val = (j 1).val) :
    k5_pay1 x0 x1 x2 x3 x4 j = Cert.Spec.affine a mu inv g be i := by
  subst h1 h2 h3 h4
  obtain ⟨p, q, rfl⟩ : ∃ (p : Fin 5000) (q : Fin 128), j = ix2 p q := ⟨j 0, j 1, eq_ix2 j⟩
  obtain ⟨n, q', rfl⟩ : ∃ (n : Fin 50000) (q' : Fin 128), i = ix2 n q' := ⟨i 0, i 1, eq_ix2 i⟩
  obtain rfl : q' = q := Fin.ext hq
  unfold k5_pay1 Cert.Spec.affine
  simp only [shapeCast_self, addf_apply, mulf_apply, subf_apply, affine_rowTile_apply, affine_rows128_apply, h0]

end Cert.KernelIdeal.RegValue

end
-- ==== Proof.RegAffine5.lean ====
import proofs.«431361_j18107582120395_1_alg».proof.Proof.AffineEntry

noncomputable section

namespace Cert.KernelIdeal.RegValue

open Idealize.ShloMosaic Idealize.ShloMosaic.TcCoe Cert.KernelIdeal Cert.KernelIdeal.Gen
open Idealize.ShloMosaic.ValueIdx
open Idealize.ShloMosaic.Pipeline (Dat)

section Region5
variable (V : (c : Dev nD) → (b : Ref sig .tc) → Buf (Elt Ideal) ((c : Thread nD τ).loc b))

theorem idx5 : ∀ t : Fin cfg5.N,
    (∀ a : Fin 2, win5_1.index t a = 0 ∧ win5_2.index t a = 0 ∧ win5_3.index t a = 0 ∧ win5_4.index t a = 0
      ∧ win5_0.index t a = win5_5.index t a) ∧ win5_5.index t (0 : Fin 2) = t.val ∧ win5_5.index t (1 : Fin 2) = 0 :=
  (by decide +kernel : ∀ t : Fin grid5.N, _)

/-- Point `t` contributes tile `t` of the stage. -/
theorem affine5_flushed (c : Dev nD) (t : Fin cfg5.N) :
    (dat5 (F := Ideal) V c).flushed 5 t = ((cfg5.win 5).blk t).view.read (Elt Ideal)
      (Cert.Spec.affine (V c main_v63) (V c main_v66) (V c main_v73) (V c main_v76) (V c main_v79)) := by
  obtain ⟨hrow, -, h1⟩ := idx5 t
  show (cfg5.win 5).cut (grid5.coords t) ((dat5 V c).after 5 t) = _
  rw [after5_5]
  unfold out5_5
  rw [View.canon_unit_zero affine_off0]
  simp only [View.ld_unit_zero (S := S5000x128) affine_off0, View.ld_unit_zero (S := S1x128) affine_off0]
  funext j
  refine affine_tile_entry (iblk5 V c 0 t) (iblk5 V c 1 t) (iblk5 V c 2 t) (iblk5 V c 3 t) (iblk5 V c 4 t)
    (V c main_v63) (V c main_v66) (V c main_v73) (V c main_v76) (V c main_v79) ?_ ?_ ?_ ?_
    j (((cfg5.win 5).blk t).view.emb j) ?_ (win5_5.rect_emb_val_of_index_zero t (1 : Fin 2) h1 j)
  · funext k
    show V c main_v66 (((cfg5.win 1).blk t).view.emb k) = V c main_v66 k
    exact congrArg _ (funext fun a => Fin.ext (win5_1.rect_emb_val_of_index_zero t a (hrow a).1 k))
  · funext k
    show V c main_v73 (((cfg5.win 2).blk t).view.emb k) = V c main_v73 k
    exact congrArg _ (funext fun a => Fin.ext (win5_2.rect_emb_val_of_index_zero t a (hrow a).2.1 k))
  · funext k
    show V c main_v76 (((cfg5.win 3).blk t).view.emb k) = V c main_v76 k
    exact congrArg _ (funext fun a => Fin.ext (win5_3.rect_emb_val_of_index_zero t a (hrow a).2.2.1 k))
  · funext k
    show V c main_v79 (((cfg5.win 4).blk t).view.emb k) = V c main_v79 k
    exact congrArg _ (funext fun a => Fin.ext (win5_4.rect_emb_val_of_index_zero t a (hrow a).2.2.2.1 k))
  · show V c main_v63 (((cfg5.win 0).blk t).view.emb j) = V c main_v63 (((cfg5.win 5).blk t).view.emb j)
    exact congrArg _ (funext fun a => Fin.ext ((win5_0.rect_emb_val t j a).trans
      ((congrArg (· * _ + _) (hrow a).2.2.2.2).trans (win5_5.rect_emb_val t j a).symm)))

/-- The ten tiles fill the array: row `n` lies in tile `n / 5000`. -/
theorem affine5_cover (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  obtain ⟨t, ht⟩ : ∃ t : Fin cfg5.N, t.val = (i 0).val / 5000 :=
    ⟨⟨_, by rw [show cfg5.N = 10 from N_5]; omega⟩, rfl⟩
  obtain ⟨-, e0, e1⟩ := idx5 t
  refine ⟨t, flush5_5 t, ?_⟩
  show i ∈ ((View.whole main_v80).slice (win5_5.rect t)).set
  rw [View.set_slice_whole, Rect.mem_set_unit]
  intro a
  match a with
  | ⟨0, _⟩ =>
    show win5_5.index t (0 : Fin 2) * 5000 ≤ (i 0).val ∧ (i 0).val < win5_5.index t (0 : Fin 2) * 5000 + 5000
    rw [e0, ht]; omega
  | ⟨1, _⟩ =>
    show win5_5.index t (1 : Fin 2) * 128 ≤ (i 1).val ∧ (i 1).val < win5_5.index t (1 : Fin 2) * 128 + 128
    rw [e1]; omega

theorem affine5 (c : Dev nD) : (dat5 (F := Ideal) V c).arrAt 5 cfg5.N
    = Cert.Spec.affine (V c main_v63) (V c main_v66) (V c main_v73) (V c main_v76) (V c main_v79) :=
  (dat5 (F := Ideal) V c).arrAt_eq_of_cover 5 _ (fun t _ => affine5_flushed V c t) affine5_cover

end Region5

end Cert.KernelIdeal.RegValue

end
-- ==== Proof.RegAffine9.lean ====
import proofs.«431361_j18107582120395_1_alg».proof.Proof.AffineEntry

noncomputable section

namespace Cert.KernelIdeal.RegValue

open Idealize.ShloMosaic Idealize.ShloMosaic.TcCoe Cert.KernelIdeal Cert.KernelIdeal.Gen
open Idealize.ShloMosaic.ValueIdx
open Idealize.ShloMosaic.Pipeline (Dat)

section Region9
variable (V : (c : Dev nD) → (b : Ref sig .tc) → Buf (Elt Ideal) ((c : Thread nD τ).loc b))

theorem idx9 : ∀ t : Fin cfg9.N,
    (∀ a : Fin 2, win9_1.index t a = 0 ∧ win9_2.index t a = 0 ∧ win9_3.index t a = 0 ∧ win9_4.index t a = 0
      ∧ win9_0.index t a = win9_5.index t a) ∧ win9_5.index t (0 : Fin 2) = t.val ∧ win9_5.index t (1 : Fin 2) = 0 :=
  (by decide +kernel : ∀ t : Fin grid9.N, _)

/-- Point `t` contributes tile `t` of the stage. -/
theorem affine9_flushed (c : Dev nD) (t : Fin cfg9.N) :
    (dat9 (F := Ideal) V c).flushed 5 t = ((cfg9.win 5).blk t).view.read (Elt Ideal)
      (Cert.Spec.affine (V c main_v100) (V c main_v103) (V c main_v110) (V c main_v113) (V c main_v116)) := by
  obtain ⟨hrow, -, h1⟩ := idx9 t
  show (cfg9.win 5).cut (grid9.coords t) ((dat9 V c).after 5 t) = _
  rw [after9_5]
  unfold out9_5
  rw [View.canon_unit_zero affine_off0]
  simp only [View.ld_unit_zero (S := S5000x128) affine_off0, View.ld_unit_zero (S := S1x128) affine_off0]
  funext j
  refine affine_tile_entry (iblk9 V c 0 t) (iblk9 V c 1 t) (iblk9 V c 2 t) (iblk9 V c 3 t) (iblk9 V c 4 t)
    (V c main_v100) (V c main_v103) (V c main_v110) (V c main_v113) (V c main_v116) ?_ ?_ ?_ ?_
    j (((cfg9.win 5).blk t).view.emb j) ?_ (win9_5.rect_emb_val_of_index_zero t (1 : Fin 2) h1 j)
  · funext k
    show V c main_v103 (((cfg9.win 1).blk t).view.emb k) = V c main_v103 k
    exact congrArg _ (funext fun a => Fin.ext (win9_1.rect_emb_val_of_index_zero t a (hrow a).1 k))
  · funext k
    show V c main_v110 (((cfg9.win 2).blk t).view.emb k) = V c main_v110 k
    exact congrArg _ (funext fun a => Fin.ext (win9_2.rect_emb_val_of_index_zero t a (hrow a).2.1 k))
  · funext k
    show V c main_v113 (((cfg9.win 3).blk t).view.emb k) = V c main_v113 k
    exact congrArg _ (funext fun a => Fin.ext (win9_3.rect_emb_val_of_index_zero t a (hrow a).2.2.1 k))
  · funext k
    show V c main_v116 (((cfg9.win 4).blk t).view.emb k) = V c main_v116 k
    exact congrArg _ (funext fun a => Fin.ext (win9_4.rect_emb_val_of_index_zero t a (hrow a).2.2.2.1 k))
  · show V c main_v100 (((cfg9.win 0).blk t).view.emb j) = V c main_v100 (((cfg9.win 5).blk t).view.emb j)
    exact congrArg _ (funext fun a => Fin.ext ((win9_0.rect_emb_val t j a).trans
      ((congrArg (· * _ + _) (hrow a).2.2.2.2).trans (win9_5.rect_emb_val t j a).symm)))

/-- The ten tiles fill the array: row `n` lies in tile `n / 5000`. -/
theorem affine9_cover (i : S50000x128.Idx) :
    ∃ t : Fin cfg9.N, (cfg9.win 5).flush t = true ∧ i ∈ ((cfg9.win 5).blk t).view.set := by
  have hi0 : (i 0).val < 50000 := (i 0).isLt
  have hi1 : (i 1).val < 128 := (i 1).isLt
  obtain ⟨t, ht⟩ : ∃ t : Fin cfg9.N, t.val = (i 0).val / 5000 :=
    ⟨⟨_, by rw [show cfg9.N = 10 from N_9]; omega⟩, rfl⟩
  obtain ⟨-, e0, e1⟩ := idx9 t
  refine ⟨t, flush9_5 t, ?_⟩
  show i ∈ ((View.whole main_v117).slice (win9_5.rect t)).set
  rw [View.set_slice_whole, Rect.mem_set_unit]
  intro a
  match a with
  | ⟨0, _⟩ =>
    show win9_5.index t (0 : Fin 2) * 5000 ≤ (i 0).val ∧ (i 0).val < win9_5.index t (0 : Fin 2) * 5000 + 5000
    rw [e0, ht]; omega
  | ⟨1, _⟩ =>
    show win9_5.index t (1 : Fin 2) * 128 ≤ (i 1).val ∧ (i 1).val < win9_5.index t (1 : Fin 2) * 128 + 128
    rw [e1]; omega

theorem affine9 (c : Dev nD) : (dat9 (F := Ideal) V c).arrAt 5 cfg9.N
    = Cert.Spec.affine (V c main_v100) (V c main_v103) (V c main_v110) (V c main_v113) (V c main_v116) :=
  (dat9 (F := Ideal) V c).arrAt_eq_of_cover 5 _ (fun t _ => affine9_flushed V c t) affine9_cover

end Region9

end Cert.KernelIdeal.RegValue

end
-- ==== Proof.RegPool.lean ====
import proofs.«431361_j18107582120395_1_alg».proof.Proof.Gen.KernelIdeal.Frame
import proofs.«431361_j18107582120395_1_alg».proof.Proof.Spec
import Idealize.ShloMosaic.Lib.Pipeline.Value
import Idealize.ShloMosaic.Lib.ValueIdx
import Idealize.ShloMosaic.Lib.StackMember
import Idealize.ShloMosaic.Lib.Tactic

noncomputable section

namespace Cert.KernelIdeal.RegValue

open Idealize.ShloMosaic Idealize.ShloMosaic.TcCoe Idealize.SL.Sem Cert.KernelIdeal Cert.KernelIdeal.Gen
open Idealize.ShloMosaic.Pipeline (Dat)
open Idealize.ShloMosaic.ValueIdx

namespace Pool

section Pieces
variable {F : FTy → Type} [FloatOps F] (c : Dev nD) (i : grid10.Coords)
  (a1 : Memref sig .tc .vmem S5000x64 .f32) (h1 : a1.IsWhole) (a2 : Memref sig .tc .vmem S5000x128 .f32) (h2 : a2.IsWhole)
  (a3 : Memref sig .tc .vmem S64x128 .f32) (h3 : a3.IsWhole) (x0 : Vec F S5000x64 .f32) (x1 : Vec F S5000x128 .f32)

theorem hz2 : (![0, 0] : Fin 2 → Nat) = fun _ => 0 := funext fun a => by fin_cases a <;> rfl

theorem pool_out_B (hc : ¬cond10_0 i) (xo : Vec F S64x128 .f32) :
    out10_B_2 c i a1 h1 a2 h2 a3 h3 hc x0 x1 xo = k10_pay2 x0 x1 xo := by
  unfold out10_B_2
  rw [View.read_writes_eq_canon _ _ _ (cover10_B_2 c i a1 h1 a2 h2 a3 h3 hc x0 x1 xo)]
  unfold kernelRun10_B
  dsimp only
  sl_unfold_words
  rw [View.canon_unit_zero hz2]
  simp only [View.readAt_eq_ld, h1.read_unread, h2.read_unread, h3.read_unread, View.ld_unit_zero (S := S5000x64) hz2,
    View.ld_unit_zero (S := S5000x128) hz2, View.ld_unit_zero (S := S64x128) hz2]

theorem pool_out_A (hc : cond10_0 i) :
    out10_A_2 c i a1 h1 a2 h2 a3 h3 hc x0 x1 = k10_pay2 x0 x1 (k10_pay1 (F := F)) := by
  unfold out10_A_2
  rw [View.read_writes_eq_canon _ _ _ (cover10_A_2 c i a1 h1 a2 h2 a3 h3 hc x0 x1)]
  unfold kernelRun10_A
  dsimp only
  sl_unfold_words
  rw [View.canon_cons_unit_zero (S := S64x128) hz2, View.readCov_unit_zero (S := S64x128) _ hz2]
  simp only [View.readAt_eq_ld, h1.read_unread, h2.read_unread, View.ld_unit_zero (S := S5000x64) hz2,
    View.ld_unit_zero (S := S5000x128) hz2, View.ld_unit_zero (S := S64x128) hz2]

end Pieces

section Points
variable {F : FTy → Type} [FloatOps F]
variable (V : (c : Dev nD) → (b : Ref sig .tc) → Buf (Elt F) ((c : Thread nD τ).loc b))

theorem outsAt_zero (c : Dev nD) (h : 0 < cfg10.N) : outsAt10 V c 0 h
    = k10_pay2 (iblk10 V c 0 ⟨0, h⟩) (iblk10 V c 1 ⟨0, h⟩) (k10_pay1 (F := F)) :=
  (outsAt10_A V c ⟨0, h⟩ rfl).trans (pool_out_A c _ _ _ _ _ _ _ _ _ _)

theorem outsAt_succ (c : Dev nD) (n : ℕ) (h : n + 1 < cfg10.N) : outsAt10 V c (n + 1) h
    = k10_pay2 (iblk10 V c 0 ⟨n + 1, h⟩) (iblk10 V c 1 ⟨n + 1, h⟩) (outsAt10 V c n (Nat.lt_of_succ_lt h)) :=
  (outsAt10_B V c ⟨n + 1, h⟩ (by have := h.trans_eq N_10; dsimp only; omega)).trans (pool_out_B c _ _ _ _ _ _ _ _ _ _ _)

end Points

/-- One tile's step at an entry: the carried value plus the tile's 5000 products of membership and node value. -/
theorem pool_pay_apply (x0 : Vec Ideal S5000x64 .f32) (x1 : Vec Ideal S5000x128 .f32) (xo : Vec Ideal S64x128 .f32)
    (g : Fin 64) (j : Fin 128) :
    k10_pay2 (F := Ideal) x0 x1 xo (ix2 g j) = xo (ix2 g j) + ∑ r : Fin 5000, x0 (ix2 r g) * x1 (ix2 r j) := by
  unfold k10_pay2
  simp only [shapeCast_self]
  refine (addf_apply _ _ _).trans (congrArg (xo (ix2 g j) + ·) ?_)
  refine (congrFun (matmul_zero_eq_dotGeneral _ none _ _) _).trans
    ((StackMember.dotGeneral_plain_apply (m := 64) (k := 5000) (n := 128) none _ _ g j).trans
      (Finset.sum_congr rfl fun r _ => ?_))
  refine congr (congrArg HMul.hMul ?_) rfl
  exact transpose_apply [1, 0] _ transposes_S5000x64_p1_0_S64x5000 (ix2 g r) (ix2 r g)
    fun b => match b with | ⟨0, _⟩ => rfl | ⟨1, _⟩ => rfl

section Sums
variable (V : (c : Dev nD) → (b : Ref sig .tc) → Buf (Elt Ideal) ((c : Thread nD τ).loc b))

/-- Node `k`'s product of membership in graph `g` and feature `j`, continued by zeros past the last node. -/
def nodeTerm (oh : Vec Ideal S50000x64 .f32) (h : Vec Ideal S50000x128 .f32) (g : Fin 64) (j : Fin 128) (k : ℕ) : EReal :=
  if hk : k < 50000 then oh (ix2 ⟨k, hk⟩ g) * h (ix2 ⟨k, hk⟩ j) else 0

theorem zeroBlock_apply (i : S64x128.Idx) : k10_pay1 (F := Ideal) i = 0 := by
  unfold k10_pay1
  show Ideal.ofBits .f32 0x00000000#32 = 0
  exact Ideal.ofBits_zero_f32

theorem blockIdx : ∀ t : Fin cfg10.N,
    win10_0.index t 0 * win10_0.size 0 = 5000 * t.val ∧ win10_0.index t 1 * win10_0.size 1 = 0
    ∧ win10_1.index t 0 * win10_1.size 0 = 5000 * t.val ∧ win10_1.index t 1 * win10_1.size 1 = 0 :=
  (by decide +kernel : ∀ t : Fin grid10.N, _)

/-- The step of tile `n`, whose rows are rows `5000 n …` of the two arrays, adds that tile's node terms. -/
theorem step_apply (c : Dev nD) (n : ℕ) (h : n < cfg10.N) (xo : Vec Ideal S64x128 .f32) (g : Fin 64) (j : Fin 128) :
    k10_pay2 (iblk10 V c 0 ⟨n, h⟩) (iblk10 V c 1 ⟨n, h⟩) xo (ix2 g j) = xo (ix2 g j)
      + ∑ k ∈ Finset.range 5000, nodeTerm (V c main_v124) (V c main_v117) g j (5000 * n + k) := by
  obtain ⟨e00, e01, e10, e11⟩ := blockIdx ⟨n, h⟩
  rw [pool_pay_apply, Finset.sum_range]
  refine congrArg _ (Finset.sum_congr rfl fun r _ => ?_)
  have hr : 5000 * n + r.val < 50000 := by have := r.isLt; have := h.trans_eq N_10; omega
  have e0 : iblk10 V c 0 ⟨n, h⟩ (ix2 r g) = (V c main_v124 : Vec Ideal S50000x64 .f32) (ix2 ⟨5000 * n + r, hr⟩ g) := by
    show V c main_v124 (((cfg10.win 0).blk ⟨n, h⟩).view.emb (ix2 r g)) = _
    exact congrArg (V c main_v124) (Shape.idx_ext₂ ((win10_0.rect_emb_val ⟨n, h⟩ _ 0).trans (congrArg (· + _) e00))
      ((win10_0.rect_emb_val ⟨n, h⟩ _ 1).trans ((congrArg (· + _) e01).trans (Nat.zero_add _))))
  have e1 : iblk10 V c 1 ⟨n, h⟩ (ix2 r j) = (V c main_v117 : Vec Ideal S50000x128 .f32) (ix2 ⟨5000 * n + r, hr⟩ j) := by
    show V c main_v117 (((cfg10.win 1).blk ⟨n, h⟩).view.emb (ix2 r j)) = _
    exact congrArg (V c main_v117) (Shape.idx_ext₂ ((win10_1.rect_emb_val ⟨n, h⟩ _ 0).trans (congrArg (· + _) e10))
      ((win10_1.rect_emb_val ⟨n, h⟩ _ 1).trans ((congrArg (· + _) e11).trans (Nat.zero_add _))))
  unfold nodeTerm
  rw [dif_pos hr, e0, e1]

/-- After tile `n` the accumulator holds the sum over the first `5000 (n + 1)` nodes. -/
theorem outsAt_eq (c : Dev nD) (g : Fin 64) (j : Fin 128) : ∀ (n : ℕ) (hn : n < cfg10.N),
    outsAt10 V c n hn (ix2 g j) = ∑ k ∈ Finset.range (5000 * (n + 1)), nodeTerm (V c main_v124) (V c main_v117) g j k
  | 0, hn => by
    rw [Nat.mul_succ, Finset.sum_range_add, outsAt_zero V c, step_apply V c, zeroBlock_apply, Nat.mul_zero,
      Finset.range_zero, Finset.sum_empty]
  | n + 1, hn => by
    rw [Nat.mul_succ, Finset.sum_range_add, outsAt_succ V c, step_apply V c, outsAt_eq c g j n]

theorem outsAt_last (c : Dev nD) :
    outsAt10 V c t10_9.val t10_9.isLt = Cert.Spec.poolMM (V c main_v124) (V c main_v117) := by
  funext i
  obtain ⟨g, j, rfl⟩ : ∃ (g : Fin 64) (j : Fin 128), i = ix2 g j := ⟨i 0, i 1, eq_ix2 i⟩
  refine (outsAt_eq V c g j 9 t10_9.isLt).trans ?_
  show ∑ k ∈ Finset.range 50000, nodeTerm (V c main_v124) (V c main_v117) g j k = _
  rw [Finset.sum_range]
  exact Finset.sum_congr rfl fun n _ => dif_pos n.isLt

end Sums

end Pool

section Result
variable (V : (c : Dev nD) → (b : Ref sig .tc) → Buf (Elt Ideal) ((c : Thread nD τ).loc b))

/-- The tenth tile completes the sum over all nodes, and its block is the whole result. -/
theorem pool10 (c : Dev nD) :
    (dat10 (F := Ideal) V c).arrAt 2 cfg10.N = Cert.Spec.poolMM (V c main_v124) (V c main_v117) := by
  have hz : (fun a => win10_2.index t10_9 a * main_v125.ty.shape.size a) = fun _ => 0 :=
    funext fun a => by fin_cases a <;> decide
  refine (dat10 V c).arrAt_eq_of_cover 2 _ (fun t hf => ?_) fun i => ⟨t10_9, (flush10_2 t10_9).mpr rfl, ?_⟩
  · obtain rfl : t = t10_9 :=
      Fin.ext (show t.val = 9 by have := (flush10_2 t).mp hf; have := t.isLt.trans_eq N_10; omega)
    show (cfg10.win 2).cut (grid10.coords t10_9) ((dat10 V c).after 2 t10_9) = _
    rw [after10_2, Pool.outsAt_last V c]
    exact (Memref.read_access_unit_zero (Elt Ideal) main_v125 hz (fun a => by rw [congrFun hz a]; simp) _).symm
  · show i ∈ ((View.whole main_v125).slice (win10_2.rect t10_9)).set
    rw [View.set_slice_whole]
    exact View.mem_set_unit_zero hz _ i

end Result

end Cert.KernelIdeal.RegValue

end
-- ==== Proof.RegHeadBody.lean ====
import proofs.«431361_j18107582120395_1_alg».proof.Proof.Gen.KernelIdeal.Skeleton
import proofs.«431361_j18107582120395_1_alg».proof.Proof.Gen.ReferenceIdeal
import proofs.«431361_j18107582120395_1_alg».proof.Proof.Spec
import Idealize.ShloMosaic.Lib.ValueLayout
import Idealize.ShloMosaic.PureOps.Ideal.Laws
import Idealize.ShloMosaic.Lib.KernelVsHost

noncomputable section

namespace Cert.KernelIdeal.RegValue.Head

open Idealize.ShloMosaic Idealize.ShloMosaic.TcCoe Cert.KernelIdeal Cert.KernelIdeal.Gen
open Idealize.ShloMosaic.ValueIdx

theorem ofBits_w0 : Ideal.ofBits .f32 0x00000000#32 = 0 := Ideal.ofBits_zero_f32

theorem ofBits_w64 : Ideal.ofBits .f32 0x42800000#32 = ((64 : ℝ) : EReal) := by
  simp [Ideal.ofBits, Ideal.ieee, -EReal.coe_mul]; norm_num

theorem bcast_scalar_apply {α : Type} {t : Shape} (h : S_.BroadcastsInDim t (![] : Fin 0 → Fin t.rank)) (x : S_.Idx → α) (j : t.Idx) :
    broadcastInDim t ![] h x j = x ix0 :=
  broadcastInDim_apply _ h x j ix0 (fun a => a.elim0)

theorem rows256_apply (b : FVec Ideal S1x256 .f32) (r : Fin 64) (q : Fin 256) :
    Cert.Spec.rows256 b (ix2 r q) = b (ix2 (0 : Fin 1) q) :=
  broadcastInDim_apply _ _ b (ix2 r q) (ix2 (0 : Fin 1) q) fun a => match a with | ⟨0, _⟩ => rfl | ⟨1, _⟩ => rfl

theorem row256_apply (v : FVec Ideal S256 .f32) (u : Fin 1) (q : Fin 256) :
    Cert.Spec.row256 v (ix2 u q) = v (ix1 q) :=
  broadcastInDim_apply _ _ v (ix2 u q) (ix1 q) fun a => match a with | ⟨0, _⟩ => rfl

theorem lift_rows (h : S64x256.Reduces [0] S256) (q : Fin 256) (k : Fin 64) : h.lift (ix1 q) k = ix2 k q :=
  funext fun a => Fin.ext (match a with | ⟨0, _⟩ => rfl | ⟨1, _⟩ => rfl)

def colsK (a : FVec Ideal S64x256 .f32) : FVec Ideal S1x256 .f32 :=
  shapeCast S1x256 (multiReduction (F := Ideal) .add [0] S256 a 0x00000000#32 reduces_S64x256_S256 (.inl rfl) rfl) shapeCasts_S256_S1x256

theorem colsK_apply (a : FVec Ideal S64x256 .f32) (u : Fin 1) (q : Fin 256) :
    colsK a (ix2 u q) = ∑ r : Fin 64, a (ix2 r q) := by
  unfold colsK
  rw [shapeCast_a_1a_apply]
  refine (Ideal.multiReduction_add_single a _ reduces_S64x256_S256 _ _ (ix1 q)).trans ?_
  exact Finset.sum_congr rfl fun k _ => congrArg a (lift_rows _ q k)

theorem colSumH_apply (a : FVec Ideal S64x256 .f32) (q : Fin 256) :
    Cert.Spec.colSumH a (ix1 q) = ∑ r : Fin 64, a (ix2 r q) := by
  unfold Cert.Spec.colSumH Host.reduceAdd
  refine (Ideal.hostReduceAdd_single _ reduces_S64x256_S256 a _ (ix1 q)).trans ?_
  have h0 : Cert.Spec.c0 (Shape.Idx.first Cert.ReferenceIdeal.Facts₀.h_S_) = 0 := ofBits_w0
  rw [h0, zero_add]
  exact Finset.sum_congr rfl fun k _ => congrArg a (lift_rows _ q k)

def normAt (col : Fin 64 → EReal) (x g be : EReal) : EReal :=
  (x - Ideal.div (∑ r, col r) (Ideal.ofBits .f32 0x42800000#32))
    * Ideal.rsqrt (Ideal.div (∑ r, (col r - Ideal.div (∑ r', col r') (Ideal.ofBits .f32 0x42800000#32))
        * (col r - Ideal.div (∑ r', col r') (Ideal.ofBits .f32 0x42800000#32))) (Ideal.ofBits .f32 0x42800000#32)
      + Ideal.ofBits .f32 0x3727C5AC#32)
    * g + be

def c64K : FVec Ideal S1x256 .f32 := broadcast S1x256 (Scalar.ofBits .f32 0x42800000#32)
def centK (a : FVec Ideal S64x256 .f32) : FVec Ideal S64x256 .f32 :=
  subf a (broadcastTo S64x256 (divf (colsK a) c64K) broadcasts_S1x256_S64x256)
def rowsK (b : Vec Ideal S1x256 .f32) : FVec Ideal S64x256 .f32 :=
  broadcastTo S64x256 (shapeCast S1x256 b shapeCasts_S1x256_S1x256) broadcasts_S1x256_S64x256
def normK (a : FVec Ideal S64x256 .f32) (g be : Vec Ideal S1x256 .f32) : FVec Ideal S64x256 .f32 :=
  addf (mulf (mulf (centK a) (broadcastTo S64x256 (rsqrt (addf (divf (colsK (mulf (centK a) (centK a))) c64K)
    (broadcast S1x256 (Scalar.ofBits .f32 0x3727C5AC#32)))) broadcasts_S1x256_S64x256)) (rowsK g)) (rowsK be)

theorem centK_apply (a : FVec Ideal S64x256 .f32) (r : Fin 64) (q : Fin 256) :
    centK a (ix2 r q) = a (ix2 r q) - Ideal.div (∑ r' : Fin 64, a (ix2 r' q)) (Ideal.ofBits .f32 0x42800000#32) := by
  unfold centK c64K
  rw [subf_apply, broadcastTo_1b_ab_apply, divf_apply, colsK_apply, broadcast_apply]
  rfl

theorem rowsK_apply (b : Vec Ideal S1x256 .f32) (r : Fin 64) (q : Fin 256) : rowsK b (ix2 r q) = b (ix2 (0 : Fin 1) q) := by
  unfold rowsK
  rw [shapeCast_self, broadcastTo_1b_ab_apply]

theorem normK_apply (a : FVec Ideal S64x256 .f32) (g be : Vec Ideal S1x256 .f32) (r : Fin 64) (q : Fin 256) :
    normK a g be (ix2 r q) = normAt (fun r' => a (ix2 r' q)) (a (ix2 r q)) (g (ix2 (0 : Fin 1) q)) (be (ix2 (0 : Fin 1) q)) := by
  unfold normK c64K normAt
  rw [addf_apply, mulf_apply, mulf_apply, rowsK_apply, rowsK_apply, broadcastTo_1b_ab_apply, centK_apply]
  show _ * FloatOps.rsqrt (addf _ _ (ix2 (0 : Fin 1) q)) * _ + _ = _
  rw [addf_apply, divf_apply, colsK_apply, broadcast_apply, broadcast_apply]
  simp only [mulf_apply, centK_apply]
  rfl

theorem cG_apply : Cert.Spec.cG ix0 = Ideal.ofBits .f32 0x42800000#32 := rfl

theorem gMinus_apply : Cert.Spec.gMinus ix0 = Ideal.ofBits .f32 0x42800000#32 := by
  unfold Cert.Spec.gMinus
  rw [subf_apply, cG_apply]
  show Ideal.ofBits .f32 0x42800000#32 - (((0#32 : BitVec 32).toInt : ℝ) : EReal) = _
  simp

theorem gMinus_pos : cmpf .ogt Cert.Spec.gMinus Cert.Spec.c0 ix0 = 1#1 := by
  rw [cmpf_apply, gMinus_apply]
  show Ideal.cmp .ogt (Ideal.ofBits .f32 0x42800000#32) (Ideal.ofBits .f32 0x00000000#32) = 1#1
  rw [ofBits_w64, ofBits_w0]
  simp [Ideal.cmp]

theorem centredH_apply (a : FVec Ideal S64x256 .f32) (r : Fin 64) (q : Fin 256) :
    Cert.Spec.centredH a (ix2 r q) = a (ix2 r q) - Ideal.div (∑ r' : Fin 64, a (ix2 r' q)) (Ideal.ofBits .f32 0x42800000#32) := by
  unfold Cert.Spec.centredH
  rw [subf_apply, rows256_apply]
  show _ - FloatOps.hostDivf (Cert.Spec.row256 (Cert.Spec.colSumH a) (ix2 (0 : Fin 1) q)) (broadcastInDim _ _ _ Cert.Spec.cG (ix2 (0 : Fin 1) q)) = _
  rw [row256_apply, colSumH_apply, bcast_scalar_apply, cG_apply]
  rfl

theorem meanH_apply (a : FVec Ideal S64x256 .f32) (q : Fin 256) :
    Cert.Spec.meanH a (ix1 q) = Ideal.div (∑ r' : Fin 64, a (ix2 r' q)) (Ideal.ofBits .f32 0x42800000#32) := by
  unfold Cert.Spec.meanH
  show FloatOps.hostDivf (Cert.Spec.colSumH a (ix1 q)) (broadcastInDim _ _ _ Cert.Spec.cG (ix1 q)) = _
  rw [colSumH_apply, bcast_scalar_apply, cG_apply]
  rfl

theorem varH_apply (a : FVec Ideal S64x256 .f32) (q : Fin 256) :
    Cert.Spec.varH a (ix1 q) = Ideal.div (∑ r : Fin 64, Cert.Spec.centredH a (ix2 r q) * Cert.Spec.centredH a (ix2 r q)) (Ideal.ofBits .f32 0x42800000#32) := by
  unfold Cert.Spec.varH
  rw [select_apply, bcast_scalar_apply, gMinus_pos, select_one]
  show FloatOps.hostDivf (Cert.Spec.colSumH _ (ix1 q)) (broadcastInDim _ _ _ Cert.Spec.gMinus (ix1 q)) = _
  rw [colSumH_apply, bcast_scalar_apply, gMinus_apply]
  rfl

theorem bnH_apply (a : FVec Ideal S64x256 .f32) (g be : FVec Ideal S1x256 .f32) (r : Fin 64) (q : Fin 256) :
    Cert.Spec.bnH a g be (ix2 r q) = normAt (fun r' => a (ix2 r' q)) (a (ix2 r q)) (g (ix2 (0 : Fin 1) q)) (be (ix2 (0 : Fin 1) q)) := by
  unfold Cert.Spec.bnH normAt
  rw [addf_apply, mulf_apply, mulf_apply, subf_apply, rows256_apply, rows256_apply, rows256_apply, rows256_apply,
    row256_apply, row256_apply, meanH_apply]
  show _ * FloatOps.hostUnary .rsqrt (addf _ _ (ix1 q)) * _ + _ = _
  rw [addf_apply, varH_apply, bcast_scalar_apply]
  simp only [centredH_apply]
  rfl

/-- The body's normalisation of the 64 rows, entry by entry, is the specification's. -/
theorem normK_eq_bnH (a : FVec Ideal S64x256 .f32) (g be : Vec Ideal S1x256 .f32) : normK a g be = Cert.Spec.bnH a g be := by
  funext i
  obtain ⟨r, q, rfl⟩ : ∃ (r : Fin 64) (q : Fin 256), i = ix2 r q := ⟨i 0, i 1, eq_ix2 i⟩
  rw [normK_apply, bnH_apply]

def reluK (z : FVec Ideal S64x256 .f32) : FVec Ideal S64x256 .f32 := maximumf z (broadcast S64x256 (Scalar.ofBits .f32 0x00000000#32))

theorem reluK_eq (z : FVec Ideal S64x256 .f32) : reluK z = Cert.Spec.reluH z := by
  unfold reluK Cert.Spec.reluH
  refine congrArg (maximumf z) (funext fun i => ?_)
  rw [bcast_scalar_apply]
  rfl

theorem rowsK_eq (b : Vec Ideal S1x256 .f32) : rowsK b = Cert.Spec.rows256 b := by
  funext i
  obtain ⟨r, q, rfl⟩ : ∃ (r : Fin 64) (q : Fin 256), i = ix2 r q := ⟨i 0, i 1, eq_ix2 i⟩
  rw [rowsK_apply, rows256_apply]

theorem bias_eq (bo : Vec Ideal S1x1 .f32) :
    broadcastTo S64x1 (shapeCast S1x1 bo shapeCasts_S1x1_S1x1) broadcasts_S1x1_S64x1
      = broadcastInDim Cert.ReferenceIdeal.S64x1 ![0, 1] Cert.ReferenceIdeal.Facts₀.bcast_S1x1_S64x1_0_1 bo := by
  funext i
  obtain ⟨r, u, rfl⟩ : ∃ (r : Fin 64) (u : Fin 1), i = ix2 r u := ⟨i 0, i 1, eq_ix2 i⟩
  rw [shapeCast_self, broadcastTo_1b_ab_apply]
  symm
  refine broadcastInDim_apply _ _ bo (ix2 r u) (ix2 (0 : Fin 1) u) fun a => ?_
  match a with
  | ⟨0, _⟩ => rfl
  | ⟨1, _⟩ => show u.val = 0; omega

/-- The body's whole computation on its eleven operands is the head: each matrix product, rectifier and normalisation is the matching stage. -/
theorem payload_eq_head (x0 : Vec Ideal S64x128 .f32) (x1 : Vec Ideal S128x256 .f32) (x2 x3 x4 : Vec Ideal S1x256 .f32)
    (x5 : Vec Ideal S256x256 .f32) (x6 x7 x8 : Vec Ideal S1x256 .f32) (x9 : Vec Ideal S256x1 .f32) (x10 : Vec Ideal S1x1 .f32) :
    k11_pay3 (k11_pay1 x0 x1 x2 x3 x4) (k11_pay2 x5) (constant S64x256 .f32 0x00000000#32) x6 x7 x8 x9 x10
      = Cert.Spec.head x0 x1 x2 x3 x4 x5 x6 x7 x8 x9 x10 := by
  have hK : k11_pay3 (k11_pay1 x0 x1 x2 x3 x4) (k11_pay2 x5) (constant S64x256 .f32 0x00000000#32) x6 x7 x8 x9 x10
      = addf (matmul dot_S64x256_S256x1_S64x1_1_0_0_1_n_n none
          (truncf .bf16 (normK (reluK (addf (matmul dot_S64x256_S256x256_S64x256_1_0_0_1_n_n none
            (truncf .bf16 (normK (reluK (addf (matmul dot_S64x128_S128x256_S64x256_1_0_0_1_n_n none
              (truncf .bf16 (shapeCast S64x128 x0 shapeCasts_S64x128_S64x128) bitsLt_bf16_f32) (truncf .bf16 x1 bitsLt_bf16_f32)
              (constant S64x256 .f32 0x00000000#32)) (rowsK x2))) x3 x4) bitsLt_bf16_f32)
            (truncf .bf16 x5 bitsLt_bf16_f32) (constant S64x256 .f32 0x00000000#32)) (rowsK x6))) x7 x8) bitsLt_bf16_f32)
          (truncf .bf16 x9 bitsLt_bf16_f32) (constant S64x1 .f32 0x00000000#32))
        (broadcastTo S64x1 (shapeCast S1x1 x10 shapeCasts_S1x1_S1x1) broadcasts_S1x1_S64x1) := rfl
  rw [hK, shapeCast_self, matmul_zero_eq_dotGeneral, matmul_zero_eq_dotGeneral, matmul_zero_eq_dotGeneral,
    rowsK_eq, rowsK_eq, reluK_eq, reluK_eq, normK_eq_bnH, normK_eq_bnH, bias_eq]
  rfl

end Cert.KernelIdeal.RegValue.Head
end
-- ==== Proof.RegHead.lean ====
import proofs.«431361_j18107582120395_1_alg».proof.Proof.Gen.KernelIdeal.Frame
import proofs.«431361_j18107582120395_1_alg».proof.Proof.RegHeadBody

noncomputable section

namespace Cert.KernelIdeal.RegValue.Head

open Idealize.ShloMosaic Idealize.ShloMosaic.TcCoe Cert.KernelIdeal Cert.KernelIdeal.Gen
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- A rectangle at offset zero with the array's own extents reads the whole array. -/
theorem whole_read (b : Ref sig .tc) {off : Fin b.ty.shape.rank → Nat} (h : ∀ a, off a = 0)
    (inb : ∀ a, off a + b.ty.shape.size a ≤ b.ty.shape.size a) (f : b.ty.Contents (Elt Ideal)) :
    ((Memref.whole b).access (Rect.unit off b.ty.shape.size inb) : View sig .tc _ _ _).read (Elt Ideal) f = f :=
  Memref.read_access_unit_zero _ b (funext h) inb f

/-- The head of the eleven arrays the region reads. -/
abbrev headOf (c : Dev nD) := Cert.Spec.head (V c main_v125) (V c main_arg9) (V c main_v126) (V c main_v127) (V c main_v128) (V c main_arg13) (V c main_v129) (V c main_v130) (V c main_v131) (V c main_arg17) (V c main_v132)

theorem iblk11_0 (c : Dev nD) (t : Fin cfg11.N) : (iblk11 V c 0 t : Vec Ideal S64x128 .f32) = V c main_v125 :=
  whole_read main_v125 (fun a => by fin_cases a <;> rfl) _ _
theorem iblk11_1 (c : Dev nD) (t : Fin cfg11.N) : (iblk11 V c 1 t : Vec Ideal S128x256 .f32) = V c main_arg9 :=
  whole_read main_arg9 (fun a => by fin_cases a <;> rfl) _ _
theorem iblk11_2 (c : Dev nD) (t : Fin cfg11.N) : (iblk11 V c 2 t : Vec Ideal S1x256 .f32) = V c main_v126 :=
  whole_read main_v126 (fun a => by fin_cases a <;> rfl) _ _
theorem iblk11_3 (c : Dev nD) (t : Fin cfg11.N) : (iblk11 V c 3 t : Vec Ideal S1x256 .f32) = V c main_v127 :=
  whole_read main_v127 (fun a => by fin_cases a <;> rfl) _ _
theorem iblk11_4 (c : Dev nD) (t : Fin cfg11.N) : (iblk11 V c 4 t : Vec Ideal S1x256 .f32) = V c main_v128 :=
  whole_read main_v128 (fun a => by fin_cases a <;> rfl) _ _
theorem iblk11_5 (c : Dev nD) (t : Fin cfg11.N) : (iblk11 V c 5 t : Vec Ideal S256x256 .f32) = V c main_arg13 :=
  whole_read main_arg13 (fun a => by fin_cases a <;> rfl) _ _
theorem iblk11_6 (c : Dev nD) (t : Fin cfg11.N) : (iblk11 V c 6 t : Vec Ideal S1x256 .f32) = V c main_v129 :=
  whole_read main_v129 (fun a => by fin_cases a <;> rfl) _ _
theorem iblk11_7 (c : Dev nD) (t : Fin cfg11.N) : (iblk11 V c 7 t : Vec Ideal S1x256 .f32) = V c main_v130 :=
  whole_read main_v130 (fun a => by fin_cases a <;> rfl) _ _
theorem iblk11_8 (c : Dev nD) (t : Fin cfg11.N) : (iblk11 V c 8 t : Vec Ideal S1x256 .f32) = V c main_v131 :=
  whole_read main_v131 (fun a => by fin_cases a <;> rfl) _ _
theorem iblk11_9 (c : Dev nD) (t : Fin cfg11.N) : (iblk11 V c 9 t : Vec Ideal S256x1 .f32) = V c main_arg17 :=
  whole_read main_arg17 (fun a => by fin_cases a <;> rfl) _ _
theorem iblk11_10 (c : Dev nD) (t : Fin cfg11.N) : (iblk11 V c 10 t : Vec Ideal S1x1 .f32) = V c main_v132 :=
  whole_read main_v132 (fun a => by fin_cases a <;> rfl) _ _

/-- The one grid point writes back the head of the arrays: every block is its whole array. -/
theorem flushed_eq (c : Dev nD) (t : Fin cfg11.N) :
    (dat11 (F := Ideal) V c).flushed 11 t = ((cfg11.win 11).blk t).view.read (Elt Ideal) (headOf V c) := by
  show (cfg11.win 11).cut (grid11.coords t) ((dat11 V c).after 11 t) = _
  rw [after11_11]
  unfold out11_11
  rw [View.canon_unit_zero hz]
  simp only [View.ld_unit_zero (S := S64x128) hz, View.ld_unit_zero (S := S128x256) hz, View.ld_unit_zero (S := S1x256) hz, View.ld_unit_zero (S := S256x256) hz, View.ld_unit_zero (S := S256x1) hz, View.ld_unit_zero (S := S1x1) hz]
  rw [payload_eq_head, iblk11_0, iblk11_1, iblk11_2, iblk11_3, iblk11_4, iblk11_5, iblk11_6, iblk11_7, iblk11_8, iblk11_9, iblk11_10]
  exact (whole_read main_v133 (fun a => by fin_cases a <;> rfl) _ (headOf V c)).symm

theorem head11 (c : Dev nD) : (dat11 (F := Ideal) V c).arrAt 11 cfg11.N = Cert.Spec.head (V c main_v125) (V c main_arg9) (V c main_v126) (V c main_v127) (V c main_v128) (V c main_arg13) (V c main_v129) (V c main_v130) (V c main_v131) (V c main_arg17) (V c main_v132) :=
  (dat11 V c).arrAt_eq_of_cover 11 _ (fun t _ => flushed_eq V c t) fun i =>
    ⟨t11_0, flush11_11 t11_0, by
      show i ∈ ((View.whole main_v133).slice (win11_11.rect t11_0)).set
      rw [View.set_slice_whole, Rect.mem_set_unit]
      intro a
      have h0 : (i 0 : Nat) < 64 := (i 0).isLt
      have h1 : (i 1 : Nat) < 1 := (i 1).isLt
      match a with
      | ⟨0, _⟩ => show win11_11.index t11_0 0 * win11_11.size 0 ≤ (i 0 : Nat) ∧ (i 0 : Nat) < win11_11.index t11_0 0 * win11_11.size 0 + win11_11.xsize (grid11.coords t11_0) 0
                  rw [show win11_11.index t11_0 0 * win11_11.size 0 = 0 from by decide +kernel, show win11_11.xsize (grid11.coords t11_0) 0 = 64 from by decide +kernel]; omega
      | ⟨1, _⟩ => show win11_11.index t11_0 1 * win11_11.size 1 ≤ (i 1 : Nat) ∧ (i 1 : Nat) < win11_11.index t11_0 1 * win11_11.size 1 + win11_11.xsize (grid11.coords t11_0) 1
                  rw [show win11_11.index t11_0 1 * win11_11.size 1 = 0 from by decide +kernel, show win11_11.xsize (grid11.coords t11_0) 1 = 1 from by decide +kernel]; omega⟩

end Cert.KernelIdeal.RegValue.Head

end
-- ==== Proof.BnAlgebra.lean ====
import proofs.«431361_j18107582120395_1_alg».proof.Proof.Spec
import Idealize.ShloMosaic.PureOps.Ideal.Laws
import Idealize.ShloMosaic.Lib.IdealHost
import Mathlib.Tactic.FieldSimp
import Mathlib.Tactic.Ring
import Mathlib.Tactic.NormNum
import Mathlib.Algebra.BigOperators.Ring.Finset

noncomputable section

open scoped BigOperators

namespace Cert.Spec

open Idealize.ShloMosaic Idealize.ShloMosaic.ValueIdx Cert.ReferenceIdeal

variable [Cert.ReferenceIdeal.Facts]
open Cert.ReferenceIdeal.Facts₀

namespace BnAlgebra

/-- For `N` real numbers, the mean of squared deviations from the mean is the mean of squares minus the squared mean. -/
theorem real_var_identity {ι : Type*} [Fintype ι] (x : ι → ℝ) (N : ℝ) (hN : N ≠ 0) (hc : (Fintype.card ι : ℝ) = N) :
    (∑ i, (x i - (∑ k, x k) * (1 / N)) * (x i - (∑ k, x k) * (1 / N))) * (1 / N)
      = (∑ i, x i * x i) * (1 / N) - ((∑ k, x k) * (1 / N)) * ((∑ k, x k) * (1 / N)) := by
  set S := ∑ k, x k with hS
  have h1 : ∀ i, (x i - S * (1 / N)) * (x i - S * (1 / N))
      = x i * x i - 2 * (S * (1 / N)) * x i + (S * (1 / N)) * (S * (1 / N)) := fun i => by ring
  simp_rw [h1]
  rw [Finset.sum_add_distrib, Finset.sum_sub_distrib, ← Finset.mul_sum, Finset.sum_const, Finset.card_univ,
    nsmul_eq_mul, hc, ← hS]
  field_simp
  ring

theorem coe_sum {ι : Type*} (s : Finset ι) (f : ι → ℝ) : ((∑ i ∈ s, f i : ℝ) : EReal) = ∑ i ∈ s, (f i : EReal) :=
  map_sum (AddMonoidHom.mk ⟨Real.toEReal, EReal.coe_zero⟩ EReal.coe_add) f s

theorem cN_val (i : S_.Idx) : cN i = ((50000 : ℝ) : EReal) := by
  show Ideal.ofBits .f32 0x47435000#32 = _
  simp [Ideal.ofBits, Ideal.ieee, -EReal.coe_mul]; norm_num

theorem c0_val (i : S_.Idx) : c0 i = 0 := by
  show Ideal.ofBits .f32 0x00000000#32 = _
  exact Ideal.ofBits_zero_f32

theorem nMinus_val (i : S_.Idx) : nMinus i = ((50000 : ℝ) : EReal) := by
  show cN i - ((((0#32 : BitVec 32).toInt : ℤ) : ℝ) : EReal) = _
  rw [cN_val]; simp

theorem hRed : Shape.Reduces S50000x128 [0] S128 := by decide

theorem colSum_apply (a : FVec Ideal S50000x128 .f32) (j : S128.Idx) :
    colSum a j = ∑ k : Fin 50000, a (hRed.lift j k) := by
  unfold colSum
  rw [hostReduceAdd_apply, Ideal.hostReduceAdd_single _ hRed, c0_val, zero_add]
  rfl

theorem row128_apply (v : FVec Ideal S128 .f32) (i : S1x128.Idx) : row128 v i = v (ix1 (i 1)) := by
  unfold row128 broadcastInDim
  exact congrArg v (funext fun a => by match a with | ⟨0, _⟩ => rfl)

theorem rows128_apply (r : FVec Ideal S1x128 .f32) (p : S50000x128.Idx) : rows128 r p = r (ix2 (0 : Fin 1) (p 1)) := by
  unfold rows128 broadcastInDim
  exact congrArg r (funext fun a => by match a with | ⟨0, _⟩ => rfl | ⟨1, _⟩ => rfl)

theorem col_lift (j : S128.Idx) (k : Fin 50000) : ix1 ((ix2 (0 : Fin 1) ((hRed.lift j k) 1)) 1) = j := by
  funext d; match d with | ⟨0, _⟩ => exact Fin.ext rfl

theorem centred_apply (a : FVec Ideal S50000x128 .f32) (j : S128.Idx) (k : Fin 50000) :
    centred a (hRed.lift j k) = a (hRed.lift j k) - Ideal.div (colSum a j) ((50000 : ℝ) : EReal) := by
  unfold centred
  rw [subf_apply, rows128_apply, hostDivf_apply, row128_apply, broadcastInDim_scalar_apply, cN_val]
  exact congrArg (fun t => a (hRed.lift j k) - Ideal.div (colSum a t) ((50000 : ℝ) : EReal)) (col_lift j k)

theorem mean_apply (a : FVec Ideal S50000x128 .f32) (j : S128.Idx) :
    mean a j = Ideal.div (colSum a j) ((50000 : ℝ) : EReal) := by
  unfold mean
  rw [hostDivf_apply, broadcastInDim_scalar_apply, cN_val]

theorem var_apply (a : FVec Ideal S50000x128 .f32) (j : S128.Idx) :
    var a j = Ideal.div (colSum (mulf (centred a) (centred a)) j) ((50000 : ℝ) : EReal) := by
  have hg : Ideal.cmp .ogt ((50000 : ℝ) : EReal) 0 = 1#1 := by
    have : (0 : EReal) < ((50000 : ℝ) : EReal) := EReal.coe_pos.mpr (by norm_num)
    simp [Ideal.cmp, this]
  unfold var
  rw [select_apply, broadcastInDim_scalar_apply, cmpf_apply, Ideal.cmpf_def, nMinus_val, c0_val, hg, select_one,
    hostDivf_apply, broadcastInDim_scalar_apply, nMinus_val]

/-- On a real-valued array the two spellings of a column's variance agree, and the value is a nonnegative real. -/
theorem var_col (a : FVec Ideal S50000x128 .f32) (ha : IsReal a) (j : S128.Idx) :
    ∃ r : ℝ, 0 ≤ r ∧ var a j = (r : EReal)
      ∧ Ideal.div (colSum (mulf a a) j) ((50000 : ℝ) : EReal) - mean a j * mean a j = (r : EReal) := by
  choose x hx using ha
  have hN : (50000 : ℝ) ≠ 0 := by norm_num
  have hc : (Fintype.card (Fin 50000) : ℝ) = 50000 := by rw [Fintype.card_fin]; norm_num
  refine ⟨(∑ k : Fin 50000, (x (hRed.lift j k) - (∑ l : Fin 50000, x (hRed.lift j l)) * (1 / 50000))
      * (x (hRed.lift j k) - (∑ l : Fin 50000, x (hRed.lift j l)) * (1 / 50000))) * (1 / 50000), ?_, ?_, ?_⟩
  · exact mul_nonneg (Finset.sum_nonneg fun k _ => mul_self_nonneg _) (by norm_num)
  · rw [var_apply, colSum_apply]
    simp only [mulf_apply, centred_apply, colSum_apply, hx, Ideal.div_coe hN, ← coe_sum, ← EReal.coe_mul, ← EReal.coe_sub]
  · rw [mean_apply, colSum_apply, colSum_apply]
    simp only [mulf_apply, hx, Ideal.div_coe hN, ← coe_sum, ← EReal.coe_mul, ← EReal.coe_sub]
    exact congrArg _ (real_var_identity (fun k : Fin 50000 => x (hRed.lift j k)) 50000 hN hc).symm

end BnAlgebra

open BnAlgebra

theorem mean_row (a : FVec Ideal S50000x128 .f32) :
    Host.divf (row128 (colSum a)) (broadcastInDim S1x128 ![] bcast_S_S1x128 cN) = row128 (mean a) := by
  funext i
  rw [hostDivf_apply, row128_apply, row128_apply, broadcastInDim_scalar_apply, cN_val, mean_apply]

theorem var_row (a : FVec Ideal S50000x128 .f32) (ha : IsReal a) :
    subf (Host.divf (row128 (colSum (mulf a a))) (broadcastInDim S1x128 ![] bcast_S_S1x128 cN))
        (mulf (row128 (mean a)) (row128 (mean a))) = row128 (var a) := by
  funext i
  obtain ⟨r, -, hv, hm⟩ := var_col a ha (ix1 (i 1))
  rw [subf_apply, hostDivf_apply, mulf_apply, row128_apply, row128_apply, row128_apply, broadcastInDim_scalar_apply,
    cN_val, hm, hv]

theorem inv_row (a : FVec Ideal S50000x128 .f32) :
    Host.rsqrt (addf (row128 (var a)) (broadcastInDim S1x128 ![] bcast_S_S1x128 cEps)) = row128 (invStd a) := by
  funext i
  rw [row128_apply]
  unfold invStd
  show FloatOps.hostUnary .rsqrt (row128 (var a) i + broadcastInDim S1x128 ![] bcast_S_S1x128 cEps i)
    = FloatOps.hostUnary .rsqrt (var a (ix1 (i 1)) + broadcastInDim S128 ![] bcast_S_S128 cEps (ix1 (i 1)))
  rw [row128_apply, broadcastInDim_scalar_apply, broadcastInDim_scalar_apply]

/-- Normalising with the mean and `E[a²] - E[a]²` rows is normalising with the mean and the centred variance. -/
theorem bn_bridge (a : FVec Ideal S50000x128 .f32) (g be : FVec Ideal S128 .f32) (ha : IsReal a) :
    affine a (Host.divf (row128 (colSum a)) (broadcastInDim S1x128 ![] bcast_S_S1x128 cN))
      (Host.rsqrt (addf (subf (Host.divf (row128 (colSum (mulf a a))) (broadcastInDim S1x128 ![] bcast_S_S1x128 cN))
        (mulf (Host.divf (row128 (colSum a)) (broadcastInDim S1x128 ![] bcast_S_S1x128 cN))
          (Host.divf (row128 (colSum a)) (broadcastInDim S1x128 ![] bcast_S_S1x128 cN))))
        (broadcastInDim S1x128 ![] bcast_S_S1x128 cEps)))
      (row128 g) (row128 be) = bn a g be := by
  rw [mean_row a, var_row a ha, inv_row a]
  rfl

theorem var_nonneg_real (a : FVec Ideal S50000x128 .f32) (ha : IsReal a) :
    ∀ j, ∃ r : ℝ, 0 ≤ r ∧ var a j = (r : EReal) := fun j => by
  obtain ⟨r, h0, hv, -⟩ := var_col a ha j
  exact ⟨r, h0, hv⟩

end Cert.Spec

end
-- ==== Proof.LibReal.lean ====
import Idealize.ShloMosaic.PureOps.Ideal

noncomputable section

open scoped BigOperators

namespace Cert.RealVal

open Idealize.ShloMosaic

/-- `x` is a real number, not an infinity: sums and products of such are again such. -/
def IsReal (x : EReal) : Prop := ∃ r : ℝ, x = (r : EReal)

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem isReal_sum {ι : Type*} (s : Finset ι) (f : ι → EReal) (hf : ∀ i ∈ s, IsReal (f i)) : IsReal (∑ i ∈ s, f i) :=
  Finset.sum_induction f IsReal (fun _ _ => IsReal.add) isReal_zero hf

end Cert.RealVal

end
-- ==== Proof.Reals.lean ====
import proofs.«431361_j18107582120395_1_alg».proof.Proof.Spec
import proofs.«431361_j18107582120395_1_alg».proof.Proof.LibReal
import Idealize.ShloMosaic.PureOps.Ideal.Laws

noncomputable section

open scoped BigOperators

namespace Cert.Spec.Sc

open Idealize.ShloMosaic Cert.RealVal

theorem sub {x y : EReal} (hx : RealVal.IsReal x) (hy : RealVal.IsReal y) : RealVal.IsReal (x - y) := by
  obtain ⟨a, rfl⟩ := hx; obtain ⟨b, rfl⟩ := hy; exact ⟨a - b, (EReal.coe_sub a b).symm⟩

theorem max {x y : EReal} (hx : RealVal.IsReal x) (hy : RealVal.IsReal y) : RealVal.IsReal (Max.max x y) := by
  rcases le_total x y with h | h
  · rw [max_eq_right h]; exact hy
  · rw [max_eq_left h]; exact hx

theorem div_coe {x : EReal} (hx : RealVal.IsReal x) {y : ℝ} (hy : y ≠ 0) : RealVal.IsReal (Ideal.div x (y : EReal)) := by
  obtain ⟨a, rfl⟩ := hx
  rw [Ideal.div_coe hy]; exact ⟨a * (1 / y), (EReal.coe_mul _ _).symm⟩

/-- Nonnegative and positive reals: what a variance and a degree are, so that `1/√` of them is real. -/
def IsNonneg (x : EReal) : Prop := ∃ r : ℝ, 0 ≤ r ∧ x = (r : EReal)

def IsPos (x : EReal) : Prop := ∃ r : ℝ, 0 < r ∧ x = (r : EReal)

theorem IsPos.isNonneg {x : EReal} (h : IsPos x) : IsNonneg x := by
  obtain ⟨r, hr, rfl⟩ := h; exact ⟨r, hr.le, rfl⟩
theorem isNonneg_zero : IsNonneg 0 := ⟨0, le_rfl, rfl⟩

theorem IsNonneg.add {x y : EReal} (hx : IsNonneg x) (hy : IsNonneg y) : IsNonneg (x + y) := by
  obtain ⟨a, ha, rfl⟩ := hx; obtain ⟨b, hb, rfl⟩ := hy
  exact ⟨a + b, add_nonneg ha hb, (EReal.coe_add a b).symm⟩

theorem IsNonneg.add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩

theorem isNonneg_sum {ι : Type*} (s : Finset ι) (f : ι → EReal) (hf : ∀ i ∈ s, IsNonneg (f i)) : IsNonneg (∑ i ∈ s, f i) :=
  Finset.sum_induction f IsNonneg (fun _ _ => IsNonneg.add) isNonneg_zero hf

theorem IsPos.rsqrt {x : EReal} (h : IsPos x) : RealVal.IsReal (Ideal.rsqrt x) := by
  obtain ⟨r, hr, rfl⟩ := h
  rw [Ideal.rsqrt_coe, if_neg (not_lt.mpr hr.le), if_neg hr.ne']; exact ⟨_, rfl⟩

theorem ieee_isPos {e m w : Nat} (b : BitVec w) (hs : (b.extractLsb' (e + m) 1 == 1#1) = false)
    (h1 : (b.extractLsb' m e).toNat ≠ 2 ^ e - 1) (h0 : (b.extractLsb' m e).toNat ≠ 0) : IsPos (Ideal.ieee e m b) := by
  simp only [Ideal.ieee, if_neg h1, if_neg h0, hs, Bool.false_eq_true, if_false]
  exact ⟨_, by positivity, rfl⟩

end Cert.Spec.Sc

namespace Cert.Spec

open Idealize.ShloMosaic Cert.ReferenceIdeal

variable [Cert.ReferenceIdeal.Facts]
open Cert.ReferenceIdeal.Facts₀

section Generic

variable {s t : Shape}

def IsNonnegV (v : FVec Ideal s .f32) : Prop := ∀ i, Sc.IsNonneg (v i)
def IsPosV (v : FVec Ideal s .f32) : Prop := ∀ i, Sc.IsPos (v i)

/-- Entrywise operations and finite sums keep real-valued arrays real-valued; so does a re-layout, each of whose entries is an entry of its operand. -/
theorem isReal_addf {x y : FVec Ideal s .f32} (hx : IsReal x) (hy : IsReal y) : IsReal (addf x y) :=
  fun i => RealVal.IsReal.add (hx i) (hy i)
theorem isReal_subf {x y : FVec Ideal s .f32} (hx : IsReal x) (hy : IsReal y) : IsReal (subf x y) :=
  fun i => Sc.sub (hx i) (hy i)
theorem isReal_mulf {x y : FVec Ideal s .f32} (hx : IsReal x) (hy : IsReal y) : IsReal (mulf x y) :=
  fun i => RealVal.IsReal.mul (hx i) (hy i)
theorem isReal_maximumf {x y : FVec Ideal s .f32} (hx : IsReal x) (hy : IsReal y) : IsReal (maximumf x y) :=
  fun i => Sc.max (hx i) (hy i)

theorem isPosV_addf {x y : FVec Ideal s .f32} (hx : IsNonnegV x) (hy : IsPosV y) : IsPosV (addf x y) :=
  fun i => Sc.IsNonneg.add_pos (hx i) (hy i)

theorem isReal_scatterAdd {si u : Shape} {w : Nat} (d : ScatterDims s si u) {x : FVec Ideal s .f32} (idx : IVec si w)
    {upd : FVec Ideal u .f32} (hx : IsReal x) (hu : IsReal upd) : IsReal (Host.scatterAdd d x idx upd) :=
  fun i => RealVal.IsReal.add (hx i) (RealVal.isReal_sum _ _ fun j _ => hu j)
theorem isNonnegV_scatterAdd {si u : Shape} {w : Nat} (d : ScatterDims s si u) {x : FVec Ideal s .f32} (idx : IVec si w)
    {upd : FVec Ideal u .f32} (hx : IsNonnegV x) (hu : IsNonnegV upd) : IsNonnegV (Host.scatterAdd d x idx upd) :=
  fun i => Sc.IsNonneg.add (hx i) (Sc.isNonneg_sum _ _ fun j _ => hu j)

theorem isReal_reduceAdd {u : Shape} {axes : List (Fin s.rank)} {x : FVec Ideal s .f32} {init : FVec Ideal u .f32}
    (h : s.ReducesTo axes t) (hu : 0 < u.numel) (hx : IsReal x) (hi : IsReal init) : IsReal (Host.reduceAdd x init h hu) :=
  fun _ => RealVal.IsReal.add (hi _) (RealVal.isReal_sum _ _ fun i _ => hx i)

theorem isReal_dotGeneral {sl sr so : Shape} (d : DotDims sl sr so) (prec : Option ContractPrecision)
    {l : FVec Ideal sl .f32} {r : FVec Ideal sr .f32} (hl : IsReal l) (hr : IsReal r) : IsReal (Host.dotGeneral d prec l r) := by
  intro j
  show RealVal.IsReal (FloatOps.dotGeneral d prec HostSchedule.single l r j)
  rw [Ideal.dotGeneral_apply]
  exact RealVal.isReal_sum _ _ fun k _ => RealVal.IsReal.mul (hl _) (hr _)

theorem isReal_hostDivf {x y : FVec Ideal s .f32} (hx : IsReal x) (hy : IsPosV y) : IsReal (Host.divf x y) := by
  intro i
  obtain ⟨r, hr, e⟩ := hy i
  show RealVal.IsReal (Ideal.div (x i) (y i))
  rw [e]; exact Sc.div_coe (hx i) hr.ne'

theorem isReal_hostRsqrt {x : FVec Ideal s .f32} (hx : IsPosV x) : IsReal (Host.rsqrt x) :=
  fun i => (hx i).rsqrt

end Generic

theorem c0_apply (i : S_.Idx) : c0 i = 0 := Ideal.ofBits_zero_f32
theorem real_c0 : IsReal c0 := fun i => ⟨0, c0_apply i⟩
theorem nonneg_c0 : IsNonnegV c0 := fun i => ⟨0, le_rfl, c0_apply i⟩

theorem pos_c1 : IsPosV c1 := fun _ => Sc.ieee_isPos (e := 8) (m := 23) 0x3F800000#32 (by decide) (by decide) (by decide)
theorem pos_cN : IsPosV cN := fun _ => Sc.ieee_isPos (e := 8) (m := 23) 0x47435000#32 (by decide) (by decide) (by decide)
theorem pos_cEps : IsPosV cEps := fun _ => Sc.ieee_isPos (e := 8) (m := 23) 0x3727C5AC#32 (by decide) (by decide) (by decide)

theorem real_dis (ei : IVec S2x800000 32) : IsReal (dis ei) :=
  isReal_hostRsqrt (isPosV_addf (isNonnegV_scatterAdd _ _ (fun _ => nonneg_c0 _) fun _ => (pos_c1 _).isNonneg) fun _ => pos_c1 _)

theorem real_enorm (ei : IVec S2x800000 32) : IsReal (enorm ei) :=
  isReal_mulf (fun _ => real_dis ei _) fun _ => real_dis ei _

theorem real_snorm (ei : IVec S2x800000 32) : IsReal (snorm ei) := isReal_mulf (real_dis ei) (real_dis ei)

theorem real_gcn (ei : IVec S2x800000 32) (h : FVec Ideal S50000x128 .f32) (W : FVec Ideal S128x128 .f32) (b : FVec Ideal S128 .f32)
    (hh : IsReal h) (hW : IsReal W) (hb : IsReal b) : IsReal (gcn ei h W b) :=
  have hl : IsReal (lin h W) := isReal_dotGeneral _ _ hh hW
  isReal_maximumf (isReal_addf (isReal_addf
    (isReal_scatterAdd _ _ (fun _ => real_c0 _) (isReal_mulf (fun _ => hl _) fun _ => real_enorm ei _))
    (isReal_mulf hl fun _ => real_snorm ei _)) fun _ => hb _) fun _ => real_c0 _

theorem real_bn (a : FVec Ideal S50000x128 .f32) (g be : FVec Ideal S128 .f32) (ha : IsReal a) (hg : IsReal g) (hbe : IsReal be)
    (hv : ∀ j, ∃ r : ℝ, 0 ≤ r ∧ var a j = (r : EReal)) : IsReal (bn a g be) :=
  have hm : IsReal (mean a) := isReal_hostDivf (isReal_reduceAdd _ _ ha real_c0) fun _ => pos_cN _
  have hi : IsReal (invStd a) := isReal_hostRsqrt (isPosV_addf (x := var a) hv fun _ => pos_cEps _)
  isReal_addf (isReal_mulf (isReal_mulf (isReal_subf ha fun _ => hm _) fun _ => hi _) fun _ => hg _) fun _ => hbe _

theorem real_mat (k : Fin 2) (Ws : FVec Ideal S2x128x128 .f32) (h : IsReal Ws) : IsReal (mat k Ws) := by
  match k with
  | ⟨0, _⟩ => exact fun _ => h _
  | ⟨1, _⟩ => exact fun _ => h _

theorem real_vec (k : Fin 2) (v : FVec Ideal S2x128 .f32) (h : IsReal v) : IsReal (vec k v) := by
  match k with
  | ⟨0, _⟩ => exact fun _ => h _
  | ⟨1, _⟩ => exact fun _ => h _

end Cert.Spec

end
-- ==== Proof.KValue.lean ====
import proofs.«431361_j18107582120395_1_alg».proof.Proof.KCarry
import proofs.«431361_j18107582120395_1_alg».proof.Proof.KHost0
import proofs.«431361_j18107582120395_1_alg».proof.Proof.KHostRest
import proofs.«431361_j18107582120395_1_alg».proof.Proof.RegLinear
import proofs.«431361_j18107582120395_1_alg».proof.Proof.RegCombine
import proofs.«431361_j18107582120395_1_alg».proof.Proof.RegStats4
import proofs.«431361_j18107582120395_1_alg».proof.Proof.RegStats8
import proofs.«431361_j18107582120395_1_alg».proof.Proof.RegAffine5
import proofs.«431361_j18107582120395_1_alg».proof.Proof.RegAffine9
import proofs.«431361_j18107582120395_1_alg».proof.Proof.RegPool
import proofs.«431361_j18107582120395_1_alg».proof.Proof.RegHead
import proofs.«431361_j18107582120395_1_alg».proof.Proof.BnAlgebra
import proofs.«431361_j18107582120395_1_alg».proof.Proof.Reals
import proofs.«431361_j18107582120395_1_alg».proof.Proof.PoolAlgebra

set_option maxRecDepth 16384

noncomputable section

namespace Cert.KernelIdeal.KValue

open Idealize.ShloMosaic Idealize.ShloMosaic.TcCoe Idealize.ShloMosaic.StableHlo Cert.KernelIdeal Cert.KernelIdeal.Gen
open Cert.KernelIdeal.KCarry Cert.KernelIdeal.KHost Cert.KernelIdeal.RegValue Cert.Spec

variable (m : (ℓ : Loc nD τ sig) → Buf (Elt Ideal) ℓ) (ρ : Dev nD → PrngReg) (c : Dev nD)

/-- Buffer `b` as launched; the three convolutions' outputs before and after normalisation; the network's output. -/
abbrev arg (b : Ref sig .tc) := m ((c : Thread nD τ).loc b)
abbrev h1 := gcn (arg m c main_arg1) (arg m c main_arg0) (arg m c main_arg3) (arg m c main_arg4)
abbrev a2 := gcn (arg m c main_arg1) (h1 m c) (mat 0 (arg m c main_arg5)) (vec 0 (arg m c main_arg6))
abbrev h2 := bn (a2 m c) (vec 0 (arg m c main_arg7)) (vec 0 (arg m c main_arg8))
abbrev a3 := gcn (arg m c main_arg1) (h2 m c) (mat 1 (arg m c main_arg5)) (vec 1 (arg m c main_arg6))
abbrev nodesOf := nodes (arg m c main_arg0) (arg m c main_arg1) (arg m c main_arg3) (arg m c main_arg4) (arg m c main_arg5) (arg m c main_arg6) (arg m c main_arg7) (arg m c main_arg8)
abbrev outOf := out (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18)

theorem W1_src : W1 m ρ c (Proc.devRef .tc main_v1) = src (arg m c main_arg1) := h0_src (W0 m ρ c)
theorem W1_dst : W1 m ρ c (Proc.devRef .tc main_v3) = dst (arg m c main_arg1) := h0_dst (W0 m ρ c)
theorem W1_enorm : W1 m ρ c (Proc.devRef .tc main_v25) = enorm (arg m c main_arg1) := h0_enorm (W0 m ρ c)
theorem W1_sncol : W1 m ρ c (Proc.devRef .tc main_v27) = col50000 (snorm (arg m c main_arg1)) := h0_sncol (W0 m ρ c)

theorem W2_lin : W2 m ρ c (Proc.devRef .tc main_v28) = lin (arg m c main_arg0) (arg m c main_arg3) := by
  refine (W2_arr m ρ c 2).trans ?_
  rw [linear0]
  show lin (W1 m ρ c (Proc.devRef .tc main_arg0)) (W1 m ρ c (Proc.devRef .tc main_arg3)) = _
  rw [carry_arg0_1, carry_arg3_1]

theorem W4_h1 : W4 m ρ c (Proc.devRef .tc main_v43) = h1 m c := by
  refine (W4_arr m ρ c 4).trans ?_
  rw [combine1]
  show combine (after hostOps1 (W2 m ρ c) (Proc.devRef .tc main_v41)) (W3 m ρ c (Proc.devRef .tc main_v28)) (W3 m ρ c (Proc.devRef .tc main_v27))
    (after hostOps1 (W2 m ρ c) (Proc.devRef .tc main_v42)) = _
  rw [h1_agg, h1_brow, carry_v28_3, carry_v27_3, carry_v1_2, carry_v3_2, carry_v25_2, carry_arg4_2, W2_lin, W1_sncol, W1_src, W1_dst,
    W1_enorm]
  rfl

theorem W6_lin : W6 m ρ c (Proc.devRef .tc main_v48) = lin (h1 m c) (mat 0 (arg m c main_arg5)) := by
  refine (W6_arr m ρ c 2).trans ?_
  rw [linear2]
  show lin (W5 m ρ c (Proc.devRef .tc main_v43)) (after hostOps2 (W4 m ρ c) (Proc.devRef .tc main_v45)) = _
  rw [h2_mat, carry_v43_5, carry_arg5_4, W4_h1]

theorem W5_bias : W5 m ρ c (Proc.devRef .tc main_v47) = vec 0 (arg m c main_arg6) := by
  show after hostOps2 (W4 m ρ c) (Proc.devRef .tc main_v47) = _
  rw [h2_vec, carry_arg6_4]

theorem W8_a2 : W8 m ρ c (Proc.devRef .tc main_v63) = a2 m c := by
  refine (W8_arr m ρ c 4).trans ?_
  rw [combine3]
  show combine (after hostOps3 (W6 m ρ c) (Proc.devRef .tc main_v61)) (W7 m ρ c (Proc.devRef .tc main_v48)) (W7 m ρ c (Proc.devRef .tc main_v27))
    (after hostOps3 (W6 m ρ c) (Proc.devRef .tc main_v62)) = _
  rw [h3_agg, h3_brow, carry_v48_7, carry_v27_7, carry_v1_6, carry_v3_6, carry_v25_6, carry_v47_6, W6_lin, W5_bias, W1_sncol, W1_src,
    W1_dst, W1_enorm]
  rfl

theorem W9_sum : W9 m ρ c (Proc.devRef .tc main_v64_0) = row128 (colSum (W8 m ρ c (Proc.devRef .tc main_v63))) :=
  (W9_arr m ρ c 1).trans (stats4_sum (V8 m ρ) c)
theorem W9_sq : W9 m ρ c (Proc.devRef .tc main_v64_1) = row128 (colSum (mulf (W8 m ρ c (Proc.devRef .tc main_v63)) (W8 m ρ c (Proc.devRef .tc main_v63)))) :=
  (W9_arr m ρ c 2).trans (stats4_sq (V8 m ρ) c)

theorem W11_h2 (ha : IsReal (a2 m c)) :
    W11 m ρ c (Proc.devRef .tc main_v80) = h2 m c := by
  refine (W11_arr m ρ c 5).trans ?_
  rw [affine5]
  show affine (W10 m ρ c (Proc.devRef .tc main_v63)) (after hostOps5 (W9 m ρ c) (Proc.devRef .tc main_v66)) (after hostOps5 (W9 m ρ c) (Proc.devRef .tc main_v73))
    (after hostOps5 (W9 m ρ c) (Proc.devRef .tc main_v76)) (after hostOps5 (W9 m ρ c) (Proc.devRef .tc main_v79)) = _
  rw [h5_mu, h5_inv, h5_g, h5_be, carry_v63_10, W9_sum, W9_sq, carry_arg7_9, carry_arg8_9, W8_a2]
  exact bn_bridge _ _ _ ha

theorem W13_lin (ha : IsReal (a2 m c)) :
    W13 m ρ c (Proc.devRef .tc main_v85) = lin (h2 m c) (mat 1 (arg m c main_arg5)) := by
  refine (W13_arr m ρ c 2).trans ?_
  rw [linear6]
  show lin (W12 m ρ c (Proc.devRef .tc main_v80)) (after hostOps6 (W11 m ρ c) (Proc.devRef .tc main_v82)) = _
  rw [h6_mat, carry_v80_12, carry_arg5_11, W11_h2 m ρ c ha]

theorem W12_bias : W12 m ρ c (Proc.devRef .tc main_v84) = vec 1 (arg m c main_arg6) := by
  show after hostOps6 (W11 m ρ c) (Proc.devRef .tc main_v84) = _
  rw [h6_vec, carry_arg6_11]

theorem W15_a3 (ha : IsReal (a2 m c)) :
    W15 m ρ c (Proc.devRef .tc main_v100)
      = a3 m c := by
  refine (W15_arr m ρ c 4).trans ?_
  rw [combine7]
  show combine (after hostOps7 (W13 m ρ c) (Proc.devRef .tc main_v98)) (W14 m ρ c (Proc.devRef .tc main_v85)) (W14 m ρ c (Proc.devRef .tc main_v27))
    (after hostOps7 (W13 m ρ c) (Proc.devRef .tc main_v99)) = _
  rw [h7_agg, h7_brow, carry_v85_14, carry_v27_14, carry_v1_13, carry_v3_13, carry_v25_13, carry_v84_13, W13_lin m ρ c ha, W12_bias,
    W1_sncol, W1_src, W1_dst, W1_enorm]
  rfl

theorem W16_sum : W16 m ρ c (Proc.devRef .tc main_v101_0) = row128 (colSum (W15 m ρ c (Proc.devRef .tc main_v100))) :=
  (W16_arr m ρ c 1).trans (stats8_sum (V15 m ρ) c)
theorem W16_sq : W16 m ρ c (Proc.devRef .tc main_v101_1) = row128 (colSum (mulf (W15 m ρ c (Proc.devRef .tc main_v100)) (W15 m ρ c (Proc.devRef .tc main_v100)))) :=
  (W16_arr m ρ c 2).trans (stats8_sq (V15 m ρ) c)

theorem W18_nodes (ha : IsReal (a2 m c))
    (ha' : IsReal (a3 m c)) :
    W18 m ρ c (Proc.devRef .tc main_v117) = nodesOf m c := by
  refine (W18_arr m ρ c 5).trans ?_
  rw [affine9]
  show affine (W17 m ρ c (Proc.devRef .tc main_v100)) (after hostOps9 (W16 m ρ c) (Proc.devRef .tc main_v103)) (after hostOps9 (W16 m ρ c) (Proc.devRef .tc main_v110))
    (after hostOps9 (W16 m ρ c) (Proc.devRef .tc main_v113)) (after hostOps9 (W16 m ρ c) (Proc.devRef .tc main_v116)) = _
  rw [h9_mu, h9_inv, h9_g, h9_be, carry_v100_17, W16_sum, W16_sq, carry_arg7_16, carry_arg8_16, W15_a3 m ρ c ha]
  exact bn_bridge _ _ _ ha'

theorem W20_pool (ha : IsReal (a2 m c))
    (ha' : IsReal (a3 m c)) :
    W20 m ρ c (Proc.devRef .tc main_v125) = pool (arg m c main_arg2) (nodesOf m c) := by
  refine (W20_arr m ρ c 2).trans ?_
  rw [pool10]
  show poolMM (after hostOps10 (W18 m ρ c) (Proc.devRef .tc main_v124)) (W19 m ρ c (Proc.devRef .tc main_v117)) = _
  rw [h10_onehot, carry_v117_19, carry_arg2_18, W18_nodes m ρ c ha ha']
  exact pool_eq _ _

theorem W22_out (ha : IsReal (a2 m c))
    (ha' : IsReal (a3 m c)) :
    W22 m ρ c (Proc.devRef .tc main_v133)
      = outOf m c := by
  refine (W22_arr m ρ c 11).trans ?_
  rw [Head.head11]
  show head (W21 m ρ c (Proc.devRef .tc main_v125)) (W21 m ρ c (Proc.devRef .tc main_arg9)) (after hostOps11 (W20 m ρ c) (Proc.devRef .tc main_v126))
    (after hostOps11 (W20 m ρ c) (Proc.devRef .tc main_v127)) (after hostOps11 (W20 m ρ c) (Proc.devRef .tc main_v128)) (W21 m ρ c (Proc.devRef .tc main_arg13))
    (after hostOps11 (W20 m ρ c) (Proc.devRef .tc main_v129)) (after hostOps11 (W20 m ρ c) (Proc.devRef .tc main_v130)) (after hostOps11 (W20 m ρ c) (Proc.devRef .tc main_v131))
    (W21 m ρ c (Proc.devRef .tc main_arg17)) (after hostOps11 (W20 m ρ c) (Proc.devRef .tc main_v132)) = _
  rw [h11_b1, h11_g1, h11_be1, h11_b2, h11_g2, h11_be2, h11_bo, carry_v125_21, carry_arg9_21, carry_arg13_21, carry_arg17_21,
    carry_arg10_20, carry_arg11_20, carry_arg12_20, carry_arg14_20, carry_arg15_20, carry_arg16_20, carry_arg18_20,
    W20_pool m ρ c ha ha']
  rfl

end Cert.KernelIdeal.KValue

end
-- ==== Proof.RefSegs.lean ====
import proofs.«431361_j18107582120395_1_alg».proof.ReferenceIdeal
import proofs.«431361_j18107582120395_1_alg».proof.Proof.Gen.ReferenceIdeal
import Idealize.ShloMosaic.Lib.StableHlo.Run

noncomputable section

namespace Cert.ReferenceIdeal.RefRun

open Idealize.ShloMosaic Idealize.ShloMosaic.TcCoe Idealize.ShloMosaic.StableHlo Idealize.SL.Sem Cert.ReferenceIdeal
open Cert.ReferenceIdeal.Facts₀

variable {F : FTy → Type} [FloatOps F]

-- edge endpoints, node degrees, the edges' and self-loops' weights
abbrev seg0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (addf : (⟨S50000, .f32⟩ : BufTy).Contents (Elt F) → (⟨S50000, .f32⟩ : BufTy).Contents (Elt F) → (⟨S50000, .f32⟩ : BufTy).Contents (Elt F)),
    unary main_v9 main_v10 (Host.rsqrt : (⟨S50000, .f32⟩ : BufTy).Contents (Elt F) → (⟨S50000, .f32⟩ : BufTy).Contents (Elt F)),
    nullary main_c (constantI S_ 32 0#32),
    unary main_c main_v11 (broadcastInDim S800000 ![] bcast_S_S800000 : (⟨S_, .i32⟩ : BufTy).Contents (Elt F) → (⟨S800000, .i32⟩ : BufTy).Contents (Elt F)),
    binary main_v1 main_v11 main_v12 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v13 (broadcastInDim S800000 ![] bcast_S_S800000 : (⟨S_, .i32⟩ : BufTy).Contents (Elt F) → (⟨S800000, .i32⟩ : BufTy).Contents (Elt F)),
    binary main_v1 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v1 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_v10 main_v16 main_v17 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_3 (constantI S_ 32 0#32),
    unary main_c_3 main_v18 (broadcastInDim S800000 ![] bcast_S_S800000 : (⟨S_, .i32⟩ : BufTy).Contents (Elt F) → (⟨S800000, .i32⟩ : BufTy).Contents (Elt F)),
    binary main_v3 main_v18 main_v19 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v20 (broadcastInDim S800000 ![] bcast_S_S800000 : (⟨S_, .i32⟩ : BufTy).Contents (Elt F) → (⟨S800000, .i32⟩ : BufTy).Contents (Elt F)),
    binary main_v3 main_v20 main_v21 (addi : (⟨S800000, .i32⟩ : BufTy).Contents (Elt F) → (⟨S800000, .i32⟩ : BufTy).Contents (Elt F) → (⟨S800000, .i32⟩ : BufTy).Contents (Elt F)),
    ternary main_v19 main_v21 main_v3 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v22 main_v23 (broadcastInDim S800000x1 ![0] bcast_S800000_S800000x1_0 : (⟨S800000, .i32⟩ : BufTy).Contents (Elt F) → (⟨S800000x1, .i32⟩ : BufTy).Contents (Elt F)),
    binary main_v10 main_v23 main_v24 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v17 main_v24 main_v25 (mulf : (⟨S800000, .f32⟩ : BufTy).Contents (Elt F) → (⟨S800000, .f32⟩ : BufTy).Contents (Elt F) → (⟨S800000, .f32⟩ : BufTy).Contents (Elt F)),
    binary main_v10 main_v10 main_v26 (mulf : (⟨S50000, .f32⟩ : BufTy).Contents (Elt F) → (⟨S50000, .f32⟩ : BufTy).Contents (Elt F) → (⟨S50000, .f32⟩ : BufTy).Contents (Elt F)) ]

-- first convolution
abbrev seg1 : List (HloOp τ sig (Elt F)) :=
  [ binary main_arg0 main_arg3 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_5 (constantI S_ 32 0#32),
    unary main_c_5 main_v28 (broadcastInDim S800000 ![] bcast_S_S800000 : (⟨S_, .i32⟩ : BufTy).Contents (Elt F) → (⟨S800000, .i32⟩ : BufTy).Contents (Elt F)),
    binary main_v1 main_v28 main_v29 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v30 (broadcastInDim S800000 ![] bcast_S_S800000 : (⟨S_, .i32⟩ : BufTy).Contents (Elt F) → (⟨S800000, .i32⟩ : BufTy).Contents (Elt F)),
    binary main_v1 main_v30 main_v31 (addi : (⟨S800000, .i32⟩ : BufTy).Contents (Elt F) → (⟨S800000, .i32⟩ : BufTy).Contents (Elt F) → (⟨S800000, .i32⟩ : BufTy).Contents (Elt F)),
    ternary main_v29 main_v31 main_v1 main_v32 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v32 main_v33 (broadcastInDim S800000x1 ![0] bcast_S800000_S800000x1_0 : (⟨S800000, .i32⟩ : BufTy).Contents (Elt F) → (⟨S800000x1, .i32⟩ : BufTy).Contents (Elt F)),
    binary main_v27 main_v33 main_v34 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v25 main_v35 (broadcastInDim S800000x1 ![0] bcast_S800000_S800000x1_0 : (⟨S800000, .f32⟩ : BufTy).Contents (Elt F) → (⟨S800000x1, .f32⟩ : BufTy).Contents (Elt F)),
    unary main_v35 main_v36 (broadcastInDim S800000x128 ![0, 1] bcast_S800000x1_S800000x128_0_1 : (⟨S800000x1, .f32⟩ : BufTy).Contents (Elt F) → (⟨S800000x128, .f32⟩ : BufTy).Contents (Elt F)),
    binary main_v34 main_v36 main_v37 (mulf : (⟨S800000x128, .f32⟩ : BufTy).Contents (Elt F) → (⟨S800000x128, .f32⟩ : BufTy).Contents (Elt F) → (⟨S800000x128, .f32⟩ : BufTy).Contents (Elt F)),
    nullary main_cst_7 (constant S_ .f32 0x00000000#32),
    unary main_cst_7 main_v38 (broadcastInDim S50000x128 ![] bcast_S_S50000x128 : (⟨S_, .f32⟩ : BufTy).Contents (Elt F) → (⟨S50000x128, .f32⟩ : BufTy).Contents (Elt F)),
    unary main_v3 main_v39 (broadcastInDim S800000x1 ![0] bcast_S800000_S800000x1_0 : (⟨S800000, .i32⟩ : BufTy).Contents (Elt F) → (⟨S800000x1, .i32⟩ : BufTy).Contents (Elt F)),
    ternary main_v38 main_v39 main_v37 main_v40 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v26 main_v41 (broadcastInDim S50000x1 ![0] bcast_S50000_S50000x1_0 : (⟨S50000, .f32⟩ : BufTy).Contents (Elt F) → (⟨S50000x1, .f32⟩ : BufTy).Contents (Elt F)),
    unary main_v41 main_v42 (broadcastInDim S50000x128 ![0, 1] bcast_S50000x1_S50000x128_0_1 : (⟨S50000x1, .f32⟩ : BufTy).Contents (Elt F) → (⟨S50000x128, .f32⟩ : BufTy).Contents (Elt F)),
    binary main_v27 main_v42 main_v43 (mulf : (⟨S50000x128, .f32⟩ : BufTy).Contents (Elt F) → (⟨S50000x128, .f32⟩ : BufTy).Contents (Elt F) → (⟨S50000x128, .f32⟩ : BufTy).Contents (Elt F)),
    binary main_v40 main_v43 main_v44 (addf : (⟨S50000x128, .f32⟩ : BufTy).Contents (Elt F) → (⟨S50000x128, .f32⟩ : BufTy).Contents (Elt F) → (⟨S50000x128, .f32⟩ : BufTy).Contents (Elt F)),
    unary main_arg4 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v44 main_v46 main_v47 (addf : (⟨S50000x128, .f32⟩ : BufTy).Contents (Elt F) → (⟨S50000x128, .f32⟩ : BufTy).Contents (Elt F) → (⟨S50000x128, .f32⟩ : BufTy).Contents (Elt F)),
    TRef.nullary main_call0.cst (constant S_ .f32 0x00000000#32),
    TRef.unary main_call0.cst main_call0.v0 (broadcastInDim S50000x128 ![] bcast_S_S50000x128),
    TRef.binary (.of main_v47) main_call0.v0 main_call0.v1 maximumf ]

-- second layer's weight and bias
abbrev seg2 : List (HloOp τ sig (Elt F)) :=
  [ unary main_arg5 main_v49 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v49 main_v50 rfl shapeCasts_S1x128x128_S128x128,
    unary main_arg6 main_v51 ((extractStridedSlice S1x128 ![0, 0] · slices_S2x128_S1x128_0_0) : (⟨S2x128, .f32⟩ : BufTy).Contents (Elt F) → (⟨S1x128, .f32⟩ : BufTy).Contents (Elt F)),
    reshape main_v51 main_v52 rfl shapeCasts_S1x128_S128 ]

-- second convolution
abbrev seg3 : List (HloOp τ sig (Elt F)) :=
  [ binary main_v48 main_v50 main_v53 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_8 (constantI S_ 32 0#32),
    unary main_c_8 main_v54 (broadcastInDim S800000 ![] bcast_S_S800000 : (⟨S_, .i32⟩ : BufTy).Contents (Elt F) → (⟨S800000, .i32⟩ : BufTy).Contents (Elt F)),
    binary main_v1 main_v54 main_v55 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v56 (broadcastInDim S800000 ![] bcast_S_S800000 : (⟨S_, .i32⟩ : BufTy).Contents (Elt F) → (⟨S800000, .i32⟩ : BufTy).Contents (Elt F)),
    binary main_v1 main_v56 main_v57 (addi : (⟨S800000, .i32⟩ : BufTy).Contents (Elt F) → (⟨S800000, .i32⟩ : BufTy).Contents (Elt F) → (⟨S800000, .i32⟩ : BufTy).Contents (Elt F)),
    ternary main_v55 main_v57 main_v1 main_v58 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v58 main_v59 (broadcastInDim S800000x1 ![0] bcast_S800000_S800000x1_0 : (⟨S800000, .i32⟩ : BufTy).Contents (Elt F) → (⟨S800000x1, .i32⟩ : BufTy).Contents (Elt F)),
    binary main_v53 main_v59 main_v60 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v25 main_v61 (broadcastInDim S800000x1 ![0] bcast_S800000_S800000x1_0 : (⟨S800000, .f32⟩ : BufTy).Contents (Elt F) → (⟨S800000x1, .f32⟩ : BufTy).Contents (Elt F)),
    unary main_v61 main_v62 (broadcastInDim S800000x128 ![0, 1] bcast_S800000x1_S800000x128_0_1 : (⟨S800000x1, .f32⟩ : BufTy).Contents (Elt F) → (⟨S800000x128, .f32⟩ : BufTy).Contents (Elt F)),
    binary main_v60 main_v62 main_v63 (mulf : (⟨S800000x128, .f32⟩ : BufTy).Contents (Elt F) → (⟨S800000x128, .f32⟩ : BufTy).Contents (Elt F) → (⟨S800000x128, .f32⟩ : BufTy).Contents (Elt F)),
    nullary main_cst_10 (constant S_ .f32 0x00000000#32),
    unary main_cst_10 main_v64 (broadcastInDim S50000x128 ![] bcast_S_S50000x128 : (⟨S_, .f32⟩ : BufTy).Contents (Elt F) → (⟨S50000x128, .f32⟩ : BufTy).Contents (Elt F)),
    unary main_v3 main_v65 (broadcastInDim S800000x1 ![0] bcast_S800000_S800000x1_0 : (⟨S800000, .i32⟩ : BufTy).Contents (Elt F) → (⟨S800000x1, .i32⟩ : BufTy).Contents (Elt F)),
    ternary main_v64 main_v65 main_v63 main_v66 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v26 main_v67 (broadcastInDim S50000x1 ![0] bcast_S50000_S50000x1_0 : (⟨S50000, .f32⟩ : BufTy).Contents (Elt F) → (⟨S50000x1, .f32⟩ : BufTy).Contents (Elt F)),
    unary main_v67 main_v68 (broadcastInDim S50000x128 ![0, 1] bcast_S50000x1_S50000x128_0_1 : (⟨S50000x1, .f32⟩ : BufTy).Contents (Elt F) → (⟨S50000x128, .f32⟩ : BufTy).Contents (Elt F)),
    binary main_v53 main_v68 main_v69 (mulf : (⟨S50000x128, .f32⟩ : BufTy).Contents (Elt F) → (⟨S50000x128, .f32⟩ : BufTy).Contents (Elt F) → (⟨S50000x128, .f32⟩ : BufTy).Contents (Elt F)),
    binary main_v66 main_v69 main_v70 (addf : (⟨S50000x128, .f32⟩ : BufTy).Contents (Elt F) → (⟨S50000x128, .f32⟩ : BufTy).Contents (Elt F) → (⟨S50000x128, .f32⟩ : BufTy).Contents (Elt F)),
    unary main_v52 main_v71 (broadcastInDim S1x128 ![1] bcast_S128_S1x128_1 : (⟨S128, .f32⟩ : BufTy).Contents (Elt F) → (⟨S1x128, .f32⟩ : BufTy).Contents (Elt F)),
    unary main_v71 main_v72 (broadcastInDim S50000x128 ![0, 1] bcast_S1x128_S50000x128_0_1 : (⟨S1x128, .f32⟩ : BufTy).Contents (Elt F) → (⟨S50000x128, .f32⟩ : BufTy).Contents (Elt F)),
    binary main_v70 main_v72 main_v73 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v73) main_call1.v0 main_call1.v1 maximumf ]

-- second layer's scale and shift
abbrev seg4 : List (HloOp τ sig (Elt F)) :=
  [ unary main_arg7 main_v75 ((extractStridedSlice S1x128 ![0, 0] · slices_S2x128_S1x128_0_0) : (⟨S2x128, .f32⟩ : BufTy).Contents (Elt F) → (⟨S1x128, .f32⟩ : BufTy).Contents (Elt F)),
    reshape main_v75 main_v76 rfl shapeCasts_S1x128_S128,
    unary main_arg8 main_v77 ((extractStridedSlice S1x128 ![0, 0] · slices_S2x128_S1x128_0_0) : (⟨S2x128, .f32⟩ : BufTy).Contents (Elt F) → (⟨S1x128, .f32⟩ : BufTy).Contents (Elt F)),
    reshape main_v77 main_v78 rfl shapeCasts_S1x128_S128 ]

-- second layer's normalisation over nodes, column by column
abbrev seg5 : List (HloOp τ sig (Elt F)) :=
  [ nullary main_cst_11 (constant S_ .f32 0x00000000#32),
    binary main_v74 main_cst_11 main_v79 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_12 (constant S_ .f32 0x47435000#32),
    unary main_cst_12 main_v80 (broadcastInDim S128 ![] bcast_S_S128 : (⟨S_, .f32⟩ : BufTy).Contents (Elt F) → (⟨S128, .f32⟩ : BufTy).Contents (Elt F)),
    binary main_v79 main_v80 main_v81 (Host.divf : (⟨S128, .f32⟩ : BufTy).Contents (Elt F) → (⟨S128, .f32⟩ : BufTy).Contents (Elt F) → (⟨S128, .f32⟩ : BufTy).Contents (Elt F)),
    nullary main_c_13 (constantI S_ 32 0#32),
    TRef.nullary main_call2.cst (constant S_ .f32 0x00000000#32),
    TRef.binary (.of main_v74) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary (.of main_v74) main_call2.v4 main_call2.v5 subf,
    TRef.binary main_call2.v5 main_call2.v5 main_call2.v6 mulf,
    TRef.unary (.of main_c_13) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v81 main_v83 (broadcastInDim S1x128 ![1] bcast_S128_S1x128_1 : (⟨S128, .f32⟩ : BufTy).Contents (Elt F) → (⟨S1x128, .f32⟩ : BufTy).Contents (Elt F)),
    unary main_v83 main_v84 (broadcastInDim S50000x128 ![0, 1] bcast_S1x128_S50000x128_0_1 : (⟨S1x128, .f32⟩ : BufTy).Contents (Elt F) → (⟨S50000x128, .f32⟩ : BufTy).Contents (Elt F)),
    binary main_v74 main_v84 main_v85 (subf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x3727C5AC#32),
    unary main_cst_14 main_v86 (broadcastInDim S128 ![] bcast_S_S128 : (⟨S_, .f32⟩ : BufTy).Contents (Elt F) → (⟨S128, .f32⟩ : BufTy).Contents (Elt F)),
    binary main_v82 main_v86 main_v87 (addf : (⟨S128, .f32⟩ : BufTy).Contents (Elt F) → (⟨S128, .f32⟩ : BufTy).Contents (Elt F) → (⟨S128, .f32⟩ : BufTy).Contents (Elt F)),
    unary main_v87 main_v88 (Host.rsqrt : (⟨S128, .f32⟩ : BufTy).Contents (Elt F) → (⟨S128, .f32⟩ : BufTy).Contents (Elt F)),
    unary main_v88 main_v89 (broadcastInDim S1x128 ![1] bcast_S128_S1x128_1 : (⟨S128, .f32⟩ : BufTy).Contents (Elt F) → (⟨S1x128, .f32⟩ : BufTy).Contents (Elt F)),
    unary main_v89 main_v90 (broadcastInDim S50000x128 ![0, 1] bcast_S1x128_S50000x128_0_1 : (⟨S1x128, .f32⟩ : BufTy).Contents (Elt F) → (⟨S50000x128, .f32⟩ : BufTy).Contents (Elt F)),
    binary main_v85 main_v90 main_v91 (mulf : (⟨S50000x128, .f32⟩ : BufTy).Contents (Elt F) → (⟨S50000x128, .f32⟩ : BufTy).Contents (Elt F) → (⟨S50000x128, .f32⟩ : BufTy).Contents (Elt F)),
    unary main_v76 main_v92 (broadcastInDim S1x128 ![1] bcast_S128_S1x128_1 : (⟨S128, .f32⟩ : BufTy).Contents (Elt F) → (⟨S1x128, .f32⟩ : BufTy).Contents (Elt F)),
    unary main_v92 main_v93 (broadcastInDim S50000x128 ![0, 1] bcast_S1x128_S50000x128_0_1 : (⟨S1x128, .f32⟩ : BufTy).Contents (Elt F) → (⟨S50000x128, .f32⟩ : BufTy).Contents (Elt F)),
    binary main_v91 main_v93 main_v94 (mulf : (⟨S50000x128, .f32⟩ : BufTy).Contents (Elt F) → (⟨S50000x128, .f32⟩ : BufTy).Contents (Elt F) → (⟨S50000x128, .f32⟩ : BufTy).Contents (Elt F)),
    unary main_v78 main_v95 (broadcastInDim S1x128 ![1] bcast_S128_S1x128_1 : (⟨S128, .f32⟩ : BufTy).Contents (Elt F) → (⟨S1x128, .f32⟩ : BufTy).Contents (Elt F)),
    unary main_v95 main_v96 (broadcastInDim S50000x128 ![0, 1] bcast_S1x128_S50000x128_0_1 : (⟨S1x128, .f32⟩ : BufTy).Contents (Elt F) → (⟨S50000x128, .f32⟩ : BufTy).Contents (Elt F)),
    binary main_v94 main_v96 main_v97 (addf : (⟨S50000x128, .f32⟩ : BufTy).Contents (Elt F) → (⟨S50000x128, .f32⟩ : BufTy).Contents (Elt F) → (⟨S50000x128, .f32⟩ : BufTy).Contents (Elt F)) ]

-- third layer's weight and bias
abbrev seg6 : List (HloOp τ sig (Elt F)) :=
  [ unary main_arg5 main_v98 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v98 main_v99 rfl shapeCasts_S1x128x128_S128x128,
    unary main_arg6 main_v100 ((extractStridedSlice S1x128 ![1, 0] · slices_S2x128_S1x128_1_0) : (⟨S2x128, .f32⟩ : BufTy).Contents (Elt F) → (⟨S1x128, .f32⟩ : BufTy).Contents (Elt F)),
    reshape main_v100 main_v101 rfl shapeCasts_S1x128_S128 ]

-- third convolution
abbrev seg7 : List (HloOp τ sig (Elt F)) :=
  [ binary main_v97 main_v99 main_v102 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_15 (constantI S_ 32 0#32),
    unary main_c_15 main_v103 (broadcastInDim S800000 ![] bcast_S_S800000 : (⟨S_, .i32⟩ : BufTy).Contents (Elt F) → (⟨S800000, .i32⟩ : BufTy).Contents (Elt F)),
    binary main_v1 main_v103 main_v104 (cmpi .slt : (⟨S800000, .i32⟩ : BufTy).Contents (Elt F) → (⟨S800000, .i32⟩ : BufTy).Contents (Elt F) → (⟨S800000, .i1⟩ : BufTy).Contents (Elt F)),
    nullary main_c_16 (constantI S_ 32 50000#32),
    unary main_c_16 main_v105 (broadcastInDim S800000 ![] bcast_S_S800000 : (⟨S_, .i32⟩ : BufTy).Contents (Elt F) → (⟨S800000, .i32⟩ : BufTy).Contents (Elt F)),
    binary main_v1 main_v105 main_v106 (addi : (⟨S800000, .i32⟩ : BufTy).Contents (Elt F) → (⟨S800000, .i32⟩ : BufTy).Contents (Elt F) → (⟨S800000, .i32⟩ : BufTy).Contents (Elt F)),
    ternary main_v104 main_v106 main_v1 main_v107 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v107 main_v108 (broadcastInDim S800000x1 ![0] bcast_S800000_S800000x1_0 : (⟨S800000, .i32⟩ : BufTy).Contents (Elt F) → (⟨S800000x1, .i32⟩ : BufTy).Contents (Elt F)),
    binary main_v102 main_v108 main_v109 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v25 main_v110 (broadcastInDim S800000x1 ![0] bcast_S800000_S800000x1_0 : (⟨S800000, .f32⟩ : BufTy).Contents (Elt F) → (⟨S800000x1, .f32⟩ : BufTy).Contents (Elt F)),
    unary main_v110 main_v111 (broadcastInDim S800000x128 ![0, 1] bcast_S800000x1_S800000x128_0_1 : (⟨S800000x1, .f32⟩ : BufTy).Contents (Elt F) → (⟨S800000x128, .f32⟩ : BufTy).Contents (Elt F)),
    binary main_v109 main_v111 main_v112 (mulf : (⟨S800000x128, .f32⟩ : BufTy).Contents (Elt F) → (⟨S800000x128, .f32⟩ : BufTy).Contents (Elt F) → (⟨S800000x128, .f32⟩ : BufTy).Contents (Elt F)),
    nullary main_cst_17 (constant S_ .f32 0x00000000#32),
    unary main_cst_17 main_v113 (broadcastInDim S50000x128 ![] bcast_S_S50000x128 : (⟨S_, .f32⟩ : BufTy).Contents (Elt F) → (⟨S50000x128, .f32⟩ : BufTy).Contents (Elt F)),
    unary main_v3 main_v114 (broadcastInDim S800000x1 ![0] bcast_S800000_S800000x1_0 : (⟨S800000, .i32⟩ : BufTy).Contents (Elt F) → (⟨S800000x1, .i32⟩ : BufTy).Contents (Elt F)),
    ternary main_v113 main_v114 main_v112 main_v115 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v26 main_v116 (broadcastInDim S50000x1 ![0] bcast_S50000_S50000x1_0 : (⟨S50000, .f32⟩ : BufTy).Contents (Elt F) → (⟨S50000x1, .f32⟩ : BufTy).Contents (Elt F)),
    unary main_v116 main_v117 (broadcastInDim S50000x128 ![0, 1] bcast_S50000x1_S50000x128_0_1 : (⟨S50000x1, .f32⟩ : BufTy).Contents (Elt F) → (⟨S50000x128, .f32⟩ : BufTy).Contents (Elt F)),
    binary main_v102 main_v117 main_v118 (mulf : (⟨S50000x128, .f32⟩ : BufTy).Contents (Elt F) → (⟨S50000x128, .f32⟩ : BufTy).Contents (Elt F) → (⟨S50000x128, .f32⟩ : BufTy).Contents (Elt F)),
    binary main_v115 main_v118 main_v119 (addf : (⟨S50000x128, .f32⟩ : BufTy).Contents (Elt F) → (⟨S50000x128, .f32⟩ : BufTy).Contents (Elt F) → (⟨S50000x128, .f32⟩ : BufTy).Contents (Elt F)),
    unary main_v101 main_v120 (broadcastInDim S1x128 ![1] bcast_S128_S1x128_1 : (⟨S128, .f32⟩ : BufTy).Contents (Elt F) → (⟨S1x128, .f32⟩ : BufTy).Contents (Elt F)),
    unary main_v120 main_v121 (broadcastInDim S50000x128 ![0, 1] bcast_S1x128_S50000x128_0_1 : (⟨S1x128, .f32⟩ : BufTy).Contents (Elt F) → (⟨S50000x128, .f32⟩ : BufTy).Contents (Elt F)),
    binary main_v119 main_v121 main_v122 (addf : (⟨S50000x128, .f32⟩ : BufTy).Contents (Elt F) → (⟨S50000x128, .f32⟩ : BufTy).Contents (Elt F) → (⟨S50000x128, .f32⟩ : BufTy).Contents (Elt F)),
    TRef.nullary main_call3.cst (constant S_ .f32 0x00000000#32),
    TRef.unary main_call3.cst main_call3.v0 (broadcastInDim S50000x128 ![] bcast_S_S50000x128),
    TRef.binary (.of main_v122) main_call3.v0 main_call3.v1 maximumf ]

-- third layer's scale and shift
abbrev seg8 : List (HloOp τ sig (Elt F)) :=
  [ unary main_arg7 main_v124 ((extractStridedSlice S1x128 ![1, 0] · slices_S2x128_S1x128_1_0) : (⟨S2x128, .f32⟩ : BufTy).Contents (Elt F) → (⟨S1x128, .f32⟩ : BufTy).Contents (Elt F)),
    reshape main_v124 main_v125 rfl shapeCasts_S1x128_S128,
    unary main_arg8 main_v126 ((extractStridedSlice S1x128 ![1, 0] · slices_S2x128_S1x128_1_0) : (⟨S2x128, .f32⟩ : BufTy).Contents (Elt F) → (⟨S1x128, .f32⟩ : BufTy).Contents (Elt F)),
    reshape main_v126 main_v127 rfl shapeCasts_S1x128_S128 ]

-- third layer's normalisation over nodes
abbrev seg9 : List (HloOp τ sig (Elt F)) :=
  [ nullary main_cst_18 (constant S_ .f32 0x00000000#32),
    binary main_v123 main_cst_18 main_v128 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_19 (constant S_ .f32 0x47435000#32),
    unary main_cst_19 main_v129 (broadcastInDim S128 ![] bcast_S_S128 : (⟨S_, .f32⟩ : BufTy).Contents (Elt F) → (⟨S128, .f32⟩ : BufTy).Contents (Elt F)),
    binary main_v128 main_v129 main_v130 (Host.divf : (⟨S128, .f32⟩ : BufTy).Contents (Elt F) → (⟨S128, .f32⟩ : BufTy).Contents (Elt F) → (⟨S128, .f32⟩ : BufTy).Contents (Elt F)),
    nullary main_c_20 (constantI S_ 32 0#32),
    TRef.nullary main_call4.cst (constant S_ .f32 0x00000000#32),
    TRef.binary (.of main_v123) main_call4.cst main_call4.v0 (fun x v => Host.reduceAdd x v reducesTo_S50000x128_S128_d0 h_S_),
    TRef.unary main_call4.v0 main_call4.v1 (broadcastInDim S1x128 ![1] bcast_S128_S1x128_1),
    TRef.nullary main_call4.cst_0 (constant S_ .f32 0x47435000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S50000x128 ![0, 1] bcast_S1x128_S50000x128_0_1),
    TRef.binary (.of main_v123) main_call4.v4 main_call4.v5 subf,
    TRef.binary main_call4.v5 main_call4.v5 main_call4.v6 mulf,
    TRef.unary (.of main_c_20) main_call4.v7 (sitofp .f32),
    TRef.nullary main_call4.cst_1 (constant S_ .f32 0x47435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b),
    unary main_v130 main_v132 (broadcastInDim S1x128 ![1] bcast_S128_S1x128_1 : (⟨S128, .f32⟩ : BufTy).Contents (Elt F) → (⟨S1x128, .f32⟩ : BufTy).Contents (Elt F)),
    unary main_v132 main_v133 (broadcastInDim S50000x128 ![0, 1] bcast_S1x128_S50000x128_0_1 : (⟨S1x128, .f32⟩ : BufTy).Contents (Elt F) → (⟨S50000x128, .f32⟩ : BufTy).Contents (Elt F)),
    binary main_v123 main_v133 main_v134 (subf : (⟨S50000x128, .f32⟩ : BufTy).Contents (Elt F) → (⟨S50000x128, .f32⟩ : BufTy).Contents (Elt F) → (⟨S50000x128, .f32⟩ : BufTy).Contents (Elt F)),
    nullary main_cst_21 (constant S_ .f32 0x3727C5AC#32),
    unary main_cst_21 main_v135 (broadcastInDim S128 ![] bcast_S_S128 : (⟨S_, .f32⟩ : BufTy).Contents (Elt F) → (⟨S128, .f32⟩ : BufTy).Contents (Elt F)),
    binary main_v131 main_v135 main_v136 (addf : (⟨S128, .f32⟩ : BufTy).Contents (Elt F) → (⟨S128, .f32⟩ : BufTy).Contents (Elt F) → (⟨S128, .f32⟩ : BufTy).Contents (Elt F)),
    unary main_v136 main_v137 (Host.rsqrt : (⟨S128, .f32⟩ : BufTy).Contents (Elt F) → (⟨S128, .f32⟩ : BufTy).Contents (Elt F)),
    unary main_v137 main_v138 (broadcastInDim S1x128 ![1] bcast_S128_S1x128_1 : (⟨S128, .f32⟩ : BufTy).Contents (Elt F) → (⟨S1x128, .f32⟩ : BufTy).Contents (Elt F)),
    unary main_v138 main_v139 (broadcastInDim S50000x128 ![0, 1] bcast_S1x128_S50000x128_0_1 : (⟨S1x128, .f32⟩ : BufTy).Contents (Elt F) → (⟨S50000x128, .f32⟩ : BufTy).Contents (Elt F)),
    binary main_v134 main_v139 main_v140 (mulf : (⟨S50000x128, .f32⟩ : BufTy).Contents (Elt F) → (⟨S50000x128, .f32⟩ : BufTy).Contents (Elt F) → (⟨S50000x128, .f32⟩ : BufTy).Contents (Elt F)),
    unary main_v125 main_v141 (broadcastInDim S1x128 ![1] bcast_S128_S1x128_1 : (⟨S128, .f32⟩ : BufTy).Contents (Elt F) → (⟨S1x128, .f32⟩ : BufTy).Contents (Elt F)),
    unary main_v141 main_v142 (broadcastInDim S50000x128 ![0, 1] bcast_S1x128_S50000x128_0_1 : (⟨S1x128, .f32⟩ : BufTy).Contents (Elt F) → (⟨S50000x128, .f32⟩ : BufTy).Contents (Elt F)),
    binary main_v140 main_v142 main_v143 (mulf : (⟨S50000x128, .f32⟩ : BufTy).Contents (Elt F) → (⟨S50000x128, .f32⟩ : BufTy).Contents (Elt F) → (⟨S50000x128, .f32⟩ : BufTy).Contents (Elt F)),
    unary main_v127 main_v144 (broadcastInDim S1x128 ![1] bcast_S128_S1x128_1 : (⟨S128, .f32⟩ : BufTy).Contents (Elt F) → (⟨S1x128, .f32⟩ : BufTy).Contents (Elt F)),
    unary main_v144 main_v145 (broadcastInDim S50000x128 ![0, 1] bcast_S1x128_S50000x128_0_1 : (⟨S1x128, .f32⟩ : BufTy).Contents (Elt F) → (⟨S50000x128, .f32⟩ : BufTy).Contents (Elt F)),
    binary main_v143 main_v145 main_v146 (addf : (⟨S50000x128, .f32⟩ : BufTy).Contents (Elt F) → (⟨S50000x128, .f32⟩ : BufTy).Contents (Elt F) → (⟨S50000x128, .f32⟩ : BufTy).Contents (Elt F)) ]

-- sum of the node features over each graph
abbrev seg10 : List (HloOp τ sig (Elt F)) :=
  [ nullary main_cst_22 (constant S_ .f32 0x00000000#32),
    unary main_cst_22 main_v147 (broadcastInDim S64x128 ![] bcast_S_S64x128 : (⟨S_, .f32⟩ : BufTy).Contents (Elt F) → (⟨S64x128, .f32⟩ : BufTy).Contents (Elt F)),
    unary main_arg2 main_v148 (broadcastInDim S50000x1 ![0] bcast_S50000_S50000x1_0 : (⟨S50000, .i32⟩ : BufTy).Contents (Elt F) → (⟨S50000x1, .i32⟩ : BufTy).Contents (Elt F)),
    ternary main_v147 main_v148 main_v146 main_v149 ((fun x i u => Host.scatterAdd scatter_S64x128_S50000x1_S50000x128_1_0_0_1 x i u) : (⟨S64x128, .f32⟩ : BufTy).Contents (Elt F) → (⟨S50000x1, .i32⟩ : BufTy).Contents (Elt F) → (⟨S50000x128, .f32⟩ : BufTy).Contents (Elt F) → (⟨S64x128, .f32⟩ : BufTy).Contents (Elt F)) ]

-- first dense layer of the head
abbrev seg11 : List (HloOp τ sig (Elt F)) :=
  [ binary main_v149 main_arg9 main_v150 ((fun l r => Host.dotGeneral dot_S64x128_S128x256_S64x256_1_0_0_1_n_n none l r) : (⟨S64x128, .f32⟩ : BufTy).Contents (Elt F) → (⟨S128x256, .f32⟩ : BufTy).Contents (Elt F) → (⟨S64x256, .f32⟩ : BufTy).Contents (Elt F)),
    unary main_arg10 main_v151 (broadcastInDim S1x256 ![1] bcast_S256_S1x256_1 : (⟨S256, .f32⟩ : BufTy).Contents (Elt F) → (⟨S1x256, .f32⟩ : BufTy).Contents (Elt F)),
    unary main_v151 main_v152 (broadcastInDim S64x256 ![0, 1] bcast_S1x256_S64x256_0_1 : (⟨S1x256, .f32⟩ : BufTy).Contents (Elt F) → (⟨S64x256, .f32⟩ : BufTy).Contents (Elt F)),
    binary main_v150 main_v152 main_v153 (addf : (⟨S64x256, .f32⟩ : BufTy).Contents (Elt F) → (⟨S64x256, .f32⟩ : BufTy).Contents (Elt F) → (⟨S64x256, .f32⟩ : BufTy).Contents (Elt F)),
    TRef.nullary main_call5.cst (constant S_ .f32 0x00000000#32),
    TRef.unary main_call5.cst main_call5.v0 (broadcastInDim S64x256 ![] bcast_S_S64x256),
    TRef.binary (.of main_v153) main_call5.v0 main_call5.v1 maximumf ]

-- its normalisation over graphs
abbrev seg12 : List (HloOp τ sig (Elt F)) :=
  [ nullary main_cst_23 (constant S_ .f32 0x00000000#32),
    binary main_v154 main_cst_23 main_v155 ((fun x v => Host.reduceAdd x v reducesTo_S64x256_S256_d0 h_S_) : (⟨S64x256, .f32⟩ : BufTy).Contents (Elt F) → (⟨S_, .f32⟩ : BufTy).Contents (Elt F) → (⟨S256, .f32⟩ : BufTy).Contents (Elt F)),
    nullary main_cst_24 (constant S_ .f32 0x42800000#32),
    unary main_cst_24 main_v156 (broadcastInDim S256 ![] bcast_S_S256 : (⟨S_, .f32⟩ : BufTy).Contents (Elt F) → (⟨S256, .f32⟩ : BufTy).Contents (Elt F)),
    binary main_v155 main_v156 main_v157 (Host.divf : (⟨S256, .f32⟩ : BufTy).Contents (Elt F) → (⟨S256, .f32⟩ : BufTy).Contents (Elt F) → (⟨S256, .f32⟩ : BufTy).Contents (Elt F)),
    nullary main_c_25 (constantI S_ 32 0#32),
    TRef.nullary main_call6.cst (constant S_ .f32 0x00000000#32),
    TRef.binary (.of main_v154) main_call6.cst main_call6.v0 (fun x v => Host.reduceAdd x v reducesTo_S64x256_S256_d0 h_S_),
    TRef.unary main_call6.v0 main_call6.v1 (broadcastInDim S1x256 ![1] bcast_S256_S1x256_1),
    TRef.nullary main_call6.cst_0 (constant S_ .f32 0x42800000#32),
    TRef.unary main_call6.cst_0 main_call6.v2 (broadcastInDim S1x256 ![] bcast_S_S1x256),
    TRef.binary main_call6.v1 main_call6.v2 main_call6.v3 Host.divf,
    TRef.unary main_call6.v3 main_call6.v4 (broadcastInDim S64x256 ![0, 1] bcast_S1x256_S64x256_0_1),
    TRef.binary (.of main_v154) main_call6.v4 main_call6.v5 subf,
    TRef.binary main_call6.v5 main_call6.v5 main_call6.v6 mulf,
    TRef.unary (.of main_c_25) main_call6.v7 (sitofp .f32),
    TRef.nullary main_call6.cst_1 (constant S_ .f32 0x42800000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S64x256_S256_d0 h_S_),
    TRef.unary main_call6.v8 main_call6.v10 (broadcastInDim S256 ![] bcast_S_S256),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S256 ![] bcast_S_S256),
    TRef.ternary main_call6.v12 main_call6.v11 main_call6.call0.v1 main_call6.call0.v2 (fun p a b => select (broadcastInDim S256 ![] bcast_S_S256 p) a b),
    unary main_v157 main_v159 (broadcastInDim S1x256 ![1] bcast_S256_S1x256_1 : (⟨S256, .f32⟩ : BufTy).Contents (Elt F) → (⟨S1x256, .f32⟩ : BufTy).Contents (Elt F)),
    unary main_v159 main_v160 (broadcastInDim S64x256 ![0, 1] bcast_S1x256_S64x256_0_1 : (⟨S1x256, .f32⟩ : BufTy).Contents (Elt F) → (⟨S64x256, .f32⟩ : BufTy).Contents (Elt F)),
    binary main_v154 main_v160 main_v161 (subf : (⟨S64x256, .f32⟩ : BufTy).Contents (Elt F) → (⟨S64x256, .f32⟩ : BufTy).Contents (Elt F) → (⟨S64x256, .f32⟩ : BufTy).Contents (Elt F)),
    nullary main_cst_26 (constant S_ .f32 0x3727C5AC#32),
    unary main_cst_26 main_v162 (broadcastInDim S256 ![] bcast_S_S256 : (⟨S_, .f32⟩ : BufTy).Contents (Elt F) → (⟨S256, .f32⟩ : BufTy).Contents (Elt F)),
    binary main_v158 main_v162 main_v163 (addf : (⟨S256, .f32⟩ : BufTy).Contents (Elt F) → (⟨S256, .f32⟩ : BufTy).Contents (Elt F) → (⟨S256, .f32⟩ : BufTy).Contents (Elt F)),
    unary main_v163 main_v164 (Host.rsqrt : (⟨S256, .f32⟩ : BufTy).Contents (Elt F) → (⟨S256, .f32⟩ : BufTy).Contents (Elt F)),
    unary main_v164 main_v165 (broadcastInDim S1x256 ![1] bcast_S256_S1x256_1 : (⟨S256, .f32⟩ : BufTy).Contents (Elt F) → (⟨S1x256, .f32⟩ : BufTy).Contents (Elt F)),
    unary main_v165 main_v166 (broadcastInDim S64x256 ![0, 1] bcast_S1x256_S64x256_0_1 : (⟨S1x256, .f32⟩ : BufTy).Contents (Elt F) → (⟨S64x256, .f32⟩ : BufTy).Contents (Elt F)),
    binary main_v161 main_v166 main_v167 (mulf : (⟨S64x256, .f32⟩ : BufTy).Contents (Elt F) → (⟨S64x256, .f32⟩ : BufTy).Contents (Elt F) → (⟨S64x256, .f32⟩ : BufTy).Contents (Elt F)),
    unary main_arg11 main_v168 (broadcastInDim S1x256 ![1] bcast_S256_S1x256_1 : (⟨S256, .f32⟩ : BufTy).Contents (Elt F) → (⟨S1x256, .f32⟩ : BufTy).Contents (Elt F)),
    unary main_v168 main_v169 (broadcastInDim S64x256 ![0, 1] bcast_S1x256_S64x256_0_1 : (⟨S1x256, .f32⟩ : BufTy).Contents (Elt F) → (⟨S64x256, .f32⟩ : BufTy).Contents (Elt F)),
    binary main_v167 main_v169 main_v170 (mulf : (⟨S64x256, .f32⟩ : BufTy).Contents (Elt F) → (⟨S64x256, .f32⟩ : BufTy).Contents (Elt F) → (⟨S64x256, .f32⟩ : BufTy).Contents (Elt F)),
    unary main_arg12 main_v171 (broadcastInDim S1x256 ![1] bcast_S256_S1x256_1 : (⟨S256, .f32⟩ : BufTy).Contents (Elt F) → (⟨S1x256, .f32⟩ : BufTy).Contents (Elt F)),
    unary main_v171 main_v172 (broadcastInDim S64x256 ![0, 1] bcast_S1x256_S64x256_0_1 : (⟨S1x256, .f32⟩ : BufTy).Contents (Elt F) → (⟨S64x256, .f32⟩ : BufTy).Contents (Elt F)),
    binary main_v170 main_v172 main_v173 (addf : (⟨S64x256, .f32⟩ : BufTy).Contents (Elt F) → (⟨S64x256, .f32⟩ : BufTy).Contents (Elt F) → (⟨S64x256, .f32⟩ : BufTy).Contents (Elt F)) ]

-- second dense layer of the head
abbrev seg13 : List (HloOp τ sig (Elt F)) :=
  [ binary main_v173 main_arg13 main_v174 ((fun l r => Host.dotGeneral dot_S64x256_S256x256_S64x256_1_0_0_1_n_n none l r) : (⟨S64x256, .f32⟩ : BufTy).Contents (Elt F) → (⟨S256x256, .f32⟩ : BufTy).Contents (Elt F) → (⟨S64x256, .f32⟩ : BufTy).Contents (Elt F)),
    unary main_arg14 main_v175 (broadcastInDim S1x256 ![1] bcast_S256_S1x256_1 : (⟨S256, .f32⟩ : BufTy).Contents (Elt F) → (⟨S1x256, .f32⟩ : BufTy).Contents (Elt F)),
    unary main_v175 main_v176 (broadcastInDim S64x256 ![0, 1] bcast_S1x256_S64x256_0_1 : (⟨S1x256, .f32⟩ : BufTy).Contents (Elt F) → (⟨S64x256, .f32⟩ : BufTy).Contents (Elt F)),
    binary main_v174 main_v176 main_v177 (addf : (⟨S64x256, .f32⟩ : BufTy).Contents (Elt F) → (⟨S64x256, .f32⟩ : BufTy).Contents (Elt F) → (⟨S64x256, .f32⟩ : BufTy).Contents (Elt F)),
    TRef.nullary main_call7.cst (constant S_ .f32 0x00000000#32),
    TRef.unary main_call7.cst main_call7.v0 (broadcastInDim S64x256 ![] bcast_S_S64x256),
    TRef.binary (.of main_v177) main_call7.v0 main_call7.v1 maximumf ]

-- its normalisation over graphs
abbrev seg14 : List (HloOp τ sig (Elt F)) :=
  [ nullary main_cst_27 (constant S_ .f32 0x00000000#32),
    binary main_v178 main_cst_27 main_v179 ((fun x v => Host.reduceAdd x v reducesTo_S64x256_S256_d0 h_S_) : (⟨S64x256, .f32⟩ : BufTy).Contents (Elt F) → (⟨S_, .f32⟩ : BufTy).Contents (Elt F) → (⟨S256, .f32⟩ : BufTy).Contents (Elt F)),
    nullary main_cst_28 (constant S_ .f32 0x42800000#32),
    unary main_cst_28 main_v180 (broadcastInDim S256 ![] bcast_S_S256 : (⟨S_, .f32⟩ : BufTy).Contents (Elt F) → (⟨S256, .f32⟩ : BufTy).Contents (Elt F)),
    binary main_v179 main_v180 main_v181 (Host.divf : (⟨S256, .f32⟩ : BufTy).Contents (Elt F) → (⟨S256, .f32⟩ : BufTy).Contents (Elt F) → (⟨S256, .f32⟩ : BufTy).Contents (Elt F)),
    nullary main_c_29 (constantI S_ 32 0#32),
    TRef.nullary main_call8.cst (constant S_ .f32 0x00000000#32),
    TRef.binary (.of main_v178) main_call8.cst main_call8.v0 (fun x v => Host.reduceAdd x v reducesTo_S64x256_S256_d0 h_S_),
    TRef.unary main_call8.v0 main_call8.v1 (broadcastInDim S1x256 ![1] bcast_S256_S1x256_1),
    TRef.nullary main_call8.cst_0 (constant S_ .f32 0x42800000#32),
    TRef.unary main_call8.cst_0 main_call8.v2 (broadcastInDim S1x256 ![] bcast_S_S1x256),
    TRef.binary main_call8.v1 main_call8.v2 main_call8.v3 Host.divf,
    TRef.unary main_call8.v3 main_call8.v4 (broadcastInDim S64x256 ![0, 1] bcast_S1x256_S64x256_0_1),
    TRef.binary (.of main_v178) main_call8.v4 main_call8.v5 subf,
    TRef.binary main_call8.v5 main_call8.v5 main_call8.v6 mulf,
    TRef.unary (.of main_c_29) main_call8.v7 (sitofp .f32),
    TRef.nullary main_call8.cst_1 (constant S_ .f32 0x42800000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S64x256_S256_d0 h_S_),
    TRef.unary main_call8.v8 main_call8.v10 (broadcastInDim S256 ![] bcast_S_S256),
    TRef.binary main_call8.v9 main_call8.v10 main_call8.v11 Host.divf,
    TRef.nullary main_call8.cst_3 (constant S_ .f32 0x00000000#32),
    TRef.binary main_call8.v8 main_call8.cst_3 main_call8.v12 (cmpf .ogt),
    TRef.nullary main_call8.cst_4 (constant S_ .f32 0x7FC00000#32),
    TRef.unary main_call8.cst_4 main_call8.call0.v0 id,
    TRef.unary main_call8.call0.v0 main_call8.call0.v1 (broadcastInDim S256 ![] bcast_S_S256),
    TRef.ternary main_call8.v12 main_call8.v11 main_call8.call0.v1 main_call8.call0.v2 (fun p a b => select (broadcastInDim S256 ![] bcast_S_S256 p) a b),
    unary main_v181 main_v183 (broadcastInDim S1x256 ![1] bcast_S256_S1x256_1 : (⟨S256, .f32⟩ : BufTy).Contents (Elt F) → (⟨S1x256, .f32⟩ : BufTy).Contents (Elt F)),
    unary main_v183 main_v184 (broadcastInDim S64x256 ![0, 1] bcast_S1x256_S64x256_0_1 : (⟨S1x256, .f32⟩ : BufTy).Contents (Elt F) → (⟨S64x256, .f32⟩ : BufTy).Contents (Elt F)),
    binary main_v178 main_v184 main_v185 (subf : (⟨S64x256, .f32⟩ : BufTy).Contents (Elt F) → (⟨S64x256, .f32⟩ : BufTy).Contents (Elt F) → (⟨S64x256, .f32⟩ : BufTy).Contents (Elt F)),
    nullary main_cst_30 (constant S_ .f32 0x3727C5AC#32),
    unary main_cst_30 main_v186 (broadcastInDim S256 ![] bcast_S_S256 : (⟨S_, .f32⟩ : BufTy).Contents (Elt F) → (⟨S256, .f32⟩ : BufTy).Contents (Elt F)),
    binary main_v182 main_v186 main_v187 (addf : (⟨S256, .f32⟩ : BufTy).Contents (Elt F) → (⟨S256, .f32⟩ : BufTy).Contents (Elt F) → (⟨S256, .f32⟩ : BufTy).Contents (Elt F)),
    unary main_v187 main_v188 (Host.rsqrt : (⟨S256, .f32⟩ : BufTy).Contents (Elt F) → (⟨S256, .f32⟩ : BufTy).Contents (Elt F)),
    unary main_v188 main_v189 (broadcastInDim S1x256 ![1] bcast_S256_S1x256_1 : (⟨S256, .f32⟩ : BufTy).Contents (Elt F) → (⟨S1x256, .f32⟩ : BufTy).Contents (Elt F)),
    unary main_v189 main_v190 (broadcastInDim S64x256 ![0, 1] bcast_S1x256_S64x256_0_1 : (⟨S1x256, .f32⟩ : BufTy).Contents (Elt F) → (⟨S64x256, .f32⟩ : BufTy).Contents (Elt F)),
    binary main_v185 main_v190 main_v191 (mulf : (⟨S64x256, .f32⟩ : BufTy).Contents (Elt F) → (⟨S64x256, .f32⟩ : BufTy).Contents (Elt F) → (⟨S64x256, .f32⟩ : BufTy).Contents (Elt F)),
    unary main_arg15 main_v192 (broadcastInDim S1x256 ![1] bcast_S256_S1x256_1 : (⟨S256, .f32⟩ : BufTy).Contents (Elt F) → (⟨S1x256, .f32⟩ : BufTy).Contents (Elt F)),
    unary main_v192 main_v193 (broadcastInDim S64x256 ![0, 1] bcast_S1x256_S64x256_0_1 : (⟨S1x256, .f32⟩ : BufTy).Contents (Elt F) → (⟨S64x256, .f32⟩ : BufTy).Contents (Elt F)),
    binary main_v191 main_v193 main_v194 (mulf : (⟨S64x256, .f32⟩ : BufTy).Contents (Elt F) → (⟨S64x256, .f32⟩ : BufTy).Contents (Elt F) → (⟨S64x256, .f32⟩ : BufTy).Contents (Elt F)),
    unary main_arg16 main_v195 (broadcastInDim S1x256 ![1] bcast_S256_S1x256_1 : (⟨S256, .f32⟩ : BufTy).Contents (Elt F) → (⟨S1x256, .f32⟩ : BufTy).Contents (Elt F)),
    unary main_v195 main_v196 (broadcastInDim S64x256 ![0, 1] bcast_S1x256_S64x256_0_1 : (⟨S1x256, .f32⟩ : BufTy).Contents (Elt F) → (⟨S64x256, .f32⟩ : BufTy).Contents (Elt F)),
    binary main_v194 main_v196 main_v197 (addf : (⟨S64x256, .f32⟩ : BufTy).Contents (Elt F) → (⟨S64x256, .f32⟩ : BufTy).Contents (Elt F) → (⟨S64x256, .f32⟩ : BufTy).Contents (Elt F)) ]

-- last dense layer of the head
abbrev seg15 : List (HloOp τ sig (Elt F)) :=
  [ binary main_v197 main_arg17 main_v198 ((fun l r => Host.dotGeneral dot_S64x256_S256x1_S64x1_1_0_0_1_n_n none l r) : (⟨S64x256, .f32⟩ : BufTy).Contents (Elt F) → (⟨S256x1, .f32⟩ : BufTy).Contents (Elt F) → (⟨S64x1, .f32⟩ : BufTy).Contents (Elt F)),
    unary main_arg18 main_v199 (broadcastInDim S1x1 ![1] bcast_S1_S1x1_1 : (⟨S1, .f32⟩ : BufTy).Contents (Elt F) → (⟨S1x1, .f32⟩ : BufTy).Contents (Elt F)),
    unary main_v199 main_v200 (broadcastInDim S64x1 ![0, 1] bcast_S1x1_S64x1_0_1 : (⟨S1x1, .f32⟩ : BufTy).Contents (Elt F) → (⟨S64x1, .f32⟩ : BufTy).Contents (Elt F)),
    binary main_v198 main_v200 main_v201 (addf : (⟨S64x1, .f32⟩ : BufTy).Contents (Elt F) → (⟨S64x1, .f32⟩ : BufTy).Contents (Elt F) → (⟨S64x1, .f32⟩ : BufTy).Contents (Elt F)) ]

-- the whole program: the sixteen stretches in order
abbrev ops : List (HloOp τ sig (Elt F)) :=
  seg0 ++ (seg1 ++ (seg2 ++ (seg3 ++ (seg4 ++ (seg5 ++ (seg6 ++ (seg7 ++ (seg8 ++ (seg9 ++ (seg10 ++ (seg11 ++ (seg12 ++ (seg13 ++ (seg14 ++ seg15))))))))))))))

theorem ops_eq_segs : (ops : List (HloOp τ sig (Elt F))) = seg0 ++ (seg1 ++ (seg2 ++ (seg3 ++ (seg4 ++ (seg5 ++ (seg6 ++ (seg7 ++ (seg8 ++ (seg9 ++ (seg10 ++ (seg11 ++ (seg12 ++ (seg13 ++ (seg14 ++ seg15)))))))))))))) := rfl

end Cert.ReferenceIdeal.RefRun

end
-- ==== Proof.RefRun.lean ====
import proofs.«431361_j18107582120395_1_alg».proof.Proof.RefSegs

set_option Elab.async false

noncomputable section

namespace Cert.ReferenceIdeal.RefRun

open Idealize.ShloMosaic Idealize.ShloMosaic.TcCoe Idealize.ShloMosaic.StableHlo Idealize.SL.Sem Cert.ReferenceIdeal

variable {F : FTy → Type} [FloatOps F]

set_option maxRecDepth 8192 in
set_option maxHeartbeats 4000000 in
-- @main's statements, its calls inlined, are the listed operations in the same order
theorem main_eq (c : Dev nD) : main (F := F) c = seq ops := by rfl

set_option maxRecDepth 8192 in
-- run_seq's two side conditions, for every operation at once
theorem ops_plain : ∀ op ∈ (ops : List (HloOp τ sig (Elt F))), op.bufs ⊆ tcRefs τ sig ∧ op.fresh = ∅ := by
  simp only [List.forall_mem_append, List.forall_mem_cons, List.not_mem_nil, false_imp_iff, implies_true, and_true]
  and_intros <;> first | simp only [nullary_bufs_sub, unary_bufs_sub, binary_bufs_sub, ternary_bufs_sub, reshape_bufs_sub] | rfl

theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq (by decide) (by decide) defs main (fun _ => ops) main_eq
    (fun _ => List.forall_iff_forall_mem.mpr fun op h => (ops_plain op h).1) m ρ fun _ op h => (ops_plain op h).2

end Cert.ReferenceIdeal.RefRun

end
-- ==== Proof.RefSegA.lean ====
import proofs.«431361_j18107582120395_1_alg».proof.Proof.RefSegs
import proofs.«431361_j18107582120395_1_alg».proof.Proof.Spec
import Idealize.ShloMosaic.Lib.StableHlo.Run

noncomputable section

namespace Cert.ReferenceIdeal.RefValue

open Idealize.ShloMosaic Idealize.ShloMosaic.TcCoe Idealize.ShloMosaic.StableHlo Cert.ReferenceIdeal Cert.ReferenceIdeal.RefRun

variable (W : Valuation τ sig (Elt Ideal))

-- Stretch 0 computes the edge ends, the edge weights and the self-loop weights by the specification's own operations on the edge list.
theorem s0_src : after (seg0 (F := Ideal)) W (Proc.devRef .tc main_v1) = Cert.Spec.src (W (Proc.devRef .tc main_arg1)) := by
  simp only [seg0]
  after_results_simp
  rfl

theorem s0_dst : after (seg0 (F := Ideal)) W (Proc.devRef .tc main_v3) = Cert.Spec.dst (W (Proc.devRef .tc main_arg1)) := by
  simp only [seg0]
  after_results_simp
  rfl

attribute [local irreducible] Host.scatterAdd Host.gather Host.rsqrt in
theorem s0_enorm : after (seg0 (F := Ideal)) W (Proc.devRef .tc main_v25) = Cert.Spec.enorm (W (Proc.devRef .tc main_arg1)) := by
  simp only [seg0]
  after_results_simp
  rfl

attribute [local irreducible] Host.scatterAdd Host.gather Host.rsqrt in
theorem s0_snorm : after (seg0 (F := Ideal)) W (Proc.devRef .tc main_v26) = Cert.Spec.snorm (W (Proc.devRef .tc main_arg1)) := by
  simp only [seg0]
  after_results_simp
  rfl

end Cert.ReferenceIdeal.RefValue

end
-- ==== Proof.RefSegA1.lean ====
import proofs.«431361_j18107582120395_1_alg».proof.Proof.RefSegs
import proofs.«431361_j18107582120395_1_alg».proof.Proof.Spec
import Idealize.ShloMosaic.Lib.StableHlo.Run

noncomputable section

namespace Cert.ReferenceIdeal.RefValue

open Idealize.ShloMosaic Idealize.ShloMosaic.TcCoe Idealize.ShloMosaic.StableHlo Cert.ReferenceIdeal Cert.ReferenceIdeal.RefRun

namespace SegA

-- Carrying a value to its own array type and back is the identity, so the called rectifier is the maximum of its operand and the zero array.
theorem relu_call0 (P : FVec Ideal S50000x128 .f32) :
    (TRef.of (T := ⟨S50000x128, .f32⟩) main_v48).toBuf (Val := Elt Ideal)
      (maximumf (F := Ideal) (φ := .f32) ((TRef.of (T := ⟨S50000x128, .f32⟩) main_v47).ofBuf (Val := Elt Ideal) P)
        ((TRef.of (T := ⟨S50000x128, .f32⟩) main_call0_v0).ofBuf (Val := Elt Ideal)
          ((TRef.of (T := ⟨S50000x128, .f32⟩) main_call0_v0).toBuf
            (broadcastInDim S50000x128 ![] Facts₀.bcast_S_S50000x128
              ((TRef.of (T := ⟨S_, .f32⟩) main_call0_cst).ofBuf (Val := Elt Ideal)
                ((TRef.of (T := ⟨S_, .f32⟩) main_call0_cst).toBuf (constant (F := Ideal) S_ .f32 0#32)))))))
      = maximumf P (broadcastInDim S50000x128 ![] Facts₀.bcast_S_S50000x128 Cert.Spec.c0) := by
  rfl

theorem relu_call1 (P : FVec Ideal S50000x128 .f32) :
    (TRef.of (T := ⟨S50000x128, .f32⟩) main_v74).toBuf (Val := Elt Ideal)
      (maximumf (F := Ideal) (φ := .f32) ((TRef.of (T := ⟨S50000x128, .f32⟩) main_v73).ofBuf (Val := Elt Ideal) P)
        ((TRef.of (T := ⟨S50000x128, .f32⟩) main_call1_v0).ofBuf (Val := Elt Ideal)
          ((TRef.of (T := ⟨S50000x128, .f32⟩) main_call1_v0).toBuf
            (broadcastInDim S50000x128 ![] Facts₀.bcast_S_S50000x128
              ((TRef.of (T := ⟨S_, .f32⟩) main_call1_cst).ofBuf (Val := Elt Ideal)
                ((TRef.of (T := ⟨S_, .f32⟩) main_call1_cst).toBuf (constant (F := Ideal) S_ .f32 0#32)))))))
      = maximumf P (broadcastInDim S50000x128 ![] Facts₀.bcast_S_S50000x128 Cert.Spec.c0) := by
  rfl

theorem relu_call3 (P : FVec Ideal S50000x128 .f32) :
    (TRef.of (T := ⟨S50000x128, .f32⟩) main_v123).toBuf (Val := Elt Ideal)
      (maximumf (F := Ideal) (φ := .f32) ((TRef.of (T := ⟨S50000x128, .f32⟩) main_v122).ofBuf (Val := Elt Ideal) P)
        ((TRef.of (T := ⟨S50000x128, .f32⟩) main_call3_v0).ofBuf (Val := Elt Ideal)
          ((TRef.of (T := ⟨S50000x128, .f32⟩) main_call3_v0).toBuf
            (broadcastInDim S50000x128 ![] Facts₀.bcast_S_S50000x128
              ((TRef.of (T := ⟨S_, .f32⟩) main_call3_cst).ofBuf (Val := Elt Ideal)
                ((TRef.of (T := ⟨S_, .f32⟩) main_call3_cst).toBuf (constant (F := Ideal) S_ .f32 0#32)))))))
      = maximumf P (broadcastInDim S50000x128 ![] Facts₀.bcast_S_S50000x128 Cert.Spec.c0) := by
  rfl

end SegA

variable (W : Valuation τ sig (Elt Ideal))

-- A convolution stretch is the specification's combination of the aggregated and the dense product rows, operation for operation.
attribute [local irreducible] Host.scatterAdd Host.gather Host.rsqrt Ideal.matmul in
theorem s1_out : after (seg1 (F := Ideal)) W (Proc.devRef .tc main_v48)
    = Cert.Spec.combine (Cert.Spec.aggOf (W (Proc.devRef .tc main_v1)) (W (Proc.devRef .tc main_v3)) (W (Proc.devRef .tc main_v25)) (Cert.Spec.lin (W (Proc.devRef .tc main_arg0)) (W (Proc.devRef .tc main_arg3))))
        (Cert.Spec.lin (W (Proc.devRef .tc main_arg0)) (W (Proc.devRef .tc main_arg3))) (Cert.Spec.col50000 (W (Proc.devRef .tc main_v26))) (Cert.Spec.row128 (W (Proc.devRef .tc main_arg4))) := by
  simp only [seg1]
  after_results_simp
  refine (SegA.relu_call0 _).trans ?_
  rfl

attribute [local irreducible] Host.scatterAdd Host.gather Host.rsqrt Ideal.matmul in
theorem s3_out : after (seg3 (F := Ideal)) W (Proc.devRef .tc main_v74)
    = Cert.Spec.combine (Cert.Spec.aggOf (W (Proc.devRef .tc main_v1)) (W (Proc.devRef .tc main_v3)) (W (Proc.devRef .tc main_v25)) (Cert.Spec.lin (W (Proc.devRef .tc main_v48)) (W (Proc.devRef .tc main_v50))))
        (Cert.Spec.lin (W (Proc.devRef .tc main_v48)) (W (Proc.devRef .tc main_v50))) (Cert.Spec.col50000 (W (Proc.devRef .tc main_v26))) (Cert.Spec.row128 (W (Proc.devRef .tc main_v52))) := by
  simp only [seg3]
  after_results_simp
  refine (SegA.relu_call1 _).trans ?_
  rfl

attribute [local irreducible] Host.scatterAdd Host.gather Host.rsqrt Ideal.matmul in
theorem s7_out : after (seg7 (F := Ideal)) W (Proc.devRef .tc main_v123)
    = Cert.Spec.combine (Cert.Spec.aggOf (W (Proc.devRef .tc main_v1)) (W (Proc.devRef .tc main_v3)) (W (Proc.devRef .tc main_v25)) (Cert.Spec.lin (W (Proc.devRef .tc main_v97)) (W (Proc.devRef .tc main_v99))))
        (Cert.Spec.lin (W (Proc.devRef .tc main_v97)) (W (Proc.devRef .tc main_v99))) (Cert.Spec.col50000 (W (Proc.devRef .tc main_v26))) (Cert.Spec.row128 (W (Proc.devRef .tc main_v101))) := by
  simp only [seg7]
  after_results_simp
  refine (SegA.relu_call3 _).trans ?_
  rfl

end Cert.ReferenceIdeal.RefValue

end
-- ==== Proof.RefSegB.lean ====
import proofs.«431361_j18107582120395_1_alg».proof.Proof.RefSegs
import proofs.«431361_j18107582120395_1_alg».proof.Proof.Spec
import Idealize.ShloMosaic.Lib.StableHlo.Run

noncomputable section

namespace Cert.ReferenceIdeal.RefValue

open Idealize.ShloMosaic Idealize.ShloMosaic.TcCoe Idealize.ShloMosaic.StableHlo Cert.ReferenceIdeal Cert.ReferenceIdeal.RefRun

variable (W : Valuation τ sig (Elt Ideal))

-- A layer's weight matrix, bias, scale and shift are slices of the stacked parameter arrays.
theorem s2_mat : after (seg2 (F := Ideal)) W (Proc.devRef .tc main_v50) = Cert.Spec.mat 0 (W (Proc.devRef .tc main_arg5)) := by
  simp only [seg2]
  after_results_simp
  rfl

theorem s2_vec : after (seg2 (F := Ideal)) W (Proc.devRef .tc main_v52) = Cert.Spec.vec 0 (W (Proc.devRef .tc main_arg6)) := by
  simp only [seg2]
  after_results_simp
  rfl

theorem s4_g : after (seg4 (F := Ideal)) W (Proc.devRef .tc main_v76) = Cert.Spec.vec 0 (W (Proc.devRef .tc main_arg7)) := by
  simp only [seg4]
  after_results_simp
  rfl

theorem s4_be : after (seg4 (F := Ideal)) W (Proc.devRef .tc main_v78) = Cert.Spec.vec 0 (W (Proc.devRef .tc main_arg8)) := by
  simp only [seg4]
  after_results_simp
  rfl

theorem s6_mat : after (seg6 (F := Ideal)) W (Proc.devRef .tc main_v99) = Cert.Spec.mat 1 (W (Proc.devRef .tc main_arg5)) := by
  simp only [seg6]
  after_results_simp
  rfl

theorem s6_vec : after (seg6 (F := Ideal)) W (Proc.devRef .tc main_v101) = Cert.Spec.vec 1 (W (Proc.devRef .tc main_arg6)) := by
  simp only [seg6]
  after_results_simp
  rfl

theorem s8_g : after (seg8 (F := Ideal)) W (Proc.devRef .tc main_v125) = Cert.Spec.vec 1 (W (Proc.devRef .tc main_arg7)) := by
  simp only [seg8]
  after_results_simp
  rfl

theorem s8_be : after (seg8 (F := Ideal)) W (Proc.devRef .tc main_v127) = Cert.Spec.vec 1 (W (Proc.devRef .tc main_arg8)) := by
  simp only [seg8]
  after_results_simp
  rfl

-- A normalisation stretch is the specification's column normalisation over the nodes, operation for operation.
attribute [local irreducible] Host.reduceAdd in
theorem s5_out : after (seg5 (F := Ideal)) W (Proc.devRef .tc main_v97)
    = Cert.Spec.bn (W (Proc.devRef .tc main_v74)) (W (Proc.devRef .tc main_v76)) (W (Proc.devRef .tc main_v78)) := by
  simp only [seg5]
  after_results_simp
  simp only [TRef.ofBuf, TRef.toBuf, cast_eq]
  rfl

attribute [local irreducible] Host.reduceAdd in
theorem s9_out : after (seg9 (F := Ideal)) W (Proc.devRef .tc main_v146)
    = Cert.Spec.bn (W (Proc.devRef .tc main_v123)) (W (Proc.devRef .tc main_v125)) (W (Proc.devRef .tc main_v127)) := by
  simp only [seg9]
  after_results_simp
  simp only [TRef.ofBuf, TRef.toBuf, cast_eq]
  rfl

attribute [local irreducible] Host.scatterAdd in
theorem s10_out : after (seg10 (F := Ideal)) W (Proc.devRef .tc main_v149)
    = Cert.Spec.pool (W (Proc.devRef .tc main_arg2)) (W (Proc.devRef .tc main_v146)) := by
  simp only [seg10]
  after_results_simp
  rfl

end Cert.ReferenceIdeal.RefValue

end
-- ==== Proof.RefSegC.lean ====
import proofs.«431361_j18107582120395_1_alg».proof.Proof.RefSegs
import proofs.«431361_j18107582120395_1_alg».proof.Proof.Spec
import Idealize.ShloMosaic.Lib.StableHlo.Run

noncomputable section

namespace Cert.ReferenceIdeal.RefValue

open Idealize.ShloMosaic Idealize.ShloMosaic.TcCoe Idealize.ShloMosaic.StableHlo Cert.ReferenceIdeal Cert.ReferenceIdeal.RefRun
open Cert.ReferenceIdeal.Facts₀

variable (W : Valuation τ sig (Elt Ideal))

-- The head's stretches: a dense layer with the rectifier, the column normalisation over the 64 rows, the last dense layer.
theorem s11_out : after (seg11 (F := Ideal)) W (Proc.devRef .tc main_v154)
    = Cert.Spec.reluH (addf (Host.dotGeneral (F := Ideal) (φ₁ := .f32) (φ₂ := .f32) dot_S64x128_S128x256_S64x256_1_0_0_1_n_n none
          (W (Proc.devRef .tc main_v149)) (W (Proc.devRef .tc main_arg9)))
        (Cert.Spec.rows256 (Cert.Spec.row256 (W (Proc.devRef .tc main_arg10))))) := by
  simp only [seg11]
  after_results_simp
  rfl

attribute [local irreducible] Host.reduceAdd Host.divf Host.rsqrt in
theorem s12_out : after (seg12 (F := Ideal)) W (Proc.devRef .tc main_v173)
    = Cert.Spec.bnH (W (Proc.devRef .tc main_v154)) (Cert.Spec.row256 (W (Proc.devRef .tc main_arg11)))
        (Cert.Spec.row256 (W (Proc.devRef .tc main_arg12))) := by
  simp only [seg12]
  after_results_simp
  rfl

theorem s13_out : after (seg13 (F := Ideal)) W (Proc.devRef .tc main_v178)
    = Cert.Spec.reluH (addf (Host.dotGeneral (F := Ideal) (φ₁ := .f32) (φ₂ := .f32) dot_S64x256_S256x256_S64x256_1_0_0_1_n_n none
          (W (Proc.devRef .tc main_v173)) (W (Proc.devRef .tc main_arg13)))
        (Cert.Spec.rows256 (Cert.Spec.row256 (W (Proc.devRef .tc main_arg14))))) := by
  simp only [seg13]
  after_results_simp
  rfl

attribute [local irreducible] Host.reduceAdd Host.divf Host.rsqrt in
theorem s14_out : after (seg14 (F := Ideal)) W (Proc.devRef .tc main_v197)
    = Cert.Spec.bnH (W (Proc.devRef .tc main_v178)) (Cert.Spec.row256 (W (Proc.devRef .tc main_arg15)))
        (Cert.Spec.row256 (W (Proc.devRef .tc main_arg16))) := by
  simp only [seg14]
  after_results_simp
  rfl

theorem s15_out : after (seg15 (F := Ideal)) W (Proc.devRef .tc main_v201)
    = (addf (Host.dotGeneral (F := Ideal) (φ₁ := .f32) (φ₂ := .f32) dot_S64x256_S256x1_S64x1_1_0_0_1_n_n none
          (W (Proc.devRef .tc main_v197)) (W (Proc.devRef .tc main_arg17)))
        (broadcastInDim S64x1 ![0, 1] bcast_S1x1_S64x1_0_1
          (broadcastInDim S1x1 ![1] bcast_S1_S1x1_1 (W (Proc.devRef .tc main_arg18) : FVec Ideal S1 .f32))) : FVec Ideal S64x1 .f32) := by
  simp only [seg15]
  after_results_simp

end Cert.ReferenceIdeal.RefValue

end
-- ==== Proof.RefKeep.lean ====
import proofs.«431361_j18107582120395_1_alg».proof.Proof.RefSegs
import Idealize.ShloMosaic.Lib.StableHlo.Run
import Idealize.ShloMosaic.PureOps.Ideal

set_option Elab.async false

noncomputable section

namespace Cert.ReferenceIdeal.RefValue

open Idealize.ShloMosaic Idealize.ShloMosaic.StableHlo Idealize.SL.Sem Cert.ReferenceIdeal Cert.ReferenceIdeal.RefRun

theorem after_app : ∀ (l₁ l₂ : List (HloOp τ sig (Elt Ideal))) (W : Valuation τ sig (Elt Ideal)), after (l₁ ++ l₂) W = after l₂ (after l₁ W)
  | [], _, _ => rfl
  | op :: l₁, l₂, W => by rw [List.cons_append, after_cons, after_cons, after_app l₁ l₂]

/-- Every buffer the operations write is numbered `lo` or higher. -/
def WritesFrom (lo : ℕ) (l : List (HloOp τ sig (Elt Ideal))) : Prop :=
  ∀ op ∈ l, ∀ b ∈ op.writes, ∃ y : Ref sig .tc, Proc.devRef .tc y = b ∧ lo ≤ y.idx

/-- Such operations leave every lower-numbered buffer as it was. -/
theorem WritesFrom.keep {lo : ℕ} {l : List (HloOp τ sig (Elt Ideal))} (h : WritesFrom lo l) (W : Valuation τ sig (Elt Ideal))
    {r : Ref sig .tc} (hr : (r.idx : ℕ) < lo) : after l W (Proc.devRef .tc r) = W (Proc.devRef .tc r) :=
  after_of_forall_not_mem l W fun op hop hb => by
    obtain ⟨y, he, hy⟩ := h op hop _ hb
    exact absurd (Proc.devRef_injective _ he ▸ hy) (not_le.mpr hr)

/-- Stretches run in order, each paired with a bound its writes start from. -/
def afterAll : List (ℕ × List (HloOp τ sig (Elt Ideal))) → Valuation τ sig (Elt Ideal) → Valuation τ sig (Elt Ideal)
  | [], W => W
  | p :: ss, W => afterAll ss (after p.2 W)

theorem afterAll_append : ∀ (s₁ s₂ : List (ℕ × List (HloOp τ sig (Elt Ideal)))) (W : Valuation τ sig (Elt Ideal)),
    afterAll (s₁ ++ s₂) W = afterAll s₂ (afterAll s₁ W)
  | [], _, _ => rfl
  | _ :: s₁, s₂, W => afterAll_append s₁ s₂ _

theorem afterAll_keep {r : Ref sig .tc} : ∀ (ss : List (ℕ × List (HloOp τ sig (Elt Ideal)))) (W : Valuation τ sig (Elt Ideal)),
    (∀ p ∈ ss, WritesFrom p.1 p.2 ∧ (r.idx : ℕ) < p.1) → afterAll ss W (Proc.devRef .tc r) = W (Proc.devRef .tc r)
  | [], _, _ => rfl
  | p :: ss, W, h => (afterAll_keep ss _ fun q hq => h q (List.mem_cons_of_mem _ hq)).trans
      ((h p List.mem_cons_self).1.keep W (h p List.mem_cons_self).2)

/-- A buffer numbered below the bounds of all stretches from the `j`-th on holds after `k ≥ j` stretches what it held after `j`. -/
theorem afterAll_take_keep {ss : List (ℕ × List (HloOp τ sig (Elt Ideal)))} (hs : ∀ p ∈ ss, WritesFrom p.1 p.2)
    (W : Valuation τ sig (Elt Ideal)) {r : Ref sig .tc} {j k : ℕ} (hjk : j ≤ k) (hr : ∀ p ∈ ss.drop j, (r.idx : ℕ) < p.1) :
    afterAll (ss.take k) W (Proc.devRef .tc r) = afterAll (ss.take j) W (Proc.devRef .tc r) := by
  obtain ⟨d, rfl⟩ := Nat.exists_eq_add_of_le hjk
  rw [List.take_add, afterAll_append]
  exact afterAll_keep _ _ fun p hp => ⟨hs p (List.mem_of_mem_drop (List.mem_of_mem_take hp)), hr p (List.mem_of_mem_take hp)⟩

/-- The reference's sixteen stretches, each with the number of the first buffer it writes. -/
abbrev stretches : List (ℕ × List (HloOp τ sig (Elt Ideal))) :=
  [(19, seg0), (53, seg1), (80, seg2), (84, seg3), (111, seg4), (115, seg5), (159, seg6), (163, seg7), (190, seg8), (194, seg9),
   (238, seg10), (242, seg11), (249, seg12), (293, seg13), (300, seg14), (344, seg15)]

theorem writes_single {lo : ℕ} {y : Ref sig .tc} (h : lo ≤ y.idx) :
    ∀ b ∈ ({Proc.devRef (τ := τ) .tc y} : Finset (DevRef τ sig)), ∃ y' : Ref sig .tc, Proc.devRef .tc y' = b ∧ lo ≤ y'.idx :=
  fun _ hb => ⟨y, (Finset.mem_singleton.mp hb).symm, h⟩

theorem stretches_from : ∀ p ∈ stretches, WritesFrom p.1 p.2 := by
  simp only [stretches, WritesFrom, List.forall_mem_cons, List.not_mem_nil, false_imp_iff, implies_true, and_true,
    nullary_writes, unary_writes, binary_writes, ternary_writes, reshape_writes]
  and_intros <;> exact writes_single (by decide)

/-- The program's arguments: the buffers numbered below every stretch's bound. -/
abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

theorem args_lt : ∀ r ∈ args, ∀ p ∈ stretches, (r.idx : ℕ) < p.1 := by decide

end Cert.ReferenceIdeal.RefValue

end
-- ==== Proof.RefValue.lean ====
import proofs.«431361_j18107582120395_1_alg».proof.Proof.RefSegA
import proofs.«431361_j18107582120395_1_alg».proof.Proof.RefSegA1
import proofs.«431361_j18107582120395_1_alg».proof.Proof.RefSegB
import proofs.«431361_j18107582120395_1_alg».proof.Proof.RefSegC
import proofs.«431361_j18107582120395_1_alg».proof.Proof.RefKeep
import Idealize.ShloMosaic.Lib.StableHlo.Run

set_option Elab.async false

noncomputable section

namespace Cert.ReferenceIdeal.RefValue

open Idealize.ShloMosaic Idealize.ShloMosaic.StableHlo Idealize.SL.Sem Cert.ReferenceIdeal Cert.ReferenceIdeal.RefRun
open Cert.ReferenceIdeal.Facts₀

/-- The buffer contents after the first `k` stretches. -/
def Vn (V : Valuation τ sig (Elt Ideal)) (k : ℕ) : Valuation τ sig (Elt Ideal) := afterAll (stretches.take k) V

theorem after_ops (V : Valuation τ sig (Elt Ideal)) : after (ops (F := Ideal)) V = Vn V 16 := by
  rw [ops_eq_segs]
  simp only [after_app]
  rfl

/-- A buffer numbered below the bounds of the stretches from the `j`-th on is as the first `j` stretches left it. -/
theorem Vn_keep (V : Valuation τ sig (Elt Ideal)) (j k : ℕ) (r : Ref sig .tc) (hjk : j ≤ k) (hr : ∀ p ∈ stretches.drop j, (r.idx : ℕ) < p.1) :
    Vn V k (Proc.devRef .tc r) = Vn V j (Proc.devRef .tc r) :=
  afterAll_take_keep stretches_from V hjk hr

theorem Vn_arg (V : Valuation τ sig (Elt Ideal)) (k : ℕ) {r : Ref sig .tc} (h : r ∈ args) :
    Vn V k (no_index (Proc.devRef .tc r)) = V (Proc.devRef .tc r) :=
  Vn_keep V 0 k r (Nat.zero_le k) (args_lt r h)

theorem arg_eq (V : Valuation τ sig (Elt Ideal)) (r : Ref sig .tc) (h : r ∈ args) :
    after (ops (F := Ideal)) V (Proc.devRef .tc r) = V (Proc.devRef .tc r) := by
  rw [after_ops]
  exact Vn_arg V 16 h

/-- A convolution after stretch 0 reads the edge ends and weights stretch 0 computed from the edge list. -/
theorem conv_at (V : Valuation τ sig (Elt Ideal)) (k : ℕ) (hk : 1 ≤ k) (h : FVec Ideal S50000x128 .f32) (M : FVec Ideal S128x128 .f32) (b : FVec Ideal S128 .f32) :
    Spec.combine (Spec.aggOf (Vn V k (Proc.devRef .tc main_v1)) (Vn V k (Proc.devRef .tc main_v3)) (Vn V k (Proc.devRef .tc main_v25)) (Spec.lin h M))
        (Spec.lin h M) (Spec.col50000 (Vn V k (Proc.devRef .tc main_v26))) (Spec.row128 b)
      = Spec.gcn (V (Proc.devRef .tc main_arg1)) h M b := by
  rw [(Vn_keep V 1 k main_v1 hk (by decide)).trans (s0_src V), (Vn_keep V 1 k main_v3 hk (by decide)).trans (s0_dst V),
    (Vn_keep V 1 k main_v25 hk (by decide)).trans (s0_enorm V), (Vn_keep V 1 k main_v26 hk (by decide)).trans (s0_snorm V)]
  rfl

theorem out_eq (V : Valuation τ sig (Elt Ideal)) : after (ops (F := Ideal)) V (Proc.devRef .tc main_v201) = Cert.Spec.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  rw [after_ops]
  refine (s15_out (Vn V 15)).trans ?_
  rw [show Vn V 15 (Proc.devRef .tc main_v197) = _ from s14_out (Vn V 14),
    show Vn V 14 (Proc.devRef .tc main_v178) = _ from s13_out (Vn V 13),
    show Vn V 13 (Proc.devRef .tc main_v173) = _ from s12_out (Vn V 12),
    show Vn V 12 (Proc.devRef .tc main_v154) = _ from s11_out (Vn V 11),
    show Vn V 11 (Proc.devRef .tc main_v149) = _ from s10_out (Vn V 10),
    show Vn V 10 (Proc.devRef .tc main_v146) = _ from s9_out (Vn V 9),
    show Vn V 9 (Proc.devRef .tc main_v125) = _ from s8_g (Vn V 8),
    show Vn V 9 (Proc.devRef .tc main_v127) = _ from s8_be (Vn V 8),
    (Vn_keep V 8 9 main_v123 (by decide) (by decide)).trans (s7_out (Vn V 7)), conv_at V 7 (by decide),
    show Vn V 7 (Proc.devRef .tc main_v99) = _ from s6_mat (Vn V 6),
    show Vn V 7 (Proc.devRef .tc main_v101) = _ from s6_vec (Vn V 6),
    (Vn_keep V 6 7 main_v97 (by decide) (by decide)).trans (s5_out (Vn V 5)),
    show Vn V 5 (Proc.devRef .tc main_v76) = _ from s4_g (Vn V 4),
    show Vn V 5 (Proc.devRef .tc main_v78) = _ from s4_be (Vn V 4),
    (Vn_keep V 4 5 main_v74 (by decide) (by decide)).trans (s3_out (Vn V 3)), conv_at V 3 (by decide),
    show Vn V 3 (Proc.devRef .tc main_v50) = _ from s2_mat (Vn V 2),
    show Vn V 3 (Proc.devRef .tc main_v52) = _ from s2_vec (Vn V 2),
    (Vn_keep V 2 3 main_v48 (by decide) (by decide)).trans (s1_out (Vn V 1)), conv_at V 1 (by decide)]
  simp (disch := decide) only [Vn_arg]
  rfl

end Cert.ReferenceIdeal.RefValue

end
-- ==== Proof.PreReal.lean ====
import proofs.«431361_j18107582120395_1_alg».proof.Defs
import proofs.«431361_j18107582120395_1_alg».proof.Proof.Gen.KernelIdeal
import proofs.«431361_j18107582120395_1_alg».proof.Proof.Gen.Pre_finite_inputs
import proofs.«431361_j18107582120395_1_alg».proof.Proof.Spec
import Idealize.ShloMosaic.Lib.ReduceAll
import Idealize.ShloMosaic.Lib.ValueIdx
import Idealize.ShloMosaic.PureOps.Ideal

noncomputable section

namespace Cert.Proof.PreReal

open Idealize.ShloMosaic Idealize.SL.Sem

instance : Subsingleton Cert.Pre_finite_inputs.S_.Idx := ⟨fun a b => funext fun d => d.elim0⟩

theorem inf_word : Ideal.ofBits .f32 0x7F800000#32 = (⊤ : EReal) := by
  simp [Ideal.ofBits, Ideal.ieee]

/-- `|x| < ⊤` rules out both infinities. -/
theorem real_of_abs_lt_top (x : EReal) (h : Ideal.cmp .olt (max x (-x)) (⊤ : EReal) = 1#1) :
    ∃ r : ℝ, x = (r : EReal) := by
  induction x using EReal.rec with
  | bot => simp [Ideal.cmp] at h
  | coe r => exact ⟨r, rfl⟩
  | top => simp [Ideal.cmp] at h

/-- If the conjunction over all entries of `|x i| < ⊤` holds, every entry is real. -/
theorem isReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
          (cmpf .olt (Host.absf x)
            (broadcastInDim s ![] hb (constant (F := Ideal) Cert.Pre_finite_inputs.S_ .f32 0x7F800000#32)))
          init hr hu j = 1#1) :
    Cert.Spec.IsReal x := by
  intro i
  have h := Host.reduce_andi_all _ init hr hu j e i
  have h' : Ideal.cmp .olt (max (x i) (-(x i))) (Ideal.ofBits .f32 0x7F800000#32) = 1#1 := h
  rw [inf_word] at h'
  exact real_of_abs_lt_top _ h'

open Cert.KernelIdeal in
/-- Finite inputs: the arrays that reach the normalisations (features, weights, biases, scales, shifts) are real-valued. -/
theorem reals_of_pre (m : (ℓ : Loc nD τ sig) → Buf (Elt Ideal) ℓ) (h : Cert.Pre_KernelIdeal m) (c : Dev nD) :
    Cert.Spec.IsReal (m ((c.tc : Thread nD τ).loc main_arg0))
      ∧ Cert.Spec.IsReal (m ((c.tc : Thread nD τ).loc main_arg3))
      ∧ Cert.Spec.IsReal (m ((c.tc : Thread nD τ).loc main_arg4))
      ∧ Cert.Spec.IsReal (m ((c.tc : Thread nD τ).loc main_arg5))
      ∧ Cert.Spec.IsReal (m ((c.tc : Thread nD τ).loc main_arg6))
      ∧ Cert.Spec.IsReal (m ((c.tc : Thread nD τ).loc main_arg7))
      ∧ Cert.Spec.IsReal (m ((c.tc : Thread nD τ).loc main_arg8)) := by
  have e := congrFun (h c) ValueIdx.ix0
  unfold Cert.Pre_finite_inputs.fn Cert.Pre_finite_inputs.fn_part1 Cert.Pre_finite_inputs.fn_part2
    Cert.Pre_finite_inputs.fn_part3 Cert.Pre_finite_inputs.fn_part4 at e
  simp only [Idealize.ShloMosaic.andi, IntOp.andi_eq_one] at e
  obtain ⟨⟨⟨⟨⟨⟨⟨⟨⟨⟨⟨⟨⟨⟨⟨⟨h0, h3⟩, h4⟩, h5⟩, h6⟩, h7⟩, h8⟩, -⟩, -⟩, -⟩, -⟩, -⟩, -⟩, -⟩, -⟩, -⟩, -⟩ := e
  exact ⟨isReal_of_all _ _ _ _ _ _ h0, isReal_of_all _ _ _ _ _ _ h3, isReal_of_all _ _ _ _ _ _ h4, isReal_of_all _ _ _ _ _ _ h5, isReal_of_all _ _ _ _ _ _ h6, isReal_of_all _ _ _ _ _ _ h7, isReal_of_all _ _ _ _ _ _ h8⟩

end Cert.Proof.PreReal

end
-- ==== Proof.lean ====
import proofs.«431361_j18107582120395_1_alg».proof.Defs
import proofs.«431361_j18107582120395_1_alg».proof.Proof.Gen.Kernel
import proofs.«431361_j18107582120395_1_alg».proof.Proof.Gen.Kernel.Skeleton
import proofs.«431361_j18107582120395_1_alg».proof.Proof.Gen.Kernel.Launch
import proofs.«431361_j18107582120395_1_alg».proof.Proof.Gen.Kernel.Points
import proofs.«431361_j18107582120395_1_alg».proof.Proof.Gen.Kernel.Frame
import proofs.«431361_j18107582120395_1_alg».proof.Proof.Gen.KernelIdeal
import proofs.«431361_j18107582120395_1_alg».proof.Proof.Gen.KernelIdeal.Skeleton
import proofs.«431361_j18107582120395_1_alg».proof.Proof.Gen.KernelIdeal.Launch
import proofs.«431361_j18107582120395_1_alg».proof.Proof.Gen.KernelIdeal.Points
import proofs.«431361_j18107582120395_1_alg».proof.Proof.Gen.KernelIdeal.Frame
import proofs.«431361_j18107582120395_1_alg».proof.Proof.Gen.ReferenceIdeal
import proofs.«431361_j18107582120395_1_alg».proof.Proof.Gen.Pre_finite_inputs
import proofs.«431361_j18107582120395_1_alg».proof.Proof.KRun
import proofs.«431361_j18107582120395_1_alg».proof.Proof.KValue
import proofs.«431361_j18107582120395_1_alg».proof.Proof.RefRun
import proofs.«431361_j18107582120395_1_alg».proof.Proof.RefValue
import proofs.«431361_j18107582120395_1_alg».proof.Proof.PreReal
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

section Reference
open Idealize.ShloMosaic.StableHlo Cert.ReferenceIdeal Cert.ReferenceIdeal.RefRun Cert.ReferenceIdeal.RefValue

/-- After the reference's operations an argument buffer holds what it was launched with. -/
theorem ref_kept {m : (ℓ : Loc nD τ sig) → Buf (Elt Ideal) ℓ} {mem : (ℓ : Loc nD τ sig) → Buf (Elt Ideal) ℓ} {c : Dev nD}
    (h : ∀ b : Ref sig .tc, mem ((c.tc : Thread nD τ).loc b) = after ops (launchContents m c) (b : DevRef τ sig))
    (b : Ref sig .tc) (hb : b ∈ args) : mem ((c.tc : Thread nD τ).loc b) = m ((c.tc : Thread nD τ).loc b) :=
  (h b).trans (arg_eq _ b hb)

theorem frame_ri : Cert.frame_ReferenceIdeal := fun m ρ _ =>
  (θ_run Cert.ReferenceIdeal.defs _ _).mono (fun r h c => by
    repeat' apply And.intro
    all_goals exact ref_kept (h c) _ (by decide)) (run (F := Ideal) m ρ)

end Reference

open Cert.KernelIdeal.KValue Cert.Spec in
/-- Finite inputs make every activation the normalisations see real-valued, so the kernel ends at the network's
    output; the reference does by its operations; the arguments agree. -/
theorem algebraic : Cert.algebraic_KernelIdeal_ReferenceIdeal := by
  intro m ρ m' ρ' hpre hagree
  refine ⟨fun c => outOf m c, ?_, ?_⟩
  · refine (θ_run _ _ _).mono (fun r h c => ?_) (Cert.KernelIdeal.Gen.run_value (F := Ideal) m ρ)
    obtain ⟨h0, h3, h4, h5, h6, h7, h8⟩ := Cert.Proof.PreReal.reals_of_pre m hpre c
    have ha : IsReal (a2 m c) := real_gcn _ _ _ _ (real_gcn _ _ _ _ h0 h3 h4) (real_mat 0 _ h5) (real_vec 0 _ h6)
    have ha' : IsReal (a3 m c) :=
      real_gcn _ _ _ _ (real_bn _ _ _ ha (real_vec 0 _ h7) (real_vec 0 _ h8) (var_nonneg_real _ ha)) (real_mat 1 _ h5) (real_vec 1 _ h6)
    exact ⟨(h c).1.trans (W22_out m ρ c ha ha'), (h c).2⟩
  · refine (θ_run _ _ _).mono (fun r h c => ⟨?_, ?_⟩) (Cert.ReferenceIdeal.RefRun.run (F := Ideal) m' ρ')
    · obtain ⟨e0, e1, e2, e3, e4, e5, e6, e7, e8, e9, e10, e11, e12, e13, e14, e15, e16, e17, e18⟩ := hagree c
      refine (h c Cert.ReferenceIdeal.main_v201).trans ((Cert.ReferenceIdeal.RefValue.out_eq _).trans ?_)
      show _ = outOf m c
      unfold outOf arg
      rw [← e0, ← e1, ← e2, ← e3, ← e4, ← e5, ← e6, ← e7, ← e8, ← e9, ← e10, ← e11, ← e12, ← e13, ← e14, ← e15, ← e16, ← e17, ← e18]
    · repeat' apply And.intro
      all_goals exact ref_kept (h c) _ (by decide)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
